-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v75)) (v1 : (c : Dev Cert.KernelIdeal.nD) → Buf (Elt Ideal) ((c.tc : Thread Cert.KernelIdeal.nD Cert.KernelIdeal.τ).loc Cert.KernelIdeal.main_v91)) (v2 : (c : Dev Cert.KernelIdeal.nD) → Buf (Elt Ideal) ((c.tc : Thread Cert.KernelIdeal.nD Cert.KernelIdeal.τ).loc Cert.KernelIdeal.main_v93)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v75) = v0 c
          ∧ r.2.mem ((c.tc : Thread Cert.KernelIdeal.nD Cert.KernelIdeal.τ).loc Cert.KernelIdeal.main_v91) = v1 c
          ∧ r.2.mem ((c.tc : Thread Cert.KernelIdeal.nD Cert.KernelIdeal.τ).loc Cert.KernelIdeal.main_v93) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_v102) = v1 c
          ∧ r.2.mem ((c.tc : Thread Cert.ReferenceIdeal.nD Cert.ReferenceIdeal.τ).loc Cert.ReferenceIdeal.main_v114) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S100000 : Shape := ⟨1, ![100000]⟩
abbrev S64x64 : Shape := ⟨2, ![64, 64]⟩
abbrev S64x32 : Shape := ⟨2, ![64, 32]⟩
abbrev S32 : Shape := ⟨1, ![32]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg6 : FVec F S32 .f32) (main_arg7 : FVec F S64x32 .f32) (main_arg8 : FVec F S32 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg6
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S64x32 .f32 := Host.absf main_arg7
  let main_cst_8 : FVec F S_ .f32 := constant S_ .f32 0x7F800000#32
  let main_v25 : FVec F S64x32 .f32 := broadcastInDim S64x32 ![] bcast_S_S64x32 main_cst_8
  let main_v26 : IVec S64x32 1 := cmpf .olt main_v24 main_v25
  let main_c_9 : IVec S_ 1 := constantI S_ 1 1#1
  let main_v27 : IVec S_ 1 := (fun x v => Host.reduce IntOp.andi x v reducesTo_S64x32_S_d0_1 h_S_) main_v26 main_c_9
  let main_v28 : IVec S_ 1 := andi main_v23 main_v27
  let main_v29 : FVec F S32 .f32 := Host.absf main_arg8
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  main_v33

def fn {F : FTy → Type} [FloatOps F] (main_arg0 : FVec F S100000x64 .f32) (main_arg1 : IVec S2x1600000 32) (main_arg2 : IVec S100000 32) (main_arg3 : FVec F S64x64 .f32) (main_arg4 : FVec F S64x64 .f32) (main_arg5 : FVec F S64x32 .f32) (main_arg6 : FVec F S32 .f32) (main_arg7 : FVec F S64x32 .f32) (main_arg8 : FVec F S32 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64x32 .f32 := Host.absf main_arg5
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg6 main_arg7 main_arg8 main_v13 main_v16
-- ==== Kernel.lean ====
abbrev S100000x64 : Shape := ⟨2, ![100000, 64]⟩
abbrev S2x1600000 : Shape := ⟨2, ![2, 1600000]⟩
abbrev S100000 : Shape := ⟨1, ![100000]⟩
abbrev S64x64 : Shape := ⟨2, ![64, 64]⟩
abbrev S64x32 : Shape := ⟨2, ![64, 32]⟩
abbrev S32 : Shape := ⟨1, ![32]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S10000x64 : Shape := ⟨2, ![10000, 64]⟩
abbrev S1700000x64 : Shape := ⟨2, ![1700000, 64]⟩
abbrev S100000x32 : Shape := ⟨2, ![100000, 32]⟩
abbrev S10000x32 : Shape := ⟨2, ![10000, 32]⟩
abbrev S1700000x32 : Shape := ⟨2, ![1700000, 32]⟩
abbrev S1x32 : Shape := ⟨2, ![1, 32]⟩
abbrev S100000x1 : Shape := ⟨2, ![100000, 1]⟩
abbrev S10000x1 : Shape := ⟨2, ![10000, 1]⟩
abbrev S64x1 : Shape := ⟨2, ![64, 1]⟩

abbrev nBuf : Space → Nat
  | .hbm => 125
  | .vmem => 45
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S100000, .i32⟩
  | .hbm, ⟨3, _⟩ => ⟨S64x64, .f32⟩
  | .hbm, ⟨4, _⟩ => ⟨S64x64, .f32⟩
  | .hbm, ⟨5, _⟩ => ⟨S64x32, .f32⟩
  | .hbm, ⟨6, _⟩ => ⟨S32, .f32⟩
  | .hbm, ⟨7, _⟩ => ⟨S64x32, .f32⟩
  | .hbm, ⟨8, _⟩ => ⟨S32, .f32⟩
  | .hbm, ⟨9, _⟩ => ⟨S100000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S1x1600000, .i32⟩
  | .hbm, ⟨14, _⟩ => ⟨S1600000, .i32⟩
  | .hbm, ⟨15, _⟩ => ⟨S1700000, .i32⟩
  | .hbm, ⟨16, _⟩ => ⟨S_, .f32⟩
  | .hbm, ⟨17, _⟩ => ⟨S1700000, .f32⟩
  | .hbm, ⟨18, _⟩ => ⟨S_, .f32⟩
  | .hbm, ⟨19, _⟩ => ⟨S100000, .f32⟩
  | .hbm, ⟨20, _⟩ => ⟨S1700000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .i1⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S100000x64, .f32⟩
  | .hbm, ⟨50, _⟩ => ⟨S1700000x1, .f32⟩
  | .hbm, ⟨51, _⟩ => ⟨S_, .i32⟩
  | .hbm, ⟨52, _⟩ => ⟨S1700000, .i32⟩
  | .hbm, ⟨53, _⟩ => ⟨S1700000, .i1⟩
  | .hbm, ⟨54, _⟩ => ⟨S_, .i32⟩
  | .hbm, ⟨55, _⟩ => ⟨S1700000, .i32⟩
  | .hbm, ⟨56, _⟩ => ⟨S1700000, .i32⟩
  | .hbm, ⟨57, _⟩ => ⟨S1700000, .i32⟩
  | .hbm, ⟨58, _⟩ => ⟨S1700000x1, .i32⟩
  | .hbm, ⟨59, _⟩ => ⟨S1700000x64, .f32⟩
  | .hbm, ⟨60, _⟩ => ⟨S1700000x64, .f32⟩
  | .hbm, ⟨61, _⟩ => ⟨S1700000x64, .f32⟩
  | .hbm, ⟨62, _⟩ => ⟨S_, .f32⟩
  | .hbm, ⟨63, _⟩ => ⟨S100000x64, .f32⟩
  | .hbm, ⟨64, _⟩ => ⟨S1700000x1, .i32⟩
  | .hbm, ⟨65, _⟩ => ⟨S100000x64, .f32⟩
  | .hbm, ⟨66, _⟩ => ⟨S100000x64, .f32⟩
  | .hbm, ⟨67, _⟩ => ⟨S100000x64, .f32⟩
  | .hbm, ⟨68, _⟩ => ⟨S1700000x1, .f32⟩
  | .hbm, ⟨69, _⟩ => ⟨S_, .i32⟩
  | .hbm, ⟨70, _⟩ => ⟨S1700000, .i32⟩
  | .hbm, ⟨71, _⟩ => ⟨S1700000, .i1⟩
  | .hbm, ⟨72, _⟩ => ⟨S_, .i32⟩
  | .hbm, ⟨73, _⟩ => ⟨S1700000, .i32⟩
  | .hbm, ⟨74, _⟩ => ⟨S1700000, .i32⟩
  | .hbm, ⟨75, _⟩ => ⟨S1700000, .i32⟩
  | .hbm, ⟨76, _⟩ => ⟨S1700000x1, .i32⟩
  | .hbm, ⟨77, _⟩ => ⟨S1700000x64, .f32⟩
  | .hbm, ⟨78, _⟩ => ⟨S1700000x64, .f32⟩
  | .hbm, ⟨79, _⟩ => ⟨S1700000x64, .f32⟩
  | .hbm, ⟨80, _⟩ => ⟨S_, .f32⟩
  | .hbm, ⟨81, _⟩ => ⟨S100000x64, .f32⟩
  | .hbm, ⟨82, _⟩ => ⟨S1700000x1, .i32⟩
  | .hbm, ⟨83, _⟩ => ⟨S100000x64, .f32⟩
  | .hbm, ⟨84, _⟩ => ⟨S100000x64, .f32⟩
  | .hbm, ⟨85, _⟩ => ⟨S100000x32, .f32⟩
  | .hbm, ⟨86, _⟩ => ⟨S1700000x1, .f32⟩
  | .hbm, ⟨87, _⟩ => ⟨S_, .i32⟩
  | .hbm, ⟨88, _⟩ => ⟨S1700000, .i32⟩
  | .hbm, ⟨89, _⟩ => ⟨S1700000, .i1⟩
  | .hbm, ⟨90, _⟩ => ⟨S_, .i32⟩
  | .hbm, ⟨91, _⟩ => ⟨S1700000, .i32⟩
  | .hbm, ⟨92, _⟩ => ⟨S1700000, .i32⟩
  | .hbm, ⟨93, _⟩ => ⟨S1700000, .i32⟩
  | .hbm, ⟨94, _⟩ => ⟨S1700000x1, .i32⟩
  | .hbm, ⟨95, _⟩ => ⟨S1700000x32, .f32⟩
  | .hbm, ⟨96, _⟩ => ⟨S1700000x32, .f32⟩
  | .hbm, ⟨97, _⟩ => ⟨S1700000x32, .f32⟩
  | .hbm, ⟨98, _⟩ => ⟨S_, .f32⟩
  | .hbm, ⟨99, _⟩ => ⟨S100000x32, .f32⟩
  | .hbm, ⟨100, _⟩ => ⟨S1700000x1, .i32⟩
  | .hbm, ⟨101, _⟩ => ⟨S100000x32, .f32⟩
  | .hbm, ⟨102, _⟩ => ⟨S1x32, .f32⟩
  | .hbm, ⟨103, _⟩ => ⟨S100000x32, .f32⟩
  | .hbm, ⟨104, _⟩ => ⟨S100000x32, .f32⟩
  | .hbm, ⟨105, _⟩ => ⟨S1700000x1, .f32⟩
  | .hbm, ⟨106, _⟩ => ⟨S_, .i32⟩
  | .hbm, ⟨107, _⟩ => ⟨S1700000, .i32⟩
  | .hbm, ⟨108, _⟩ => ⟨S1700000, .i1⟩
  | .hbm, ⟨109, _⟩ => ⟨S_, .i32⟩
  | .hbm, ⟨110, _⟩ => ⟨S1700000, .i32⟩
  | .hbm, ⟨111, _⟩ => ⟨S1700000, .i32⟩
  | .hbm, ⟨112, _⟩ => ⟨S1700000, .i32⟩
  | .hbm, ⟨113, _⟩ => ⟨S1700000x1, .i32⟩
  | .hbm, ⟨114, _⟩ => ⟨S1700000x32, .f32⟩
  | .hbm, ⟨115, _⟩ => ⟨S1700000x32, .f32⟩
  | .hbm, ⟨116, _⟩ => ⟨S1700000x32, .f32⟩
  | .hbm, ⟨117, _⟩ => ⟨S_, .f32⟩
  | .hbm, ⟨118, _⟩ => ⟨S100000x32, .f32⟩
  | .hbm, ⟨119, _⟩ => ⟨S1700000x1, .i32⟩
  | .hbm, ⟨120, _⟩ => ⟨S100000x32, .f32⟩
  | .hbm, ⟨121, _⟩ => ⟨S1x32, .f32⟩
  | .hbm, ⟨122, _⟩ => ⟨S100000x32, .f32⟩
  | .hbm, ⟨123, _⟩ => ⟨S100000x1, .i32⟩
  | .hbm, ⟨124, _⟩ => ⟨S64x32, .f32⟩
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S64x64, .f32⟩
  | .local _ .vmem, ⟨12, _⟩ => ⟨S10000x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S10000x64, .f32⟩
  | .local _ .vmem, ⟨18, _⟩ => ⟨S10000x64, .f32⟩
  | .local _ .vmem, ⟨19, _⟩ => ⟨S10000x64, .f32⟩
  | .local _ .vmem, ⟨20, _⟩ => ⟨S64x32, .f32⟩
  | .local _ .vmem, ⟨21, _⟩ => ⟨S10000x32, .f32⟩
  | .local _ .vmem, ⟨22, _⟩ => ⟨S10000x32, .f32⟩
  | .local _ .vmem, ⟨23, _⟩ => ⟨S10000x32, .f32⟩
  | .local _ .vmem, ⟨24, _⟩ => ⟨S10000x32, .f32⟩
  | .local _ .vmem, ⟨25, _⟩ => ⟨S1x32, .f32⟩
  | .local _ .vmem, ⟨26, _⟩ => ⟨S10000x32, .f32⟩
  | .local _ .vmem, ⟨27, _⟩ => ⟨S10000x32, .f32⟩
  | .local _ .vmem, ⟨28, _⟩ => ⟨S10000x64, .f32⟩
  | .local _ .vmem, ⟨29, _⟩ => ⟨S10000x64, .f32⟩
  | .local _ .vmem, ⟨30, _⟩ => ⟨S64x32, .f32⟩
  | .local _ .vmem, ⟨31, _⟩ => ⟨S10000x32, .f32⟩
  | .local _ .vmem, ⟨32, _⟩ => ⟨S10000x32, .f32⟩
  | .local _ .vmem, ⟨33, _⟩ => ⟨S10000x32, .f32⟩
  | .local _ .vmem, ⟨34, _⟩ => ⟨S10000x32, .f32⟩
  | .local _ .vmem, ⟨35, _⟩ => ⟨S1x32, .f32⟩
  | .local _ .vmem, ⟨36, _⟩ => ⟨S10000x32, .f32⟩
  | .local _ .vmem, ⟨37, _⟩ => ⟨S10000x32, .f32⟩
  | .local _ .vmem, ⟨38, _⟩ => ⟨S10000x32, .f32⟩
  | .local _ .vmem, ⟨39, _⟩ => ⟨S10000x32, .f32⟩
  | .local _ .vmem, ⟨40, _⟩ => ⟨S10000x1, .i32⟩
  | .local _ .vmem, ⟨41, _⟩ => ⟨S10000x1, .i32⟩
  | .local _ .vmem, ⟨42, _⟩ => ⟨S64x32, .f32⟩
  | .local _ .vmem, ⟨43, _⟩ => ⟨S64x32, .f32⟩
  | .local _ .vmem, ⟨44, _⟩ => ⟨S64x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_c_6 : Ref sig .tc := ⟨.hbm, 51, rfl⟩
abbrev main_v32 : Ref sig .tc := ⟨.hbm, 52, rfl⟩
abbrev main_v33 : Ref sig .tc := ⟨.hbm, 53, rfl⟩
abbrev main_c_7 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_c_9 : Ref sig .tc := ⟨.hbm, 69, rfl⟩
abbrev main_v47 : Ref sig .tc := ⟨.hbm, 70, rfl⟩
abbrev main_v48 : Ref sig .tc := ⟨.hbm, 71, rfl⟩
abbrev main_c_10 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_11 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_c_12 : Ref sig .tc := ⟨.hbm, 87, rfl⟩
abbrev main_v62 : Ref sig .tc := ⟨.hbm, 88, rfl⟩
abbrev main_v63 : Ref sig .tc := ⟨.hbm, 89, rfl⟩
abbrev main_c_13 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_cst_14 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_c_15 : Ref sig .tc := ⟨.hbm, 106, rfl⟩
abbrev main_v78 : Ref sig .tc := ⟨.hbm, 107, rfl⟩
abbrev main_v79 : Ref sig .tc := ⟨.hbm, 108, rfl⟩
abbrev main_c_16 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_cst_17 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc2_stg0_0 : Ref sig .tc := ⟨.vmem, 9, rfl⟩
abbrev cc2_stg0_1 : Ref sig .tc := ⟨.vmem, 10, rfl⟩
abbrev cc2_stg1_0 : Ref sig .tc := ⟨.vmem, 11, rfl⟩
abbrev cc2_stg2_0 : Ref sig .tc := ⟨.vmem, 12, rfl⟩
abbrev cc2_stg2_1 : Ref sig .tc := ⟨.vmem, 13, rfl⟩
abbrev cc3_stg0_0 : Ref sig .tc := ⟨.vmem, 14, rfl⟩
abbrev cc3_stg0_1 : Ref sig .tc := ⟨.vmem, 15, rfl⟩
abbrev cc3_stg1_0 : Ref sig .tc := ⟨.vmem, 16, rfl⟩
abbrev cc3_stg1_1 : Ref sig .tc := ⟨.vmem, 17, rfl⟩
abbrev cc4_stg0_0 : Ref sig .tc := ⟨.vmem, 18, rfl⟩
abbrev cc4_stg0_1 : Ref sig .tc := ⟨.vmem, 19, rfl⟩
abbrev cc4_stg1_0 : Ref sig .tc := ⟨.vmem, 20, rfl⟩
abbrev cc4_stg2_0 : Ref sig .tc := ⟨.vmem, 21, rfl⟩
abbrev cc4_stg2_1 : Ref sig .tc := ⟨.vmem, 22, rfl⟩
abbrev cc5_stg0_0 : Ref sig .tc := ⟨.vmem, 23, rfl⟩
abbrev cc5_stg0_1 : Ref sig .tc := ⟨.vmem, 24, rfl⟩
abbrev cc5_stg1_0 : Ref sig .tc := ⟨.vmem, 25, rfl⟩
abbrev cc5_stg2_0 : Ref sig .tc := ⟨.vmem, 26, rfl⟩
abbrev cc5_stg2_1 : Ref sig .tc := ⟨.vmem, 27, rfl⟩
abbrev cc6_stg0_0 : Ref sig .tc := ⟨.vmem, 28, rfl⟩
abbrev cc6_stg0_1 : Ref sig .tc := ⟨.vmem, 29, rfl⟩
abbrev cc6_stg1_0 : Ref sig .tc := ⟨.vmem, 30, rfl⟩
abbrev cc6_stg2_0 : Ref sig .tc := ⟨.vmem, 31, rfl⟩
abbrev cc6_stg2_1 : Ref sig .tc := ⟨.vmem, 32, rfl⟩
abbrev cc7_stg0_0 : Ref sig .tc := ⟨.vmem, 33, rfl⟩
abbrev cc7_stg0_1 : Ref sig .tc := ⟨.vmem, 34, rfl⟩
abbrev cc7_stg1_0 : Ref sig .tc := ⟨.vmem, 35, rfl⟩
abbrev cc7_stg2_0 : Ref sig .tc := ⟨.vmem, 36, rfl⟩
abbrev cc7_stg2_1 : Ref sig .tc := ⟨.vmem, 37, rfl⟩
abbrev cc8_stg0_0 : Ref sig .tc := ⟨.vmem, 38, rfl⟩
abbrev cc8_stg0_1 : Ref sig .tc := ⟨.vmem, 39, rfl⟩
abbrev cc8_stg1_0 : Ref sig .tc := ⟨.vmem, 40, rfl⟩
abbrev cc8_stg1_1 : Ref sig .tc := ⟨.vmem, 41, rfl⟩
abbrev cc8_stg2_0 : Ref sig .tc := ⟨.vmem, 42, rfl⟩
abbrev cc8_scratch0 : Ref sig .tc := ⟨.vmem, 43, rfl⟩
abbrev cc8_scratch1 : Ref sig .tc := ⟨.vmem, 44, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc2_sem0_0 : DmaSem sig := 9
abbrev cc2_sem0_1 : DmaSem sig := 10
abbrev cc2_sem1_0 : DmaSem sig := 11
abbrev cc2_sem2_0 : DmaSem sig := 12
abbrev cc2_sem2_1 : DmaSem sig := 13
abbrev cc3_sem0_0 : DmaSem sig := 14
abbrev cc3_sem0_1 : DmaSem sig := 15
abbrev cc3_sem1_0 : DmaSem sig := 16
abbrev cc3_sem1_1 : DmaSem sig := 17
abbrev cc4_sem0_0 : DmaSem sig := 18
abbrev cc4_sem0_1 : DmaSem sig := 19
abbrev cc4_sem1_0 : DmaSem sig := 20
abbrev cc4_sem2_0 : DmaSem sig := 21
abbrev cc4_sem2_1 : DmaSem sig := 22
abbrev cc5_sem0_0 : DmaSem sig := 23
abbrev cc5_sem0_1 : DmaSem sig := 24
abbrev cc5_sem1_0 : DmaSem sig := 25
abbrev cc5_sem2_0 : DmaSem sig := 26
abbrev cc5_sem2_1 : DmaSem sig := 27
abbrev cc6_sem0_0 : DmaSem sig := 28
abbrev cc6_sem0_1 : DmaSem sig := 29
abbrev cc6_sem1_0 : DmaSem sig := 30
abbrev cc6_sem2_0 : DmaSem sig := 31
abbrev cc6_sem2_1 : DmaSem sig := 32
abbrev cc7_sem0_0 : DmaSem sig := 33
abbrev cc7_sem0_1 : DmaSem sig := 34
abbrev cc7_sem1_0 : DmaSem sig := 35
abbrev cc7_sem2_0 : DmaSem sig := 36
abbrev cc7_sem2_1 : DmaSem sig := 37
abbrev cc8_sem0_0 : DmaSem sig := 38
abbrev cc8_sem0_1 : DmaSem sig := 39
abbrev cc8_sem1_0 : DmaSem sig := 40
abbrev cc8_sem1_1 : DmaSem sig := 41
abbrev cc8_sem2_0 : DmaSem sig := 42

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x32 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x32 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x32 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x32 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S10000x32 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x32 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S10000x32 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S10000x32 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x32 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S10000x32 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![10], ![false]⟩

def k8_cond2 (i : grid8.Coords) : BitVec 1 :=
  let arg0 : BitVec 32 := BitVec.ofNat 32 (i 0).val
  let c9_i32 : BitVec 32 := 9#32
  let v27 : BitVec 1 := Scalar.cmpi .eq arg0 c9_i32
  let v28 : BitVec 32 := Scalar.extui v27
  let c0_i32_14 : BitVec 32 := 0#32
  let v29 : BitVec 1 := Scalar.cmpi .ne v28 c0_i32_14
  v29

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage8_0 : Fin 2 → Memref sig .tc .vmem S10000x32 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S10000x1 .i32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S64x32 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S10000x64_S10000x64 : S10000x64.ShapeCasts S10000x64
  inb_S64x32_S64x32_0_0 : ∀ a, (![0, 0] : Fin 2 → Nat) a + S64x32.size a ≤ S64x32.size a
  h_S64x32 : 0 < S64x32.numel
  inb_S10000x32_S10000x32_0_0 : ∀ a, (![0, 0] : Fin 2 → Nat) a + S10000x32.size a ≤ S10000x32.size a
  h_S10000x32 : 0 < S10000x32.numel
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  shapeCasts_S32_S1x32 : S32.ShapeCasts S1x32
  shapeCasts_S10000x32_S10000x32 : S10000x32.ShapeCasts S10000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  shapeCasts_S100000_S100000x1 : S100000.ShapeCasts S100000x1
  shapeCasts_S64x32_S64x32 : S64x32.ShapeCasts S64x32
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  iota_S10000x64_d1_w32 : S10000x64.Iotas .tc 32 [1]
  broadcasts_S10000x1_S10000x64 : S10000x1.Broadcasts S10000x64
  natLt_1_32 : 1 < 32
  broadcasts_S64x1_S64x32 : S64x1.Broadcasts S64x32
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x64_S64x64_S10000x64_1_0_0_1_n_n_wf : DotDims.WF S10000x64 S64x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x64_S64x32_S10000x32_1_0_0_1_n_n_wf : DotDims.WF S10000x64 S64x32 S10000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  dot_S10000x64_S10000x32_S64x32_0_0_1_1_n_n_wf : DotDims.WF S10000x64 S10000x32 S64x32 [0] [0] [1] [1] [] []
  dot_S10000x64_S10000x1_S64x1_0_0_1_1_n_n_wf : DotDims.WF S10000x64 S10000x1 S64x1 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x64.size a ≤ S100000x64.size a
  hwx3_1 : ∀ i : grid3.Coords, EltTy.bits .f32 = 32 ∨ (Rect.block (s := S100000x64) S10000x64.size (cc3_transform_1 i) (hinb3_1 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x32.size a ≤ S64x32.size a
  hwx4_1 : ∀ i : grid4.Coords, EltTy.bits .f32 = 32 ∨ (Rect.block (s := S64x32) S64x32.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x32.size a ≤ S100000x32.size a
  hwx4_2 : ∀ i : grid4.Coords, EltTy.bits .f32 = 32 ∨ (Rect.block (s := S100000x32) S10000x32.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x32.size a ≤ S100000x32.size a
  hwx5_0 : ∀ i : grid5.Coords, EltTy.bits .f32 = 32 ∨ (Rect.block (s := S100000x32) S10000x32.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x32.size a ≤ S1x32.size a
  hwx5_1 : ∀ i : grid5.Coords, EltTy.bits .f32 = 32 ∨ (Rect.block (s := S1x32) S1x32.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x32.size a ≤ S100000x32.size a
  hwx5_2 : ∀ i : grid5.Coords, EltTy.bits .f32 = 32 ∨ (Rect.block (s := S100000x32) S10000x32.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x64.size a ≤ S100000x64.size a
  hwx6_0 : ∀ i : grid6.Coords, EltTy.bits .f32 = 32 ∨ (Rect.block (s := S100000x64) S10000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x32.size a ≤ S64x32.size a
  hwx6_1 : ∀ i : grid6.Coords, EltTy.bits .f32 = 32 ∨ (Rect.block (s := S64x32) S64x32.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S10000x32.size a ≤ S100000x32.size a
  hwx6_2 : ∀ i : grid6.Coords, EltTy.bits .f32 = 32 ∨ (Rect.block (s := S100000x32) S10000x32.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S10000x32.size a ≤ S100000x32.size a
  hwx7_0 : ∀ i : grid7.Coords, EltTy.bits .f32 = 32 ∨ (Rect.block (s := S100000x32) S10000x32.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x32.size a ≤ S1x32.size a
  hwx7_1 : ∀ i : grid7.Coords, EltTy.bits .f32 = 32 ∨ (Rect.block (s := S1x32) S1x32.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S10000x32.size a ≤ S100000x32.size a
  hwx7_2 : ∀ i : grid7.Coords, EltTy.bits .f32 = 32 ∨ (Rect.block (s := S100000x32) S10000x32.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S10000x32.size a ≤ S100000x32.size a
  hwx8_0 : ∀ i : grid8.Coords, EltTy.bits .f32 = 32 ∨ (Rect.block (s := S100000x32) S10000x32.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S10000x1.size a ≤ S100000x1.size a
  hwx8_1 : ∀ i : grid8.Coords, EltTy.bits .i32 = 32 ∨ (Rect.block (s := S100000x1) S10000x1.size (cc8_transform_1 i) (hinb8_1 i)).WholeWords (EltTy.packing .i32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S64x32.size a ≤ S64x32.size a
  hwx8_2 : ∀ i : grid8.Coords, EltTy.bits .f32 = 32 ∨ (Rect.block (s := S64x32) S64x32.size (cc8_transform_2 i) (hinb8_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf
def dot_S10000x64_S10000x32_S64x32_0_0_1_1_n_n : DotDims S10000x64 S10000x32 S64x32 where
  lhsContracting := [0]
  rhsContracting := [0]
  lhsNonContracting := [1]
  rhsNonContracting := [1]
  lhsBatch := []
  rhsBatch := []
  wf := dot_S10000x64_S10000x32_S64x32_0_0_1_1_n_n_wf
def dot_S10000x64_S10000x1_S64x1_0_0_1_1_n_n : DotDims S10000x64 S10000x1 S64x1 where
  lhsContracting := [0]
  rhsContracting := [0]
  lhsNonContracting := [1]
  rhsNonContracting := [1]
  lhsBatch := []
  rhsBatch := []
  wf := dot_S10000x64_S10000x1_S64x1_0_0_1_1_n_n_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S10000x64.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_v44) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v45) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v58) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v59) S10000x64.size cc3_transform_1 reads3_1 true false 2 stage3_1 sem3_1
    hrank3 hreads3_1 hinb3_1 nbuf3_1 (Memref.isWhole_whole _) hwx3_1 hstage3_1

abbrev win3 : Fin 2 → Pipeline.Window sig grid3 := fun | 0 => win3_0 | 1 => win3_1 | ⟨_ + 2, h⟩ => absurd h (Nat.not_lt.2 (Nat.le_add_left _ _))
abbrev spec3 : Fin 2 → Pipeline.WinSpec sig grid3.rank := fun w => (win3 w).toWinSpec

abbrev win4_0 : Pipeline.Window sig grid4 :=
  Pipeline.Window.ofSpec (Memref.whole main_v59) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg5) S64x32.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v60) S10000x32.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v73) S10000x32.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v74) S1x32.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v75) S10000x32.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v59) S10000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg7) S64x32.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v76) S10000x32.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v89) S10000x32.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v90) S1x32.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v91) S10000x32.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v75) S10000x32.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v92) S10000x1.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v93) S64x32.size cc8_transform_2 reads8_2 true true 1 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev idle8 : Fin 3 → grid8.Coords → Bool := fun | 0 => fun _ => false | 1 => fun _ => false | 2 => fun i => !(k8_cond2 i == 1#1) | ⟨_ + 3, h⟩ => absurd h (Nat.not_lt.2 (Nat.le_add_left _ _))

class Facts : Prop extends Facts₀ where

variable [Facts]
-- ==== ReferenceIdeal.lean ====
abbrev S100000x64 : Shape := ⟨2, ![100000, 64]⟩
abbrev S2x1600000 : Shape := ⟨2, ![2, 1600000]⟩
abbrev S100000 : Shape := ⟨1, ![100000]⟩
abbrev S64x64 : Shape := ⟨2, ![64, 64]⟩
abbrev S64x32 : Shape := ⟨2, ![64, 32]⟩
abbrev S32 : Shape := ⟨1, ![32]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S100000x32 : Shape := ⟨2, ![100000, 32]⟩
abbrev S1700000x32 : Shape := ⟨2, ![1700000, 32]⟩
abbrev S1x32 : Shape := ⟨2, ![1, 32]⟩
abbrev S100000x1 : Shape := ⟨2, ![100000, 1]⟩
abbrev S64 : Shape := ⟨1, ![64]⟩
abbrev S64x1 : Shape := ⟨2, ![64, 1]⟩

abbrev nBuf : Space → Nat
  | .hbm => 156
  | .vmem => 0
  | .smem => 0
  | _ => 0

abbrev hbmTy0_0 (i : Nat) : BufTy := match i % 128 with
  | 0 => ⟨S100000x64, .f32⟩
  | 1 => ⟨S2x1600000, .i32⟩
  | 2 => ⟨S100000, .i32⟩
  | 3 => ⟨S64x64, .f32⟩
  | 4 => ⟨S64x64, .f32⟩
  | 5 => ⟨S64x32, .f32⟩
  | 6 => ⟨S32, .f32⟩
  | 7 => ⟨S64x32, .f32⟩
  | 8 => ⟨S32, .f32⟩
  | 9 => ⟨S100000, .i32⟩
  | 10 => ⟨S1x1600000, .i32⟩
  | 11 => ⟨S1600000, .i32⟩
  | 12 => ⟨S1700000, .i32⟩
  | 13 => ⟨S1x1600000, .i32⟩
  | 14 => ⟨S1600000, .i32⟩
  | 15 => ⟨S1700000, .i32⟩
  | 16 => ⟨S_, .f32⟩
  | 17 => ⟨S1700000, .f32⟩
  | 18 => ⟨S_, .f32⟩
  | 19 => ⟨S100000, .f32⟩
  | 20 => ⟨S1700000x1, .i32⟩
  | 21 => ⟨S100000, .f32⟩
  | 22 => ⟨S_, .f32⟩
  | 23 => ⟨S100000, .f32⟩
  | 24 => ⟨S100000, .i1⟩
  | 25 => ⟨S100000, .f32⟩
  | 26 => ⟨S_, .f32⟩
  | 27 => ⟨S_, .f32⟩
  | 28 => ⟨S100000, .f32⟩
  | 29 => ⟨S100000, .f32⟩
  | 30 => ⟨S_, .i32⟩
  | 31 => ⟨S1700000, .i32⟩
  | 32 => ⟨S1700000, .i1⟩
  | 33 => ⟨S_, .i32⟩
  | 34 => ⟨S1700000, .i32⟩
  | 35 => ⟨S1700000, .i32⟩
  | 36 => ⟨S1700000, .i32⟩
  | 37 => ⟨S1700000x1, .i32⟩
  | 38 => ⟨S1700000, .f32⟩
  | 39 => ⟨S_, .i32⟩
  | 40 => ⟨S1700000, .i32⟩
  | 41 => ⟨S1700000, .i1⟩
  | 42 => ⟨S_, .i32⟩
  | 43 => ⟨S1700000, .i32⟩
  | 44 => ⟨S1700000, .i32⟩
  | 45 => ⟨S1700000, .i32⟩
  | 46 => ⟨S1700000x1, .i32⟩
  | 47 => ⟨S1700000, .f32⟩
  | 48 => ⟨S1700000, .f32⟩
  | 49 => ⟨S100000x64, .f32⟩
  | 50 => ⟨S1700000x1, .f32⟩
  | 51 => ⟨S_, .i32⟩
  | 52 => ⟨S1700000, .i32⟩
  | 53 => ⟨S1700000, .i1⟩
  | 54 => ⟨S_, .i32⟩
  | 55 => ⟨S1700000, .i32⟩
  | 56 => ⟨S1700000, .i32⟩
  | 57 => ⟨S1700000, .i32⟩
  | 58 => ⟨S1700000x1, .i32⟩
  | 59 => ⟨S1700000x64, .f32⟩
  | 60 => ⟨S1700000x64, .f32⟩
  | 61 => ⟨S1700000x64, .f32⟩
  | 62 => ⟨S_, .f32⟩
  | 63 => ⟨S100000x64, .f32⟩
  | 64 => ⟨S1700000x1, .i32⟩
  | 65 => ⟨S100000x64, .f32⟩
  | 66 => ⟨S_, .f32⟩
  | 67 => ⟨S100000x64, .f32⟩
  | 68 => ⟨S100000x64, .i1⟩
  | 69 => ⟨S_, .f32⟩
  | 70 => ⟨S100000x64, .f32⟩
  | 71 => ⟨S100000x64, .f32⟩
  | 72 => ⟨S100000x64, .f32⟩
  | 73 => ⟨S100000x64, .f32⟩
  | 74 => ⟨S1700000x1, .f32⟩
  | 75 => ⟨S_, .i32⟩
  | 76 => ⟨S1700000, .i32⟩
  | 77 => ⟨S1700000, .i1⟩
  | 78 => ⟨S_, .i32⟩
  | 79 => ⟨S1700000, .i32⟩
  | 80 => ⟨S1700000, .i32⟩
  | 81 => ⟨S1700000, .i32⟩
  | 82 => ⟨S1700000x1, .i32⟩
  | 83 => ⟨S1700000x64, .f32⟩
  | 84 => ⟨S1700000x64, .f32⟩
  | 85 => ⟨S1700000x64, .f32⟩
  | 86 => ⟨S_, .f32⟩
  | 87 => ⟨S100000x64, .f32⟩
  | 88 => ⟨S1700000x1, .i32⟩
  | 89 => ⟨S100000x64, .f32⟩
  | 90 => ⟨S_, .f32⟩
  | 91 => ⟨S100000x64, .f32⟩
  | 92 => ⟨S100000x64, .i1⟩
  | 93 => ⟨S_, .f32⟩
  | 94 => ⟨S100000x64, .f32⟩
  | 95 => ⟨S100000x64, .f32⟩
  | 96 => ⟨S100000x64, .f32⟩
  | 97 => ⟨S_, .f32⟩
  | 98 => ⟨S100000x64, .f32⟩
  | 99 => ⟨S100000x64, .f32⟩
  | 100 => ⟨S100000x32, .f32⟩
  | 101 => ⟨S1700000x1, .f32⟩
  | 102 => ⟨S_, .i32⟩
  | 103 => ⟨S1700000, .i32⟩
  | 104 => ⟨S1700000, .i1⟩
  | 105 => ⟨S_, .i32⟩
  | 106 => ⟨S1700000, .i32⟩
  | 107 => ⟨S1700000, .i32⟩
  | 108 => ⟨S1700000, .i32⟩
  | 109 => ⟨S1700000x1, .i32⟩
  | 110 => ⟨S1700000x32, .f32⟩
  | 111 => ⟨S1700000x32, .f32⟩
  | 112 => ⟨S1700000x32, .f32⟩
  | 113 => ⟨S_, .f32⟩
  | 114 => ⟨S100000x32, .f32⟩
  | 115 => ⟨S1700000x1, .i32⟩
  | 116 => ⟨S100000x32, .f32⟩
  | 117 => ⟨S1x32, .f32⟩
  | 118 => ⟨S100000x32, .f32⟩
  | 119 => ⟨S100000x32, .f32⟩
  | 120 => ⟨S100000x32, .f32⟩
  | 121 => ⟨S1700000x1, .f32⟩
  | 122 => ⟨S_, .i32⟩
  | 123 => ⟨S1700000, .i32⟩
  | 124 => ⟨S1700000, .i1⟩
  | 125 => ⟨S_, .i32⟩
  | 126 => ⟨S1700000, .i32⟩
  | 127 => ⟨S1700000, .i32⟩
  | _ => ⟨S100000x64, .f32⟩

abbrev hbmTy0_1 (i : Nat) : BufTy := match i % 128 with
  | 0 => ⟨S1700000, .i32⟩
  | 1 => ⟨S1700000x1, .i32⟩
  | 2 => ⟨S1700000x32, .f32⟩
  | 3 => ⟨S1700000x32, .f32⟩
  | 4 => ⟨S1700000x32, .f32⟩
  | 5 => ⟨S_, .f32⟩
  | 6 => ⟨S100000x32, .f32⟩
  | 7 => ⟨S1700000x1, .i32⟩
  | 8 => ⟨S100000x32, .f32⟩
  | 9 => ⟨S1x32, .f32⟩
  | 10 => ⟨S100000x32, .f32⟩
  | 11 => ⟨S100000x32, .f32⟩
  | 12 => ⟨S_, .f32⟩
  | 13 => ⟨S64x32, .f32⟩
  | 14 => ⟨S100000x1, .i32⟩
  | 15 => ⟨S64x32, .f32⟩
  | 16 => ⟨S_, .f32⟩
  | 17 => ⟨S100000, .f32⟩
  | 18 => ⟨S_, .f32⟩
  | 19 => ⟨S64, .f32⟩
  | 20 => ⟨S100000x1, .i32⟩
  | 21 => ⟨S64, .f32⟩
  | 22 => ⟨S_, .f32⟩
  | 23 => ⟨S64, .f32⟩
  | 24 => ⟨S64, .f32⟩
  | 25 => ⟨S64x1, .f32⟩
  | 26 => ⟨S64x32, .f32⟩
  | 27 => ⟨S64x32, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_c_6 : Ref sig .tc := ⟨.hbm, 51, rfl⟩
abbrev main_v32 : Ref sig .tc := ⟨.hbm, 52, rfl⟩
abbrev main_v33 : Ref sig .tc := ⟨.hbm, 53, rfl⟩
abbrev main_c_7 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_9 : Ref sig .tc := ⟨.hbm, 66, rfl⟩
abbrev main_v44 : Ref sig .tc := ⟨.hbm, 67, rfl⟩
abbrev main_v45 : Ref sig .tc := ⟨.hbm, 68, rfl⟩
abbrev main_cst_10 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_c_11 : Ref sig .tc := ⟨.hbm, 75, rfl⟩
abbrev main_v51 : Ref sig .tc := ⟨.hbm, 76, rfl⟩
abbrev main_v52 : Ref sig .tc := ⟨.hbm, 77, rfl⟩
abbrev main_c_12 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_13 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_cst_14 : Ref sig .tc := ⟨.hbm, 90, rfl⟩
abbrev main_v63 : Ref sig .tc := ⟨.hbm, 91, rfl⟩
abbrev main_v64 : Ref sig .tc := ⟨.hbm, 92, rfl⟩
abbrev main_cst_15 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_call3_cst : Ref sig .tc := ⟨.hbm, 97, rfl⟩
abbrev main_call3_v0 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_c_16 : Ref sig .tc := ⟨.hbm, 102, rfl⟩
abbrev main_v71 : Ref sig .tc := ⟨.hbm, 103, rfl⟩
abbrev main_v72 : Ref sig .tc := ⟨.hbm, 104, rfl⟩
abbrev main_c_17 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_cst_18 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_c_19 : Ref sig .tc := ⟨.hbm, 122, rfl⟩
abbrev main_v88 : Ref sig .tc := ⟨.hbm, 123, rfl⟩
abbrev main_v89 : Ref sig .tc := ⟨.hbm, 124, rfl⟩
abbrev main_c_20 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_cst_21 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_cst_22 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_cst_23 : Ref sig .tc := ⟨.hbm, 144, rfl⟩
abbrev main_v106 : Ref sig .tc := ⟨.hbm, 145, rfl⟩
abbrev main_cst_24 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_cst_25 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S64x32 : S_.BroadcastsInDim S64x32 (![] : Fin 0 → Fin S64x32.rank)
  bcast_S100000_S100000x1_0 : S100000.BroadcastsInDim S100000x1 (![0] : Fin 1 → Fin S100000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x32_0_1 : S64x1.BroadcastsInDim S64x32 (![0, 1] : Fin 2 → Fin S64x32.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x64_S64x64_S100000x64_1_0_0_1_n_n_wf : DotDims.WF S100000x64 S64x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x32_S100000x32_1_0_0_1_n_n_wf : DotDims.WF S100000x64 S64x32 S100000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  scatter_S64x32_S100000x1_S100000x32_1_0_0_1_wf : ScatterDims.WF S64x32 S100000x1 S100000x32 [1] [0] [0] 1
  scatter_S64_S100000x1_S100000_n_0_0_1_wf : ScatterDims.WF S64 S100000x1 S100000 [] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf
def scatter_S64x32_S100000x1_S100000x32_1_0_0_1 : ScatterDims S64x32 S100000x1 S100000x32 where
  updateWindowDims := [1]
  insertedWindowDims := [0]
  scatterDimsToOperandDims := [0]
  indexVectorDim := 1
  wf := scatter_S64x32_S100000x1_S100000x32_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf

class Facts : Prop extends Facts₀ where

variable [Facts]
-- ==== Proof.K.R0.lean ====
import proofs.«417219_j7851200218009_2_alg».proof.Proof.Gen.Kernel.Launch
import proofs.«417219_j7851200218009_2_alg».proof.Proof.Gen.Kernel.Skeleton
import proofs.«417219_j7851200218009_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S10000x64 := Rect.unit (s := S10000x64) ![0, 0] S10000x64.size inb_S10000x64_S10000x64_0_0
abbrev r0_1 : Rect S64x64 := Rect.unit (s := S64x64) ![0, 0] S64x64.size inb_S64x64_S64x64_0_0
abbrev r0_2 : Rect S10000x64 := Rect.unit (s := S10000x64) ![0, 0] S10000x64.size inb_S10000x64_S10000x64_0_0

def out0_2 (x0 : Vec F S10000x64 .f32) (x1 : Vec F S64x64 .f32) :
    Vec F S10000x64 .f32 :=
  View.canon [⟨r0_2, k0_pay1 (View.ld x0 r0_0) (View.ld x1 r0_1)⟩]

theorem cover0_2 (p0 : Vec F S10000x64 .f32) (y : S10000x64.Idx) :
    ∃ pc ∈ ([⟨r0_2, p0⟩] : List (View.Piece (Elt F) S10000x64 .f32)), y ∈ pc.1.set :=
  View.cover_of_tiled [⟨r0_2, p0⟩] S10000x64.size (by rfl) y

set_option maxHeartbeats 1000000 in
/-- The body on whole buffers: both inputs are left as they were, the output holds the block product of them. -/
theorem sound_kernel0 (c : Dev nD) (E : Set ℕ) (i : grid0.Coords)
    (arg1 : Memref sig .tc .vmem S10000x64 .f32) (harg1 : arg1.IsWhole) (arg2 : Memref sig .tc .vmem S64x64 .f32) (harg2 : arg2.IsWhole)
    (arg3 : Memref sig .tc .vmem S10000x64 .f32) (harg3 : arg3.IsWhole)
    (x0 : Vec F S10000x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem Phi0 (c : Dev nD) (t : Fin (cfg0.N + 1)) : (dat0 V c).Φ t = Pipeline.ΦA spec0 c := rfl

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.R1.lean ====
import proofs.«417219_j7851200218009_2_alg».proof.Proof.Gen.Kernel.Launch
import proofs.«417219_j7851200218009_2_alg».proof.Proof.Gen.Kernel.Skeleton
import proofs.«417219_j7851200218009_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

abbrev r1_0 : Rect S10000x64 := Rect.unit (s := S10000x64) ![0, 0] S10000x64.size inb_S10000x64_S10000x64_0_0

def out1_1 (x0 : Vec F S10000x64 .f32) : Vec F S10000x64 .f32 :=
  View.canon [⟨r1_0, k1_pay1 (View.ld x0 r1_0)⟩]

theorem cover1_1 (p0 : Vec F S10000x64 .f32) (y : S10000x64.Idx) :
    ∃ pc ∈ ([⟨r1_0, p0⟩] : List (View.Piece (Elt F) S10000x64 .f32)), y ∈ pc.1.set :=
  View.cover_of_tiled [⟨r1_0, p0⟩] S10000x64.size (by rfl) y

set_option maxHeartbeats 1000000 in
/-- The body on whole buffers: the input is left as it was, the output holds the pointwise payload of it. -/
theorem sound_kernel1 (c : Dev nD) (E : Set ℕ) (i : grid1.Coords) (arg1 : Memref sig .tc .vmem S10000x64 .f32) (harg1 : arg1.IsWhole) (arg2 : Memref sig .tc .vmem S10000x64 .f32) (harg2 : arg2.IsWhole)
    (x0 : Vec F S10000x64 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out1_1 x0)) -∗ K ⟨⟩))
      ⊢ wp frame (wpE (defs₀ (F := F)) Variants.none c none) E (cc1__leaky_relu_kernel i arg1 harg1 arg2 harg2) K := by
  simp only [cc1__leaky_relu_kernel_eq_skeleton]; unfold cc1__leaky_relu_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover1_1 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => out1_1 (iblk1 V c 0 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = out1_1 (iblk1 V c 0 t) := by dsimp only [dat1]

theorem Phi1 (c : Dev nD) (t : Fin (cfg1.N + 1)) : (dat1 V c).Φ t = Pipeline.ΦA spec1 c := rfl

theorem before1_0 (c : Dev nD) (t : Fin cfg1.N) (d) : (dat1 V c).before 0 t d = iblk1 V c 0 t :=
  before1_0_of V (dat1 V c) (A_eq1 V c 0) (after1_0 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1]
  iintro ⟨HΦ, Ho, ⟨%d0, H0⟩, ⟨%d1, H1⟩⟩
  iapply (sound_kernel1 c Set.univ _ _ _ _ _ (iblk1 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.R2.lean ====
import proofs.«417219_j7851200218009_2_alg».proof.Proof.Gen.Kernel.Launch
import proofs.«417219_j7851200218009_2_alg».proof.Proof.Gen.Kernel.Skeleton
import proofs.«417219_j7851200218009_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

abbrev r2_0 : Rect S10000x64 := Rect.unit (s := S10000x64) ![0, 0] S10000x64.size inb_S10000x64_S10000x64_0_0
abbrev r2_1 : Rect S64x64 := Rect.unit (s := S64x64) ![0, 0] S64x64.size inb_S64x64_S64x64_0_0
abbrev r2_2 : Rect S10000x64 := Rect.unit (s := S10000x64) ![0, 0] S10000x64.size inb_S10000x64_S10000x64_0_0

def out2_2 (x0 : Vec F S10000x64 .f32) (x1 : Vec F S64x64 .f32) :
    Vec F S10000x64 .f32 :=
  View.canon [⟨r2_2, k2_pay1 (View.ld x0 r2_0) (View.ld x1 r2_1)⟩]

theorem cover2_2 (p0 : Vec F S10000x64 .f32) (y : S10000x64.Idx) :
    ∃ pc ∈ ([⟨r2_2, p0⟩] : List (View.Piece (Elt F) S10000x64 .f32)), y ∈ pc.1.set :=
  View.cover_of_tiled [⟨r2_2, p0⟩] S10000x64.size (by rfl) y

set_option maxHeartbeats 1000000 in
/-- The body on whole buffers: both inputs are left as they were, the output holds the block product of them. -/
theorem sound_kernel2 (c : Dev nD) (E : Set ℕ) (i : grid2.Coords)
    (arg1 : Memref sig .tc .vmem S10000x64 .f32) (harg1 : arg1.IsWhole) (arg2 : Memref sig .tc .vmem S64x64 .f32) (harg2 : arg2.IsWhole)
    (arg3 : Memref sig .tc .vmem S10000x64 .f32) (harg3 : arg3.IsWhole)
    (x0 : Vec F S10000x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__matmul_kernel i arg1 harg1 arg2 harg2 arg3 harg3) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem Phi2 (c : Dev nD) (t : Fin (cfg2.N + 1)) : (dat2 V c).Φ t = Pipeline.ΦA spec2 c := rfl

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ (grid2.coords t) _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.R3.lean ====
import proofs.«417219_j7851200218009_2_alg».proof.Proof.Gen.Kernel.Launch
import proofs.«417219_j7851200218009_2_alg».proof.Proof.Gen.Kernel.Skeleton
import proofs.«417219_j7851200218009_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

abbrev r3_0 : Rect S10000x64 := Rect.unit (s := S10000x64) ![0, 0] S10000x64.size inb_S10000x64_S10000x64_0_0

def out3_1 (x0 : Vec F S10000x64 .f32) : Vec F S10000x64 .f32 :=
  View.canon [⟨r3_0, k3_pay1 (View.ld x0 r3_0)⟩]

theorem cover3_1 (p0 : Vec F S10000x64 .f32) (y : S10000x64.Idx) :
    ∃ pc ∈ ([⟨r3_0, p0⟩] : List (View.Piece (Elt F) S10000x64 .f32)), y ∈ pc.1.set :=
  View.cover_of_tiled [⟨r3_0, p0⟩] S10000x64.size (by rfl) y

set_option maxHeartbeats 1000000 in
/-- The body on whole buffers: the input is left as it was, the output holds the pointwise payload of it. -/
theorem sound_kernel3 (c : Dev nD) (E : Set ℕ) (i : grid3.Coords) (arg1 : Memref sig .tc .vmem S10000x64 .f32) (harg1 : arg1.IsWhole) (arg2 : Memref sig .tc .vmem S10000x64 .f32) (harg2 : arg2.IsWhole)
    (x0 : Vec F S10000x64 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out3_1 x0)) -∗ K ⟨⟩))
      ⊢ wp frame (wpE (defs₀ (F := F)) Variants.none c none) E (cc3__relu_kernel i arg1 harg1 arg2 harg2) K := by
  simp only [cc3__relu_kernel_eq_skeleton]; unfold cc3__relu_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover3_1 _)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => out3_1 (iblk3 V c 0 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = out3_1 (iblk3 V c 0 t) := by dsimp only [dat3]

theorem Phi3 (c : Dev nD) (t : Fin (cfg3.N + 1)) : (dat3 V c).Φ t = Pipeline.ΦA spec3 c := rfl

theorem before3_0 (c : Dev nD) (t : Fin cfg3.N) (d) : (dat3 V c).before 0 t d = iblk3 V c 0 t :=
  before3_0_of V (dat3 V c) (A_eq3 V c 0) (after3_0 V c) t d

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0]
  rw [show (dat3 V c).Φ t.succ = (dat3 V c).Φ t.castSucc from rfl,
    show (dat3 V c).owesAt () t.succ = (dat3 V c).owesAt () t.castSucc from rfl,
    after3_0, after3_1]
  iintro ⟨HΦ, Ho, ⟨%d0, H0⟩, ⟨%d1, H1⟩⟩
  iapply (sound_kernel3 c Set.univ _ _ _ _ _ (iblk3 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.K.R4.lean ====
import proofs.«417219_j7851200218009_2_alg».proof.Proof.Gen.Kernel.Launch
import proofs.«417219_j7851200218009_2_alg».proof.Proof.Gen.Kernel.Skeleton
import proofs.«417219_j7851200218009_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

abbrev r4_0 : Rect S10000x64 := Rect.unit (s := S10000x64) ![0, 0] S10000x64.size inb_S10000x64_S10000x64_0_0
abbrev r4_1 : Rect S64x32 := Rect.unit (s := S64x32) ![0, 0] S64x32.size inb_S64x32_S64x32_0_0
abbrev r4_2 : Rect S10000x32 := Rect.unit (s := S10000x32) ![0, 0] S10000x32.size inb_S10000x32_S10000x32_0_0

def out4_2 (x0 : Vec F S10000x64 .f32) (x1 : Vec F S64x32 .f32) :
    Vec F S10000x32 .f32 :=
  View.canon [⟨r4_2, k4_pay1 (View.ld x0 r4_0) (View.ld x1 r4_1)⟩]

theorem cover4_2 (p0 : Vec F S10000x32 .f32) (y : S10000x32.Idx) :
    ∃ pc ∈ ([⟨r4_2, p0⟩] : List (View.Piece (Elt F) S10000x32 .f32)), y ∈ pc.1.set :=
  View.cover_of_tiled [⟨r4_2, p0⟩] S10000x32.size (by rfl) y

set_option maxHeartbeats 1000000 in
/-- The body on whole buffers: both inputs are left as they were, the output holds the block product of them. -/
theorem sound_kernel4 (c : Dev nD) (E : Set ℕ) (i : grid4.Coords)
    (arg1 : Memref sig .tc .vmem S10000x64 .f32) (harg1 : arg1.IsWhole) (arg2 : Memref sig .tc .vmem S64x32 .f32) (harg2 : arg2.IsWhole)
    (arg3 : Memref sig .tc .vmem S10000x32 .f32) (harg3 : arg3.IsWhole)
    (x0 : Vec F S10000x64 .f32) (x1 : Vec F S64x32 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out4_2 x0 x1)) -∗ K ⟨⟩))
      ⊢ wp frame (wpE (defs₀ (F := F)) Variants.none c none) E (cc4__matmul_kernel i arg1 harg1 arg2 harg2 arg3 harg3) K := by
  simp only [cc4__matmul_kernel_eq_skeleton]; unfold cc4__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]

theorem Phi4 (c : Dev nD) (t : Fin (cfg4.N + 1)) : (dat4 V c).Φ t = Pipeline.ΦA spec4 c := rfl

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ (grid4.coords t) _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.K.R5.lean ====
import proofs.«417219_j7851200218009_2_alg».proof.Proof.Gen.Kernel.Launch
import proofs.«417219_j7851200218009_2_alg».proof.Proof.Gen.Kernel.Skeleton
import proofs.«417219_j7851200218009_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

abbrev r5_0 : Rect S10000x32 := Rect.unit (s := S10000x32) ![0, 0] S10000x32.size inb_S10000x32_S10000x32_0_0
abbrev r5_1 : Rect S1x32 := Rect.unit (s := S1x32) ![0, 0] S1x32.size inb_S1x32_S1x32_0_0

def out5_2 (x0 : Vec F S10000x32 .f32) (x1 : Vec F S1x32 .f32) : Vec F S10000x32 .f32 :=
  View.canon [⟨r5_0, k5_pay1 (View.ld x0 r5_0) (View.ld x1 r5_1)⟩]

theorem cover5_2 (p0 : Vec F S10000x32 .f32) (y : S10000x32.Idx) :
    ∃ pc ∈ ([⟨r5_0, p0⟩] : List (View.Piece (Elt F) S10000x32 .f32)), y ∈ pc.1.set :=
  View.cover_of_tiled [⟨r5_0, p0⟩] S10000x32.size (by rfl) y

set_option maxHeartbeats 1000000 in
/-- The body on whole buffers: the block and the bias row are left as they were, the output holds the block with the row added. -/
theorem sound_kernel5 (c : Dev nD) (E : Set ℕ) (i : grid5.Coords) (arg1 : Memref sig .tc .vmem S10000x32 .f32) (harg1 : arg1.IsWhole) (arg2 : Memref sig .tc .vmem S1x32 .f32) (harg2 : arg2.IsWhole) (arg3 : Memref sig .tc .vmem S10000x32 .f32) (harg3 : arg3.IsWhole)
    (x0 : Vec F S10000x32 .f32) (x1 : Vec F S1x32 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out5_2 x0 x1)) -∗ K ⟨⟩))
      ⊢ wp frame (wpE (defs₀ (F := F)) Variants.none c none) E (cc5__bias_add_kernel i arg1 harg1 arg2 harg2 arg3 harg3) K := by
  simp only [cc5__bias_add_kernel_eq_skeleton]; unfold cc5__bias_add_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover5_2 _)

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out5_2 (iblk5 V c 0 t) (iblk5 V c 1 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = out5_2 (iblk5 V c 0 t) (iblk5 V c 1 t) := by dsimp only [dat5]

theorem Phi5 (c : Dev nD) (t : Fin (cfg5.N + 1)) : (dat5 V c).Φ t = Pipeline.ΦA spec5 c := rfl

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).Φ t.succ = (dat5 V c).Φ t.castSucc from rfl,
    show (dat5 V c).owesAt () t.succ = (dat5 V c).owesAt () t.castSucc from rfl,
    after5_0, after5_1, after5_2]
  iintro ⟨HΦ, Ho, ⟨%d0, H0⟩, ⟨%d1, H1⟩, ⟨%d2, H2⟩⟩
  iapply (sound_kernel5 c Set.univ _ _ _ _ _ _ _ (iblk5 V c 0 t) (iblk5 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation5 (c : Dev nD) : BodyObligation (dat5 (F := F) V c) (defs₀ (F := F)) Variants.none () Set.univ := fun t => by
  rw [bigSep_W5, bigSep_W5]
  exact sound_body5 V c t

end Cert.Kernel.Hand

end
-- ==== Proof.K.R6.lean ====
import proofs.«417219_j7851200218009_2_alg».proof.Proof.Gen.Kernel.Launch
import proofs.«417219_j7851200218009_2_alg».proof.Proof.Gen.Kernel.Skeleton
import proofs.«417219_j7851200218009_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

abbrev r6_0 : Rect S10000x64 := Rect.unit (s := S10000x64) ![0, 0] S10000x64.size inb_S10000x64_S10000x64_0_0
abbrev r6_1 : Rect S64x32 := Rect.unit (s := S64x32) ![0, 0] S64x32.size inb_S64x32_S64x32_0_0
abbrev r6_2 : Rect S10000x32 := Rect.unit (s := S10000x32) ![0, 0] S10000x32.size inb_S10000x32_S10000x32_0_0

def out6_2 (x0 : Vec F S10000x64 .f32) (x1 : Vec F S64x32 .f32) :
    Vec F S10000x32 .f32 :=
  View.canon [⟨r6_2, k6_pay1 (View.ld x0 r6_0) (View.ld x1 r6_1)⟩]

theorem cover6_2 (p0 : Vec F S10000x32 .f32) (y : S10000x32.Idx) :
    ∃ pc ∈ ([⟨r6_2, p0⟩] : List (View.Piece (Elt F) S10000x32 .f32)), y ∈ pc.1.set :=
  View.cover_of_tiled [⟨r6_2, p0⟩] S10000x32.size (by rfl) y

set_option maxHeartbeats 1000000 in
/-- The body on whole buffers: both inputs are left as they were, the output holds the block product of them. -/
theorem sound_kernel6 (c : Dev nD) (E : Set ℕ) (i : grid6.Coords)
    (arg1 : Memref sig .tc .vmem S10000x64 .f32) (harg1 : arg1.IsWhole) (arg2 : Memref sig .tc .vmem S64x32 .f32) (harg2 : arg2.IsWhole)
    (arg3 : Memref sig .tc .vmem S10000x32 .f32) (harg3 : arg3.IsWhole)
    (x0 : Vec F S10000x64 .f32) (x1 : Vec F S64x32 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out6_2 x0 x1)) -∗ K ⟨⟩))
      ⊢ wp frame (wpE (defs₀ (F := F)) Variants.none c none) E (cc6__matmul_kernel i arg1 harg1 arg2 harg2 arg3 harg3) K := by
  simp only [cc6__matmul_kernel_eq_skeleton]; unfold cc6__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover6_2 _)

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => out6_2 (iblk6 V c 0 t) (iblk6 V c 1 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = out6_2 (iblk6 V c 0 t) (iblk6 V c 1 t) := by dsimp only [dat6]

theorem Phi6 (c : Dev nD) (t : Fin (cfg6.N + 1)) : (dat6 V c).Φ t = Pipeline.ΦA spec6 c := rfl

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d

def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d)))

def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t))

theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).Φ t.succ = (dat6 V c).Φ t.castSucc from rfl,
    show (dat6 V c).owesAt () t.succ = (dat6 V c).owesAt () t.castSucc from rfl,
    after6_0, after6_1, after6_2]
  iintro ⟨HΦ, Ho, ⟨%d0, H0⟩, ⟨%d1, H1⟩, ⟨%d2, H2⟩⟩
  iapply (sound_kernel6 c Set.univ (grid6.coords t) _ _ _ _ _ _ (iblk6 V c 0 t) (iblk6 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation6 (c : Dev nD) : BodyObligation (dat6 (F := F) V c) (defs₀ (F := F)) Variants.none () Set.univ := fun t => by
  rw [bigSep_W6, bigSep_W6]
  exact sound_body6 V c t

end Cert.Kernel.Hand

end
-- ==== Proof.K.R7.lean ====
import proofs.«417219_j7851200218009_2_alg».proof.Proof.Gen.Kernel.Launch
import proofs.«417219_j7851200218009_2_alg».proof.Proof.Gen.Kernel.Skeleton
import proofs.«417219_j7851200218009_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

abbrev r7_0 : Rect S10000x32 := Rect.unit (s := S10000x32) ![0, 0] S10000x32.size inb_S10000x32_S10000x32_0_0
abbrev r7_1 : Rect S1x32 := Rect.unit (s := S1x32) ![0, 0] S1x32.size inb_S1x32_S1x32_0_0

def out7_2 (x0 : Vec F S10000x32 .f32) (x1 : Vec F S1x32 .f32) : Vec F S10000x32 .f32 :=
  View.canon [⟨r7_0, k7_pay1 (View.ld x0 r7_0) (View.ld x1 r7_1)⟩]

theorem cover7_2 (p0 : Vec F S10000x32 .f32) (y : S10000x32.Idx) :
    ∃ pc ∈ ([⟨r7_0, p0⟩] : List (View.Piece (Elt F) S10000x32 .f32)), y ∈ pc.1.set :=
  View.cover_of_tiled [⟨r7_0, p0⟩] S10000x32.size (by rfl) y

set_option maxHeartbeats 1000000 in
/-- The body on whole buffers: the block and the bias row are left as they were, the output holds the block with the row added. -/
theorem sound_kernel7 (c : Dev nD) (E : Set ℕ) (i : grid7.Coords) (arg1 : Memref sig .tc .vmem S10000x32 .f32) (harg1 : arg1.IsWhole) (arg2 : Memref sig .tc .vmem S1x32 .f32) (harg2 : arg2.IsWhole) (arg3 : Memref sig .tc .vmem S10000x32 .f32) (harg3 : arg3.IsWhole)
    (x0 : Vec F S10000x32 .f32) (x1 : Vec F S1x32 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out7_2 x0 x1)) -∗ K ⟨⟩))
      ⊢ wp frame (wpE (defs₀ (F := F)) Variants.none c none) E (cc7__bias_add_kernel i arg1 harg1 arg2 harg2 arg3 harg3) K := by
  simp only [cc7__bias_add_kernel_eq_skeleton]; unfold cc7__bias_add_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover7_2 _)

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => out7_2 (iblk7 V c 0 t) (iblk7 V c 1 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = out7_2 (iblk7 V c 0 t) (iblk7 V c 1 t) := by dsimp only [dat7]

theorem Phi7 (c : Dev nD) (t : Fin (cfg7.N + 1)) : (dat7 V c).Φ t = Pipeline.ΦA spec7 c := rfl

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d

def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d)))

def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t))

theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1]
  rw [show (dat7 V c).Φ t.succ = (dat7 V c).Φ t.castSucc from rfl,
    show (dat7 V c).owesAt () t.succ = (dat7 V c).owesAt () t.castSucc from rfl,
    after7_0, after7_1, after7_2]
  iintro ⟨HΦ, Ho, ⟨%d0, H0⟩, ⟨%d1, H1⟩, ⟨%d2, H2⟩⟩
  iapply (sound_kernel7 c Set.univ _ _ _ _ _ _ _ (iblk7 V c 0 t) (iblk7 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation7 (c : Dev nD) : BodyObligation (dat7 (F := F) V c) (defs₀ (F := F)) Variants.none () Set.univ := fun t => by
  rw [bigSep_W7, bigSep_W7]
  exact sound_body7 V c t

end Cert.Kernel.Hand

end
-- ==== Proof.K.R8.lean ====
import proofs.«417219_j7851200218009_2_alg».proof.Proof.Gen.Kernel.Launch
import proofs.«417219_j7851200218009_2_alg».proof.Proof.Gen.Kernel.Skeleton
import proofs.«417219_j7851200218009_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

abbrev cond8_0 (i : grid8.Coords) : Prop := (Scalar.cmpi .ne (Scalar.extui (Scalar.cmpi .eq (BitVec.ofNat 32 (i 0).val) 0#32)) 0#32) = 1#1
theorem hcond8_0 : ∀ t : Fin cfg8.N, cond8_0 (grid8.coords t) ↔ t.val = 0 :=
  (by decide +kernel : ∀ t : Fin grid8.N, cond8_0 (grid8.coords t) ↔ t.val = 0)

abbrev cond8_1 (i : grid8.Coords) : Prop := k8_cond2 i = 1#1
theorem hcond8_1 : ∀ t : Fin cfg8.N, cond8_1 (grid8.coords t) ↔ t.val = 9 :=
  (by decide +kernel : ∀ t : Fin grid8.N, cond8_1 (grid8.coords t) ↔ t.val = 9)

theorem liveAt8_0 : ∀ t : Fin cfg8.N, cfg8.idle 0 (grid8.coords t) = false := by decide +kernel
theorem liveAt8_1 : ∀ t : Fin cfg8.N, cfg8.idle 1 (grid8.coords t) = false := by decide +kernel

theorem idleAt8_2 : ∀ t : Fin cfg8.N, ¬cond8_1 (grid8.coords t) → cfg8.idle 2 (grid8.coords t) = true := by decide +kernel

theorem noFlush8_2 : ∀ t : Fin cfg8.N, ¬cond8_1 (grid8.coords t) → (cfg8.win 2).flush t = false := by decide +kernel

theorem liveAt8_2 : ∀ t : Fin cfg8.N, cond8_1 (grid8.coords t) → cfg8.idle 2 (grid8.coords t) = false := by decide +kernel

abbrev scM8_0 : Memref sig .tc .vmem S64x32 .f32 := Memref.whole cc8_scratch0
abbrev scM8_1 : Memref sig .tc .vmem S64x1 .f32 := Memref.whole cc8_scratch1

theorem PhiA8_eq (c : Dev nD) :
    (Pipeline.ΦA spec8 c : sProp 𝕄)
      = iprop(iprop(iprop((∃ d, owns (c : Thread nD τ) scM8_0 fullShare d) ∗ (∃ d, owns (c : Thread nD τ) scM8_1 fullShare d))
          ∗ Pipeline.scopedRestBut (Ix := Unit) (Name := ℕ) (U := UR sig nD τ) (Lvl := ℕ) (Val := Elt F) spec8 c [cc8_scratch0, cc8_scratch1]) ∗ (∃ r, prngReg c r)) := by
  unfold Pipeline.ΦA; rw [scopedRest8_split]; simp only [scM8_0, scM8_1, owns_whole]; try rfl

theorem zeros8 : (![0, 0] : Fin 2 → ℕ) = fun _ => 0 := by funext a; fin_cases a <;> rfl

theorem cover8_S (p : Vec F S64x32 .f32) (L : List (View.Piece (Elt F) S64x32 .f32)) (y : S64x32.Idx) :
    ∃ pc ∈ ((⟨Rect.unit ![0, 0] S64x32.size inb_S64x32_S64x32_0_0, p⟩ : View.Piece (Elt F) S64x32 .f32) :: L), y ∈ pc.1.set :=
  ⟨_, List.Mem.head _, View.mem_set_unit_zero zeros8 inb_S64x32_S64x32_0_0 y⟩

theorem cover8_N (p : Vec F S64x1 .f32) (L : List (View.Piece (Elt F) S64x1 .f32)) (y : S64x1.Idx) :
    ∃ pc ∈ ((⟨Rect.unit ![0, 0] S64x1.size inb_S64x1_S64x1_0_0, p⟩ : View.Piece (Elt F) S64x1 .f32) :: L), y ∈ pc.1.set :=
  ⟨_, List.Mem.head _, View.mem_set_unit_zero zeros8 inb_S64x1_S64x1_0_0 y⟩

set_option maxHeartbeats 4000000 in
theorem sound_kernel8_A (c : Dev nD) (E : Set ℕ) (i : grid8.Coords) (arg1 : Memref sig .tc .vmem S10000x32 .f32) (harg1 : arg1.IsWhole) (arg2 : Memref sig .tc .vmem S10000x1 .i32) (harg2 : arg2.IsWhole) (arg3 : Memref sig .tc .vmem S64x32 .f32) (harg3 : arg3.IsWhole) (arg4 : Memref sig .tc .vmem S64x32 .f32) (harg4 : arg4.IsWhole) (arg5 : Memref sig .tc .vmem S64x1 .f32) (harg5 : arg5.IsWhole)
    (hc0 : cond8_0 i) (hc1 : ¬cond8_1 i)
    (x0 : Vec F S10000x32 .f32) (g0 : Vec F S10000x1 .i32) (o0 : Vec F S64x32 .f32) (K : PUnit → sProp 𝕄) :
    iprop(owns (c : Thread nD τ) arg1 fullShare x0 ∗ owns (c : Thread nD τ) arg2 fullShare g0 ∗ owns (c : Thread nD τ) arg3 fullShare o0
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare g0 ∗ owns (c : Thread nD τ) arg3 fullShare o0
            ∗ owns (c : Thread nD τ) arg4 fullShare (k8_pay4 x0 g0 (k8_pay1 (F := F))) ∗ owns (c : Thread nD τ) arg5 fullShare (k8_pay5 g0 (k8_pay2 (F := F)))) -∗ K ⟨⟩))
      ⊢ wp frame (wpE (defs₀ (F := F)) Variants.none c none) E (cc8__pool_kernel i arg1 harg1 arg2 harg2 arg3 harg3 arg4 harg4 arg5 harg5) K := by
  simp only [cc8__pool_kernel_eq_skeleton]; unfold cc8__pool_kernel_skel
  unfold owns
  iintro ⟨⟨%f1, %hf1, H1⟩, ⟨%f2, %hf2, H2⟩, ⟨%f3, %hf3, H3⟩, ⟨%d4, %f4, -, H4⟩, ⟨%d5, %f5, -, H5⟩, Hk⟩
  subst hf1; subst hf2; subst hf3
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    sl_unfold_run_names
    refine (View.read_writes_eq_canon _ _ _ (cover8_S _ _)).trans ?_
    refine (View.canon_cons_unit_zero zeros8 _ _ _).trans ?_
    have e1 : View.readAt (Elt F) arg1.view (Rect.unit ![0, 0] S10000x32.size inb_S10000x32_S10000x32_0_0).toLoadRect f1 = View.read (Elt F) arg1.view f1 :=
      View.ld_unit_zero zeros8 inb_S10000x32_S10000x32_0_0 (View.read (Elt F) arg1.view f1)
    have e2 : View.readAt (Elt F) arg2.view (Rect.unit ![0, 0] S10000x1.size inb_S10000x1_S10000x1_0_0).toLoadRect f2 = View.read (Elt F) arg2.view f2 :=
      View.ld_unit_zero zeros8 inb_S10000x1_S10000x1_0_0 (View.read (Elt F) arg2.view f2)
    exact congr (congr (congrArg k8_pay4 e1) e2) (View.readCov_unit_zero arg4.view zeros8 inb_S64x32_S64x32_0_0 _)
  iexists _; isplitr
  swap; · iexact H5
  ipureintro
  sl_unfold_run_names
  refine (View.read_writes_eq_canon _ _ _ (cover8_N _ _)).trans ?_
  refine (View.canon_cons_unit_zero zeros8 _ _ _).trans ?_
  have e2 : View.readAt (Elt F) arg2.view (Rect.unit ![0, 0] S10000x1.size inb_S10000x1_S10000x1_0_0).toLoadRect f2 = View.read (Elt F) arg2.view f2 :=
    View.ld_unit_zero zeros8 inb_S10000x1_S10000x1_0_0 (View.read (Elt F) arg2.view f2)
  exact congr (congrArg k8_pay5 e2) (View.readCov_unit_zero arg5.view zeros8 inb_S64x1_S64x1_0_0 _)

set_option maxHeartbeats 4000000 in
theorem sound_kernel8_B (c : Dev nD) (E : Set ℕ) (i : grid8.Coords) (arg1 : Memref sig .tc .vmem S10000x32 .f32) (harg1 : arg1.IsWhole) (arg2 : Memref sig .tc .vmem S10000x1 .i32) (harg2 : arg2.IsWhole) (arg3 : Memref sig .tc .vmem S64x32 .f32) (harg3 : arg3.IsWhole) (arg4 : Memref sig .tc .vmem S64x32 .f32) (harg4 : arg4.IsWhole) (arg5 : Memref sig .tc .vmem S64x1 .f32) (harg5 : arg5.IsWhole)
    (hc0 : ¬cond8_0 i) (hc1 : ¬cond8_1 i)
    (x0 : Vec F S10000x32 .f32) (g0 : Vec F S10000x1 .i32) (o0 : Vec F S64x32 .f32) (s : Vec F S64x32 .f32) (n : Vec F S64x1 .f32) (K : PUnit → sProp 𝕄) :
    iprop(owns (c : Thread nD τ) arg1 fullShare x0 ∗ owns (c : Thread nD τ) arg2 fullShare g0 ∗ owns (c : Thread nD τ) arg3 fullShare o0
        ∗ owns (c : Thread nD τ) arg4 fullShare s ∗ owns (c : Thread nD τ) arg5 fullShare n
        ∗ (iprop(owns (c : Thread nD τ) arg1 fullShare x0 ∗ owns (c : Thread nD τ) arg2 fullShare g0 ∗ owns (c : Thread nD τ) arg3 fullShare o0
            ∗ owns (c : Thread nD τ) arg4 fullShare (k8_pay4 x0 g0 s) ∗ owns (c : Thread nD τ) arg5 fullShare (k8_pay5 g0 n)) -∗ K ⟨⟩))
      ⊢ wp frame (wpE (defs₀ (F := F)) Variants.none c none) E (cc8__pool_kernel i arg1 harg1 arg2 harg2 arg3 harg3 arg4 harg4 arg5 harg5) K := by
  simp only [cc8__pool_kernel_eq_skeleton]; unfold cc8__pool_kernel_skel
  unfold owns
  iintro ⟨⟨%f1, %hf1, H1⟩, ⟨%f2, %hf2, H2⟩, ⟨%f3, %hf3, H3⟩, ⟨%f4, %hf4, H4⟩, ⟨%f5, %hf5, H5⟩, Hk⟩
  subst hf1; subst hf2; subst hf3; subst hf4; subst hf5
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    refine (View.read_writes_eq_canon _ _ _ (cover8_S _ _)).trans ?_
    refine (View.canon_unit_zero zeros8 _ _).trans ?_
    have e1 : View.readAt (Elt F) arg1.view (Rect.unit ![0, 0] S10000x32.size inb_S10000x32_S10000x32_0_0).toLoadRect f1 = View.read (Elt F) arg1.view f1 :=
      View.ld_unit_zero zeros8 inb_S10000x32_S10000x32_0_0 (View.read (Elt F) arg1.view f1)
    have e2 : View.readAt (Elt F) arg2.view (Rect.unit ![0, 0] S10000x1.size inb_S10000x1_S10000x1_0_0).toLoadRect f2 = View.read (Elt F) arg2.view f2 :=
      View.ld_unit_zero zeros8 inb_S10000x1_S10000x1_0_0 (View.read (Elt F) arg2.view f2)
    have e4 : View.readAt (Elt F) arg4.view (Rect.unit ![0, 0] S64x32.size inb_S64x32_S64x32_0_0).toLoadRect f4 = View.read (Elt F) arg4.view f4 :=
      View.ld_unit_zero zeros8 inb_S64x32_S64x32_0_0 (View.read (Elt F) arg4.view f4)
    exact congr (congr (congrArg k8_pay4 e1) e2) e4
  iexists _; isplitr
  swap; · iexact H5
  ipureintro
  refine (View.read_writes_eq_canon _ _ _ (cover8_N _ _)).trans ?_
  refine (View.canon_unit_zero zeros8 _ _).trans ?_
  have e2 : View.readAt (Elt F) arg2.view (Rect.unit ![0, 0] S10000x1.size inb_S10000x1_S10000x1_0_0).toLoadRect f2 = View.read (Elt F) arg2.view f2 :=
    View.ld_unit_zero zeros8 inb_S10000x1_S10000x1_0_0 (View.read (Elt F) arg2.view f2)
  have e5 : View.readAt (Elt F) arg5.view (Rect.unit ![0, 0] S64x1.size inb_S64x1_S64x1_0_0).toLoadRect f5 = View.read (Elt F) arg5.view f5 :=
    View.ld_unit_zero zeros8 inb_S64x1_S64x1_0_0 (View.read (Elt F) arg5.view f5)
  exact congr (congrArg k8_pay5 e2) e5

set_option maxHeartbeats 4000000 in
theorem sound_kernel8_C (c : Dev nD) (E : Set ℕ) (i : grid8.Coords) (arg1 : Memref sig .tc .vmem S10000x32 .f32) (harg1 : arg1.IsWhole) (arg2 : Memref sig .tc .vmem S10000x1 .i32) (harg2 : arg2.IsWhole) (arg3 : Memref sig .tc .vmem S64x32 .f32) (harg3 : arg3.IsWhole) (arg4 : Memref sig .tc .vmem S64x32 .f32) (harg4 : arg4.IsWhole) (arg5 : Memref sig .tc .vmem S64x1 .f32) (harg5 : arg5.IsWhole)
    (hc0 : ¬cond8_0 i) (hc1 : cond8_1 i)
    (x0 : Vec F S10000x32 .f32) (g0 : Vec F S10000x1 .i32) (s : Vec F S64x32 .f32) (n : Vec F S64x1 .f32) (K : PUnit → sProp 𝕄) :
    iprop(owns (c : Thread nD τ) arg1 fullShare x0 ∗ owns (c : Thread nD τ) arg2 fullShare g0 ∗ (∃ d, owns (c : Thread nD τ) arg3 fullShare d)
        ∗ owns (c : Thread nD τ) arg4 fullShare s ∗ owns (c : Thread nD τ) arg5 fullShare n
        ∗ (iprop(owns (c : Thread nD τ) arg1 fullShare x0 ∗ owns (c : Thread nD τ) arg2 fullShare g0
            ∗ owns (c : Thread nD τ) arg3 fullShare (k8_pay6 (k8_pay4 x0 g0 s) (k8_pay5 g0 n))
            ∗ owns (c : Thread nD τ) arg4 fullShare (k8_pay4 x0 g0 s) ∗ owns (c : Thread nD τ) arg5 fullShare (k8_pay5 g0 n)) -∗ K ⟨⟩))
      ⊢ wp frame (wpE (defs₀ (F := F)) Variants.none c none) E (cc8__pool_kernel i arg1 harg1 arg2 harg2 arg3 harg3 arg4 harg4 arg5 harg5) K := by
  simp only [cc8__pool_kernel_eq_skeleton]; unfold cc8__pool_kernel_skel
  unfold owns
  iintro ⟨⟨%f1, %hf1, H1⟩, ⟨%f2, %hf2, H2⟩, ⟨%d3, %f3, -, H3⟩, ⟨%f4, %hf4, H4⟩, ⟨%f5, %hf5, H5⟩, Hk⟩
  subst hf1; subst hf2; subst hf4; subst hf5
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists _; isplitr
    swap; · iexact H3
    ipureintro
    sl_unfold_run_names
    refine (View.read_writes_eq_canon _ _ _ (cover8_S _ _)).trans ?_
    refine (View.canon_unit_zero zeros8 _ _).trans ?_
    have e1 : View.readAt (Elt F) arg1.view (Rect.unit ![0, 0] S10000x32.size inb_S10000x32_S10000x32_0_0).toLoadRect f1 = View.read (Elt F) arg1.view f1 :=
      View.ld_unit_zero zeros8 inb_S10000x32_S10000x32_0_0 (View.read (Elt F) arg1.view f1)
    have e2 : View.readAt (Elt F) arg2.view (Rect.unit ![0, 0] S10000x1.size inb_S10000x1_S10000x1_0_0).toLoadRect f2 = View.read (Elt F) arg2.view f2 :=
      View.ld_unit_zero zeros8 inb_S10000x1_S10000x1_0_0 (View.read (Elt F) arg2.view f2)
    have e4 : View.readAt (Elt F) arg4.view (Rect.unit ![0, 0] S64x32.size inb_S64x32_S64x32_0_0).toLoadRect f4 = View.read (Elt F) arg4.view f4 :=
      View.ld_unit_zero zeros8 inb_S64x32_S64x32_0_0 (View.read (Elt F) arg4.view f4)
    have e5 : View.readAt (Elt F) arg5.view (Rect.unit ![0, 0] S64x1.size inb_S64x1_S64x1_0_0).toLoadRect f5 = View.read (Elt F) arg5.view f5 :=
      View.ld_unit_zero zeros8 inb_S64x1_S64x1_0_0 (View.read (Elt F) arg5.view f5)
    exact congr (congrArg k8_pay6 ((View.readCov_unit_zero arg4.view zeros8 inb_S64x32_S64x32_0_0 _).trans (congr (congr (congrArg k8_pay4 e1) e2) e4)))
      ((View.readCov_unit_zero arg5.view zeros8 inb_S64x1_S64x1_0_0 _).trans (congr (congrArg k8_pay5 e2) e5))
  isplitl [H4]
  · iexists _; isplitr
    swap; · iexact H4
    ipureintro
    refine (View.read_writes_eq_canon _ _ _ (cover8_S _ _)).trans ?_
    refine (View.canon_unit_zero zeros8 _ _).trans ?_
    have e1 : View.readAt (Elt F) arg1.view (Rect.unit ![0, 0] S10000x32.size inb_S10000x32_S10000x32_0_0).toLoadRect f1 = View.read (Elt F) arg1.view f1 :=
      View.ld_unit_zero zeros8 inb_S10000x32_S10000x32_0_0 (View.read (Elt F) arg1.view f1)
    have e2 : View.readAt (Elt F) arg2.view (Rect.unit ![0, 0] S10000x1.size inb_S10000x1_S10000x1_0_0).toLoadRect f2 = View.read (Elt F) arg2.view f2 :=
      View.ld_unit_zero zeros8 inb_S10000x1_S10000x1_0_0 (View.read (Elt F) arg2.view f2)
    have e4 : View.readAt (Elt F) arg4.view (Rect.unit ![0, 0] S64x32.size inb_S64x32_S64x32_0_0).toLoadRect f4 = View.read (Elt F) arg4.view f4 :=
      View.ld_unit_zero zeros8 inb_S64x32_S64x32_0_0 (View.read (Elt F) arg4.view f4)
    exact congr (congr (congrArg k8_pay4 e1) e2) e4
  iexists _; isplitr
  swap; · iexact H5
  ipureintro
  refine (View.read_writes_eq_canon _ _ _ (cover8_N _ _)).trans ?_
  refine (View.canon_unit_zero zeros8 _ _).trans ?_
  have e2 : View.readAt (Elt F) arg2.view (Rect.unit ![0, 0] S10000x1.size inb_S10000x1_S10000x1_0_0).toLoadRect f2 = View.read (Elt F) arg2.view f2 :=
    View.ld_unit_zero zeros8 inb_S10000x1_S10000x1_0_0 (View.read (Elt F) arg2.view f2)
  have e5 : View.readAt (Elt F) arg5.view (Rect.unit ![0, 0] S64x1.size inb_S64x1_S64x1_0_0).toLoadRect f5 = View.read (Elt F) arg5.view f5 :=
    View.ld_unit_zero zeros8 inb_S64x1_S64x1_0_0 (View.read (Elt F) arg5.view f5)
  exact congr (congrArg k8_pay5 e2) e5

def acc8 (c : Dev nD) : (n : ℕ) → n < cfg8.N → Vec F S64x32 .f32 × Vec F S64x1 .f32
  | 0, hn => (k8_pay4 (iblk8 V c 0 ⟨0, hn⟩) (iblk8 V c 1 ⟨0, hn⟩) (k8_pay1 (F := F)), k8_pay5 (iblk8 V c 1 ⟨0, hn⟩) (k8_pay2 (F := F)))
  | n + 1, hn => (k8_pay4 (iblk8 V c 0 ⟨n + 1, hn⟩) (iblk8 V c 1 ⟨n + 1, hn⟩) (acc8 c n (Nat.lt_of_succ_lt hn)).1,
      k8_pay5 (iblk8 V c 1 ⟨n + 1, hn⟩) (acc8 c n (Nat.lt_of_succ_lt hn)).2)

theorem acc8_zero (c : Dev nD) (hn : 0 < cfg8.N) :
    acc8 V c 0 hn = (k8_pay4 (iblk8 V c 0 ⟨0, hn⟩) (iblk8 V c 1 ⟨0, hn⟩) (k8_pay1 (F := F)), k8_pay5 (iblk8 V c 1 ⟨0, hn⟩) (k8_pay2 (F := F))) := rfl

theorem acc8_succ (c : Dev nD) (n : ℕ) (hn : n + 1 < cfg8.N) :
    acc8 V c (n + 1) hn = (k8_pay4 (iblk8 V c 0 ⟨n + 1, hn⟩) (iblk8 V c 1 ⟨n + 1, hn⟩) (acc8 V c n (Nat.lt_of_succ_lt hn)).1,
      k8_pay5 (iblk8 V c 1 ⟨n + 1, hn⟩) (acc8 V c n (Nat.lt_of_succ_lt hn)).2) := rfl

theorem acc8_first_fst (c : Dev nD) (t : Fin cfg8.N) (hz : t.val = 0) :
    (acc8 V c t.val t.isLt).1 = k8_pay4 (iblk8 V c 0 t) (iblk8 V c 1 t) (k8_pay1 (F := F)) := by
  obtain ⟨n, hn⟩ := t
  cases n with
  | zero => exact rfl
  | succ n => exact absurd hz (Nat.succ_ne_zero n)

theorem acc8_first_snd (c : Dev nD) (t : Fin cfg8.N) (hz : t.val = 0) :
    (acc8 V c t.val t.isLt).2 = k8_pay5 (iblk8 V c 1 t) (k8_pay2 (F := F)) := by
  obtain ⟨n, hn⟩ := t
  cases n with
  | zero => exact rfl
  | succ n => exact absurd hz (Nat.succ_ne_zero n)

theorem acc8_later_fst (c : Dev nD) (t : Fin cfg8.N) (hz : t.val ≠ 0) :
    (acc8 V c t.val t.isLt).1 = k8_pay4 (iblk8 V c 0 t) (iblk8 V c 1 t) (acc8 V c (t.val - 1) (Nat.lt_of_le_of_lt (Nat.sub_le _ _) t.isLt)).1 := by
  obtain ⟨n, hn⟩ := t
  cases n with
  | zero => exact absurd rfl hz
  | succ n => exact rfl

theorem acc8_later_snd (c : Dev nD) (t : Fin cfg8.N) (hz : t.val ≠ 0) :
    (acc8 V c t.val t.isLt).2 = k8_pay5 (iblk8 V c 1 t) (acc8 V c (t.val - 1) (Nat.lt_of_le_of_lt (Nat.sub_le _ _) t.isLt)).2 := by
  obtain ⟨n, hn⟩ := t
  cases n with
  | zero => exact absurd rfl hz
  | succ n => exact rfl

def Phi8 (c : Dev nD) : (n : ℕ) → n ≤ cfg8.N → sProp 𝕄
  | 0, _ => Pipeline.ΦA spec8 c
  | n + 1, hn => iprop(iprop(iprop(owns (c : Thread nD τ) scM8_0 fullShare (acc8 V c n hn).1 ∗ owns (c : Thread nD τ) scM8_1 fullShare (acc8 V c n hn).2)
      ∗ Pipeline.scopedRestBut (Ix := Unit) (Name := ℕ) (U := UR sig nD τ) (Lvl := ℕ) (Val := Elt F) spec8 c [cc8_scratch0, cc8_scratch1]) ∗ (∃ r, prngReg c r))

theorem Phi8_zero (c : Dev nD) (n : ℕ) (h : n ≤ cfg8.N) (hz : n = 0) : Phi8 V c n h = Pipeline.ΦA spec8 c := by
  subst hz; rfl

theorem Phi8_succ (c : Dev nD) (n : ℕ) (hn : n < cfg8.N) :
    Phi8 V c (n + 1) hn = iprop(iprop(iprop(owns (c : Thread nD τ) scM8_0 fullShare (acc8 V c n hn).1 ∗ owns (c : Thread nD τ) scM8_1 fullShare (acc8 V c n hn).2)
      ∗ Pipeline.scopedRestBut (Ix := Unit) (Name := ℕ) (U := UR sig nD τ) (Lvl := ℕ) (Val := Elt F) spec8 c [cc8_scratch0, cc8_scratch1]) ∗ (∃ r, prngReg c r)) := rfl

theorem Phi8_pos (c : Dev nD) (n : ℕ) (h : n ≤ cfg8.N) (hz : n ≠ 0) :
    Phi8 V c n h = iprop(iprop(iprop(owns (c : Thread nD τ) scM8_0 fullShare (acc8 V c (n - 1) (by omega)).1 ∗ owns (c : Thread nD τ) scM8_1 fullShare (acc8 V c (n - 1) (by omega)).2)
      ∗ Pipeline.scopedRestBut (Ix := Unit) (Name := ℕ) (U := UR sig nD τ) (Lvl := ℕ) (Val := Elt F) spec8 c [cc8_scratch0, cc8_scratch1]) ∗ (∃ r, prngReg c r)) := by
  cases n with
  | zero => exact absurd rfl hz
  | succ n => rfl

def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => k8_pay6 (acc8 V c t.val t.isLt).1 (acc8 V c t.val t.isLt).2
  Φ t := Phi8 V c t.val (Nat.le_of_lt_succ t.isLt)
  q _ := fullShare
  owed _ := 0

theorem A_eq8 (c : Dev nD) (w : Fin cfg8.W) : (dat8 V c).A w = V c (Pipeline.arrRef spec8 w) := by
  dsimp only [dat8]

theorem Phi8_castSucc (c : Dev nD) (t : Fin cfg8.N) :
    (dat8 V c).Φ t.castSucc = Phi8 V c t.val (Nat.le_of_lt t.isLt) := by
  dsimp only [dat8]; simp only [Fin.coe_castSucc]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) :
    (dat8 V c).after 2 t = k8_pay6 (acc8 V c t.val t.isLt).1 (acc8 V c t.val t.isLt).2 := by dsimp only [dat8]

theorem after8_2_last (c : Dev nD) :
    (dat8 V c).after 2 t8_9 = k8_pay6 (acc8 V c 9 t8_9.isLt).1 (acc8 V c 9 t8_9.isLt).2 := after8_2 V c t8_9

theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d

def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d)))

def bodyPost8 (c : Dev nD) (t : Fin cfg8.N) : sProp 𝕄 :=
  iprop((dat8 V c).Φ t.succ ∗ (dat8 V c).owesAt () t.succ
    ∗ (dat8 V c).leavesExact 0 t
    ∗ (dat8 V c).leavesExact 1 t
    ∗ (dat8 V c).leavesExact 2 t)

set_option maxHeartbeats 4800000 in
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1]
  rw [show (dat8 V c).owesAt () t.succ = (dat8 V c).owesAt () t.castSucc from rfl]
  rw [show (dat8 V c).Φ t.succ = Phi8 V c (t.val + 1) t.isLt from rfl, Phi8_succ]
  rw [show (dat8 V c).leavesExact 0 t = owns (c : Thread nD τ) (st8_0 t) fullShare ((dat8 V c).after 0 t) from by
    unfold Dat.leavesExact; rw [liveAt8_0 t], after8_0]
  rw [show (dat8 V c).leavesExact 1 t = owns (c : Thread nD τ) (st8_1 t) fullShare ((dat8 V c).after 1 t) from by
    unfold Dat.leavesExact; rw [liveAt8_1 t], after8_1]
  have hN : t.val < 10 := lt_of_lt_of_eq t.isLt (show cfg8.N = 10 from N_8)
  by_cases h9 : t.val = 9
  · have hz : t.val ≠ 0 := by omega
    have hc0 : ¬cond8_0 (grid8.coords t) := fun h => hz ((hcond8_0 t).mp h)
    have hc1 : cond8_1 (grid8.coords t) := (hcond8_1 t).mpr h9
    rw [show (dat8 V c).leavesExact 2 t = owns (c : Thread nD τ) (st8_2 t) fullShare ((dat8 V c).after 2 t) from by
      unfold Dat.leavesExact; rw [liveAt8_2 t hc1], after8_2]
    rw [acc8_later_fst V c t hz, acc8_later_snd V c t hz]
    rw [Phi8_castSucc V c t, Phi8_pos V c _ _ hz]
    iintro ⟨⟨⟨⟨HS0, HS1⟩, Hrest⟩, Hg⟩, Ho, ⟨%d0, H0⟩, ⟨%d1, H1⟩, ⟨%d2, H2⟩⟩
    iapply (sound_kernel8_C c Set.univ (grid8.coords t) _ _ _ _ _ _ _ _ _ _ hc0 hc1 (iblk8 V c 0 t) (iblk8 V c 1 t) _ _ _)
    isplitl [H0]; · iexact H0
    isplitl [H1]; · iexact H1
    isplitl [H2]; · iexists _; iexact H2
    isplitl [HS0]; · iexact HS0
    isplitl [HS1]; · iexact HS1
    iintro ⟨H0, H1, H2, HS0, HS1⟩
    isplitl [HS0 HS1 Hrest Hg]
    · isplitl [HS0 HS1 Hrest]
      · isplitl [HS0 HS1]
        · isplitl [HS0]; · iexact HS0
          iexact HS1
        iexact Hrest
      iexact Hg
    isplitl [Ho]; · iexact Ho
    isplitl [H0]; · iexact H0
    isplitl [H1]; · iexact H1
    iexact H2
  · have hc1 : ¬cond8_1 (grid8.coords t) := fun h => h9 ((hcond8_1 t).mp h)
    rw [Dat.leavesExact_idle (dat8 V c) 2 t (idleAt8_2 t hc1) (noFlush8_2 t hc1)]
    by_cases hz : t.val = 0
    · have hc0 : cond8_0 (grid8.coords t) := (hcond8_0 t).mpr hz
      rw [acc8_first_fst V c t hz, acc8_first_snd V c t hz]
      rw [Phi8_castSucc V c t, Phi8_zero V c _ _ hz, PhiA8_eq]
      iintro ⟨⟨⟨⟨HS0, HS1⟩, Hrest⟩, Hg⟩, Ho, ⟨%d0, H0⟩, ⟨%d1, H1⟩, ⟨%d2, H2⟩⟩
      iapply (sound_kernel8_A c Set.univ (grid8.coords t) _ _ _ _ _ _ _ _ _ _ hc0 hc1 (iblk8 V c 0 t) (iblk8 V c 1 t) ((dat8 V c).before 2 t d2) _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      iexists d2; iexact H2
    · have hc0 : ¬cond8_0 (grid8.coords t) := fun h => hz ((hcond8_0 t).mp h)
      rw [acc8_later_fst V c t hz, acc8_later_snd V c t hz]
      rw [Phi8_castSucc V c t, Phi8_pos V c _ _ hz]
      iintro ⟨⟨⟨⟨HS0, HS1⟩, Hrest⟩, Hg⟩, Ho, ⟨%d0, H0⟩, ⟨%d1, H1⟩, ⟨%d2, H2⟩⟩
      iapply (sound_kernel8_B c Set.univ (grid8.coords t) _ _ _ _ _ _ _ _ _ _ hc0 hc1 (iblk8 V c 0 t) (iblk8 V c 1 t) ((dat8 V c).before 2 t d2) _ _ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      iexists d2; iexact H2

theorem body_obligation8 (c : Dev nD) : BodyObligation (dat8 (F := F) V c) (defs₀ (F := F)) Variants.none () Set.univ := fun t => by
  rw [bigSep_W8, bigSep_W8]
  exact sound_body8 V c t

theorem hin8 (c : Dev nD) : Pipeline.ΦA spec8 c ⊢ (dat8 V c).Φ 0 := by
  rw [show (dat8 V c).Φ 0 = Phi8 V c 0 (Nat.zero_le _) from rfl, Phi8_zero V c 0 _ rfl]
  try exact Idealize.SL.BI.Entails.refl _

theorem Phi8_out (c : Dev nD) (t : Fin (cfg8.N + 1)) (ht : t.val ≠ 0) : (dat8 V c).Φ t ⊢ Pipeline.ΦA spec8 c := by
  rw [show (dat8 V c).Φ t = Phi8 V c t.val (Nat.le_of_lt_succ t.isLt) from rfl, Phi8_pos V c _ _ ht, PhiA8_eq]
  iintro ⟨⟨⟨HS0, HS1⟩, Hrest⟩, Hg⟩
  isplitl [HS0 HS1 Hrest]
  · isplitl [HS0 HS1]
    · isplitl [HS0]
      · iexists _; iexact HS0
      iexists _; iexact HS1
    iexact Hrest
  iexact Hg

theorem hout8 (c : Dev nD) : (dat8 V c).Φ (Fin.last cfg8.N) ⊢ Pipeline.ΦA spec8 c :=
  Phi8_out V c _ (by rw [Fin.val_last]; have : cfg8.N = 10 := N_8; omega)

end Cert.Kernel.Hand

end
-- ==== Proof.K.Fold.lean ====
import proofs.«417219_j7851200218009_2_alg».proof.Proof.K.R0
import proofs.«417219_j7851200218009_2_alg».proof.Proof.K.R1
import proofs.«417219_j7851200218009_2_alg».proof.Proof.K.R2
import proofs.«417219_j7851200218009_2_alg».proof.Proof.K.R3
import proofs.«417219_j7851200218009_2_alg».proof.Proof.K.R4
import proofs.«417219_j7851200218009_2_alg».proof.Proof.K.R5
import proofs.«417219_j7851200218009_2_alg».proof.Proof.K.R6
import proofs.«417219_j7851200218009_2_alg».proof.Proof.K.R7
import proofs.«417219_j7851200218009_2_alg».proof.Proof.K.R8
import proofs.«417219_j7851200218009_2_alg».proof.Proof.Gen.Kernel.Regions

set_option maxRecDepth 16384

noncomputable section

namespace Cert.Kernel.Hand

open Cert.Kernel Cert.Kernel.Gen
open Idealize.ShloMosaic Idealize.ShloMosaic.TcCoe
open Idealize.SL Idealize.SL.Sem
open Idealize.ShloMosaic.Pipeline (Dat)

variable {F : FTy → Type} [FloatOps F]
variable (m : (ℓ : Loc nD τ sig) → Buf (Elt F) ℓ)

abbrev atTc (X : Dev nD → Valuation τ sig (Elt F)) : (c : Dev nD) → (b : Ref sig .tc) → Buf (Elt F) ((c : Thread nD τ).loc b) :=
  fun c b => X c b

/-- The boundary contents in order: the launch memory after the first host stretches, then by turns a region's output array
    replaced by what the region leaves there, and the next host stretch applied. -/
abbrev X3 (c : Dev nD) : Valuation τ sig (Elt F) := Gen.V3 m c

def arr0 (c : Dev nD) : Buf (Elt F) ((c : Thread nD τ).loc main_v30) := (dat0 (atTc (X3 m)) c).arrAt 2 cfg0.N

def X4 (c : Dev nD) : Valuation τ sig (Elt F) := Function.update (X3 m c) main_v30 (arr0 m c)

abbrev X5 (c : Dev nD) : Valuation τ sig (Elt F) := StableHlo.after hostOps1 (X4 m c)

def arr1 (c : Dev nD) : Buf (Elt F) ((c : Thread nD τ).loc main_v44) := (dat1 (atTc (X5 m)) c).arrAt 1 cfg1.N

def X6 (c : Dev nD) : Valuation τ sig (Elt F) := Function.update (X5 m c) main_v44 (arr1 m c)

def arr2 (c : Dev nD) : Buf (Elt F) ((c : Thread nD τ).loc main_v45) := (dat2 (atTc (X6 m)) c).arrAt 2 cfg2.N

def X7 (c : Dev nD) : Valuation τ sig (Elt F) := Function.update (X6 m c) main_v45 (arr2 m c)

abbrev X8 (c : Dev nD) : Valuation τ sig (Elt F) := StableHlo.after hostOps3 (X7 m c)

def arr3 (c : Dev nD) : Buf (Elt F) ((c : Thread nD τ).loc main_v59) := (dat3 (atTc (X8 m)) c).arrAt 1 cfg3.N

def X9 (c : Dev nD) : Valuation τ sig (Elt F) := Function.update (X8 m c) main_v59 (arr3 m c)

def arr4 (c : Dev nD) : Buf (Elt F) ((c : Thread nD τ).loc main_v60) := (dat4 (atTc (X9 m)) c).arrAt 2 cfg4.N

def X10 (c : Dev nD) : Valuation τ sig (Elt F) := Function.update (X9 m c) main_v60 (arr4 m c)

abbrev X11 (c : Dev nD) : Valuation τ sig (Elt F) := StableHlo.after hostOps5 (X10 m c)

def arr5 (c : Dev nD) : Buf (Elt F) ((c : Thread nD τ).loc main_v75) := (dat5 (atTc (X11 m)) c).arrAt 2 cfg5.N

def X12 (c : Dev nD) : Valuation τ sig (Elt F) := Function.update (X11 m c) main_v75 (arr5 m c)

def arr6 (c : Dev nD) : Buf (Elt F) ((c : Thread nD τ).loc main_v76) := (dat6 (atTc (X12 m)) c).arrAt 2 cfg6.N

def X13 (c : Dev nD) : Valuation τ sig (Elt F) := Function.update (X12 m c) main_v76 (arr6 m c)

abbrev X14 (c : Dev nD) : Valuation τ sig (Elt F) := StableHlo.after hostOps7 (X13 m c)

def arr7 (c : Dev nD) : Buf (Elt F) ((c : Thread nD τ).loc main_v91) := (dat7 (atTc (X14 m)) c).arrAt 2 cfg7.N

def X15 (c : Dev nD) : Valuation τ sig (Elt F) := Function.update (X14 m c) main_v91 (arr7 m c)

abbrev X16 (c : Dev nD) : Valuation τ sig (Elt F) := StableHlo.after hostOps8 (X15 m c)

def arr8 (c : Dev nD) : Buf (Elt F) ((c : Thread nD τ).loc main_v93) := (dat8 (atTc (X16 m)) c).arrAt 2 cfg8.N

def X17 (c : Dev nD) : Valuation τ sig (Elt F) := Function.update (X16 m c) main_v93 (arr8 m c)

def outsFn : Outs (F := F) := fun J r c => match J with
  | 4 => X4 m c r
  | 6 => X6 m c r
  | 7 => X7 m c r
  | 9 => X9 m c r
  | 10 => X10 m c r
  | 12 => X12 m c r
  | 13 => X13 m c r
  | 15 => X15 m c r
  | 17 => X17 m c r
  | _ => Gen.V0 m c r

theorem V4_eq (c : Dev nD) : Gen.V4 m (outsFn m) c = X4 m c := by
  show Function.update (Gen.V3 m c) main_v30 (X4 m c main_v30) = X4 m c
  unfold X4; rw [Function.update_self]
theorem V5_eq (c : Dev nD) : Gen.V5 m (outsFn m) c = X5 m c := by
  show StableHlo.after hostOps1 (Gen.V4 m (outsFn m) c) = _
  rw [V4_eq]

theorem V6_eq (c : Dev nD) : Gen.V6 m (outsFn m) c = X6 m c := by
  show Function.update (Gen.V5 m (outsFn m) c) main_v44 (X6 m c main_v44) = X6 m c
  rw [V5_eq]; unfold X6; rw [Function.update_self]

theorem V7_eq (c : Dev nD) : Gen.V7 m (outsFn m) c = X7 m c := by
  show Function.update (Gen.V6 m (outsFn m) c) main_v45 (X7 m c main_v45) = X7 m c
  rw [V6_eq]; unfold X7; rw [Function.update_self]
theorem V8_eq (c : Dev nD) : Gen.V8 m (outsFn m) c = X8 m c := by
  show StableHlo.after hostOps3 (Gen.V7 m (outsFn m) c) = _
  rw [V7_eq]

theorem V9_eq (c : Dev nD) : Gen.V9 m (outsFn m) c = X9 m c := by
  show Function.update (Gen.V8 m (outsFn m) c) main_v59 (X9 m c main_v59) = X9 m c
  rw [V8_eq]; unfold X9; rw [Function.update_self]

theorem V10_eq (c : Dev nD) : Gen.V10 m (outsFn m) c = X10 m c := by
  show Function.update (Gen.V9 m (outsFn m) c) main_v60 (X10 m c main_v60) = X10 m c
  rw [V9_eq]; unfold X10; rw [Function.update_self]
theorem V11_eq (c : Dev nD) : Gen.V11 m (outsFn m) c = X11 m c := by
  show StableHlo.after hostOps5 (Gen.V10 m (outsFn m) c) = _
  rw [V10_eq]

theorem V12_eq (c : Dev nD) : Gen.V12 m (outsFn m) c = X12 m c := by
  show Function.update (Gen.V11 m (outsFn m) c) main_v75 (X12 m c main_v75) = X12 m c
  rw [V11_eq]; unfold X12; rw [Function.update_self]

theorem V13_eq (c : Dev nD) : Gen.V13 m (outsFn m) c = X13 m c := by
  show Function.update (Gen.V12 m (outsFn m) c) main_v76 (X13 m c main_v76) = X13 m c
  rw [V12_eq]; unfold X13; rw [Function.update_self]
theorem V14_eq (c : Dev nD) : Gen.V14 m (outsFn m) c = X14 m c := by
  show StableHlo.after hostOps7 (Gen.V13 m (outsFn m) c) = _
  rw [V13_eq]

theorem V15_eq (c : Dev nD) : Gen.V15 m (outsFn m) c = X15 m c := by
  show Function.update (Gen.V14 m (outsFn m) c) main_v91 (X15 m c main_v91) = X15 m c
  rw [V14_eq]; unfold X15; rw [Function.update_self]
theorem V16_eq (c : Dev nD) : Gen.V16 m (outsFn m) c = X16 m c := by
  show StableHlo.after hostOps8 (Gen.V15 m (outsFn m) c) = _
  rw [V15_eq]

theorem V17_eq (c : Dev nD) : Gen.V17 m (outsFn m) c = X17 m c := by
  show Function.update (Gen.V16 m (outsFn m) c) main_v93 (X17 m c main_v93) = X17 m c
  rw [V16_eq]; unfold X17; rw [Function.update_self]

/-- Every region's proof data, each taken at its own region's entry contents. -/
def pdats : (p : Fin 9) → (c : Dev nD) → Dat τ (Elt F) Unit ℕ (UR sig nD τ) ℕ (cfgs p) c
  | ⟨0, _⟩ => fun c => dat0 (atTc (X3 m)) c
  | ⟨1, _⟩ => fun c => dat1 (atTc (X5 m)) c
  | ⟨2, _⟩ => fun c => dat2 (atTc (X6 m)) c
  | ⟨3, _⟩ => fun c => dat3 (atTc (X8 m)) c
  | ⟨4, _⟩ => fun c => dat4 (atTc (X9 m)) c
  | ⟨5, _⟩ => fun c => dat5 (atTc (X11 m)) c
  | ⟨6, _⟩ => fun c => dat6 (atTc (X12 m)) c
  | ⟨7, _⟩ => fun c => dat7 (atTc (X14 m)) c
  | ⟨8, _⟩ => fun c => dat8 (atTc (X16 m)) c

end Cert.Kernel.Hand

end
-- ==== Proof.K.Rest.lean ====
import proofs.«417219_j7851200218009_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

abbrev L : GSem nD τ sig → Finset Unit := fun _ => ∅
abbrev lv : GSem nD τ sig → Unit → ℕ := fun _ _ => 0

/-- What rides beside the buffers between two items: the generator register at some state, and no dues. -/
abbrev Rst (c : Dev nD) : sProp 𝕄 := iprop((∃ r, prngReg c r) ∗ ∃ W, owes (c : Thread nD τ) (0 : CellTallies nD τ sig Unit) W)

end Cert.Kernel.Hand

end
-- ==== Proof.K.Segs.lean ====
import proofs.«417219_j7851200218009_2_alg».proof.Proof.K.Fold
import proofs.«417219_j7851200218009_2_alg».proof.Proof.K.Rest

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-- A region's exit contents: its entry contents with the output window's array replaced by that array after the last grid point. -/
abbrev exitOf {p : Fin 9} (X : Dev nD → Valuation τ sig (Elt F)) (wo : Fin (cfgs p).W) (c : Dev nD) : Valuation τ sig (Elt F) :=
  Function.update (X c) (Proc.devRef .tc (Pipeline.arrRef (cfgs p).spec wo) : DevRef τ sig) ((pdats m p c).arrAt wo (cfgs p).N)

/-- An input window's array is never written and, the windows' arrays being distinct, is not the replaced one. -/
theorem arrAt_exit {p : Fin 9} (kit : Pipeline.LaunchFacts (nD := nD) (τ := τ) cfgs p) (X : Dev nD → Valuation τ sig (Elt F))
    (wo : Fin (cfgs p).W) (hin : ∀ w, w ≠ wo → ((cfgs p).win w).isOut = false) (c : Dev nD)
    (hA : ∀ w, (pdats m p c).A w = atTc X c (Pipeline.arrRef (cfgs p).spec w)) (w : Fin (cfgs p).W) :
    (pdats m p c).arrAt w (cfgs p).N = atTc (exitOf m X wo) c (Pipeline.arrRef (cfgs p).spec w) := by
  by_cases h : w = wo
  · subst h; exact (Function.update_self (Proc.devRef .tc (Pipeline.arrRef (cfgs p).spec w) : DevRef τ sig) _ (X c)).symm
  · exact (((pdats m p c).arrAt_in w (hin w h) _).trans (hA w)).trans
      (Function.update_of_ne (StableHlo.devRef_ne_of_ne fun e => h (kit.win.arr_inj e)) _ _).symm

theorem rest_exit {p : Fin 9} (X : Dev nD → Valuation τ sig (Elt F)) (wo : Fin (cfgs p).W) (c : Dev nD) (b : Ref sig .tc)
    (hb : b ∉ Finset.univ.image (Pipeline.arrRef (cfgs p).spec)) : atTc (exitOf m X wo) c b = atTc X c b :=
  Function.update_of_ne (StableHlo.devRef_ne_of_ne fun e => hb (Finset.mem_image.mpr ⟨wo, Finset.mem_univ _, e.symm⟩)) _ _

theorem owesAt_first {p : Fin 9} (c : Dev nD) (howed : ∀ t, (pdats m p c).owed t = 0) (hrec : (pdats m p c).recorded 0 = Set.univ) :
    (iprop(∃ W, owes (c : Thread nD τ) (0 : CellTallies nD τ sig Unit) W) : sProp 𝕄) ⊢ (pdats m p c).owesAt () 0 := by
  unfold Pipeline.Dat.owesAt Pipeline.owesWithin
  rw [howed 0]
  iintro ⟨%W, HO⟩; iexists W; isplitr; · ipureintro; exact fun _ _ => Or.inl (hrec ▸ Set.mem_univ _)
  iexact HO

theorem owesAt_last {p : Fin 9} (c : Dev nD) (howed : ∀ t, (pdats m p c).owed t = 0) :
    (pdats m p c).owesAt () (Fin.last _) ⊢ (iprop(∃ W, owes (c : Thread nD τ) (0 : CellTallies nD τ sig Unit) W) : sProp 𝕄) := by
  unfold Pipeline.Dat.owesAt Pipeline.owesWithin
  rw [howed (Fin.last _)]
  iintro ⟨%W, -, HO⟩; iexists W; iexact HO

set_option backward.isDefEq.respectTransparency.types false in
/-- Any region with one output window, as a segment of the run: its arrays are split out of the unscoped buffers at the entry
    contents and joined back at the exit contents; nothing is owed before or after. Said once, for all nine regions. -/
def mkReg (p : Fin 9) (kit : Pipeline.LaunchFacts (nD := nD) (τ := τ) cfgs p) (X : Dev nD → Valuation τ sig (Elt F))
    (wo : Fin (cfgs p).W) (hin : ∀ w, w ≠ wo → ((cfgs p).win w).isOut = false)
    (hbody : ∀ c, Pipeline.BodyObligationLoose (pdats m p c) (defs₀ (F := F)) Variants.none () Set.univ)
    (hq : ∀ c w, (pdats m p c).q w = fullShare) (howed : ∀ c t, (pdats m p c).owed t = 0) (hrec : ∀ c, (pdats m p c).recorded 0 = Set.univ)
    (hA : ∀ c w, (pdats m p c).A w = atTc X c (Pipeline.arrRef (cfgs p).spec w))
    (hΦ0 : ∀ c, Pipeline.ΦA (cfgs p).spec c ⊢ (pdats m p c).Φ 0)
    (hΦN : ∀ c, (pdats m p c).Φ (Fin.last _) ⊢ Pipeline.ΦA (cfgs p).spec c) :
    Pipeline.RegionSeg (pcfgs (F := F)) adm (pdats m) () defs₀ Variants.none L lv p where
  win := kit.win.to₀
  block_pos := kit.block_pos
  stage_whole := kit.stage_whole
  K := PEmpty
  osem k := k.elim
  ho := Pipeline.OwnSemFacts.none _
  hbody := hbody
  hwaits := Pipeline.hwaits_of_owed_zero _ _ _ _ L lv p howed
  pre c := iprop(StableHlo.held (c : Thread nD τ) (Pipeline.ucRefs τ sig) (X c) ∗ Rst c)
  post c := iprop(StableHlo.held (c : Thread nD τ) (Pipeline.ucRefs τ sig) (exitOf m X wo c) ∗ Rst c)
  X c := iprop(∃ r, prngReg c r)
  Y c := iprop(∃ r, prngReg c r)
  Z c := Pipeline.unscopedRest (Ix := Unit) (Name := ℕ) (U := UR sig nD τ) (Lvl := ℕ) (cfgs p).spec c (atTc X c)
  hentry c := by
    rw [Pipeline.ownSems0_none]
    have hsplit := Pipeline.arrays_of_unscopedBufs (p := p) (pcfgs (F := F)) adm (pdats m) kit.win kit.arr_whole c
      ((pdats m p c).share_full (hq c)) (atTc X c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply owesAt_first m c (howed c) (hrec c); iexact HO
    isplitl [Hp]; · iexact Hp
    iexact Hrest
  hin c := by
    refine BIBase.Entails.trans ?_ (hΦ0 c)
    unfold Pipeline.ΦA
    iintro ⟨Hp, -, Hr⟩
    isplitl [Hr]; · iexact Hr
    iexact Hp
  hout c := by
    rw [Pipeline.ownSems0_none]
    refine (hΦN c).trans ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      kit.win kit.arr_whole c (pdats m) ((pdats m p c).share_full (hq c))
      (atTc X c) (atTc (exitOf m X wo) c) ((pdats m p c).arrAt · (cfgs p).N) (arrAt_exit m kit X wo hin c (hA c)) (rest_exit m X wo c)
    rw [Pipeline.unscopedBufs_held] at hjoin
    iintro ⟨Ha, HO, HY, Hrest⟩
    imodintro
    isplitl [Ha Hrest]
    · iapply hjoin; isplitl [Ha] <;> iassumption
    isplitl [HY]; · iexact HY
    iapply owesAt_last m c (howed c); iexact HO

def reg0 := mkReg m 0 launch0 (X3 m) 2 (by decide) (fun c => (body_obligation0 (atTc (X3 m)) c).loose) (fun _ _ => rfl) (fun _ _ => rfl) (fun _ => rfl) (fun _ _ => rfl) (fun _ => .rfl) (fun _ => .rfl)
def reg1 := mkReg m 1 launch1 (X5 m) 1 (by decide) (fun c => (body_obligation1 (atTc (X5 m)) c).loose) (fun _ _ => rfl) (fun _ _ => rfl) (fun _ => rfl) (fun _ _ => rfl) (fun _ => .rfl) (fun _ => .rfl)
def reg2 := mkReg m 2 launch2 (X6 m) 2 (by decide) (fun c => (body_obligation2 (atTc (X6 m)) c).loose) (fun _ _ => rfl) (fun _ _ => rfl) (fun _ => rfl) (fun _ _ => rfl) (fun _ => .rfl) (fun _ => .rfl)
def reg3 := mkReg m 3 launch3 (X8 m) 1 (by decide) (fun c => (body_obligation3 (atTc (X8 m)) c).loose) (fun _ _ => rfl) (fun _ _ => rfl) (fun _ => rfl) (fun _ _ => rfl) (fun _ => .rfl) (fun _ => .rfl)
def reg4 := mkReg m 4 launch4 (X9 m) 2 (by decide) (fun c => (body_obligation4 (atTc (X9 m)) c).loose) (fun _ _ => rfl) (fun _ _ => rfl) (fun _ => rfl) (fun _ _ => rfl) (fun _ => .rfl) (fun _ => .rfl)
def reg5 := mkReg m 5 launch5 (X11 m) 2 (by decide) (fun c => (body_obligation5 (atTc (X11 m)) c).loose) (fun _ _ => rfl) (fun _ _ => rfl) (fun _ => rfl) (fun _ _ => rfl) (fun _ => .rfl) (fun _ => .rfl)
def reg6 := mkReg m 6 launch6 (X12 m) 2 (by decide) (fun c => (body_obligation6 (atTc (X12 m)) c).loose) (fun _ _ => rfl) (fun _ _ => rfl) (fun _ => rfl) (fun _ _ => rfl) (fun _ => .rfl) (fun _ => .rfl)
def reg7 := mkReg m 7 launch7 (X14 m) 2 (by decide) (fun c => (body_obligation7 (atTc (X14 m)) c).loose) (fun _ _ => rfl) (fun _ _ => rfl) (fun _ => rfl) (fun _ _ => rfl) (fun _ => .rfl) (fun _ => .rfl)
def reg8 := mkReg m 8 launch8 (X16 m) 2 (by decide) (fun c => (body_obligation8 (atTc (X16 m)) c).loose) (fun _ _ => rfl) (fun _ _ => rfl) (fun _ => rfl) (fun _ _ => rfl) (hin8 (atTc (X16 m))) (hout8 (atTc (X16 m)))

end Cert.Kernel.Hand

end
-- ==== Proof.K.Run.lean ====
import proofs.«417219_j7851200218009_2_alg».proof.Proof.K.Segs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-- The word-level program owes only its frame, which is the generated conditional frame at the nine regions' records. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  have hall : (bigSep Finset.univ fun c : Dev nD => iprop(unscopedSems0 c ∗ owes (c : Thread nD τ) (0 : CellTallies nD τ sig Unit) ∅
      ∗ Pipeline.launchCred (0 : Dev nD → CellTallies nD τ sig Unit) c ∗ prngReg c (ρ c) ∗ (BI.emp : sProp 𝕄)))
      ⊢ bigSep Finset.univ (fun c : Dev nD => Rst (F := F) c) := bigSep_mono fun c _ => by
    show (_ : sProp 𝕄) ⊢ _
    iintro ⟨-, HO, -, Hp, -⟩
    isplitl [Hp]; · iexists _; iexact Hp
    iexists ∅; iexact HO
  refine Gen.frame_cond (m := m) (EP := emb₁) (ι := ()) (𝒱₀ := Variants.none) (L := L) (lv := lv) (hL := fun _ _ => rfl) (ρ := ρ)
    (outs := outsFn m) (pdats := pdats m) (O₀ := 0) (G := fun _ => iprop(emp))
    (u₀ := initOf (Pipeline.cells cfgs cellOf_inj) (Pipeline.launchToks cfgs cellOf_inj)) (hu₀ := ?_)
    (E := fun _ => Rst) (hE0 := ?_) (hE9 := fun c => by iintro ⟨-, HO⟩; iexact HO)
    (R0 := reg0 m) (hpre0 := fun c => .rfl) (hpost0 := fun c => by rw [V4_eq]; exact .rfl)
    (R1 := reg1 m) (hpre1 := fun c => by rw [V5_eq]; exact .rfl) (hpost1 := fun c => by rw [V6_eq]; exact .rfl)
    (R2 := reg2 m) (hpre2 := fun c => by rw [V6_eq]; exact .rfl) (hpost2 := fun c => by rw [V7_eq]; exact .rfl)
    (R3 := reg3 m) (hpre3 := fun c => by rw [V8_eq]; exact .rfl) (hpost3 := fun c => by rw [V9_eq]; exact .rfl)
    (R4 := reg4 m) (hpre4 := fun c => by rw [V9_eq]; exact .rfl) (hpost4 := fun c => by rw [V10_eq]; exact .rfl)
    (R5 := reg5 m) (hpre5 := fun c => by rw [V11_eq]; exact .rfl) (hpost5 := fun c => by rw [V12_eq]; exact .rfl)
    (R6 := reg6 m) (hpre6 := fun c => by rw [V12_eq]; exact .rfl) (hpost6 := fun c => by rw [V13_eq]; exact .rfl)
    (R7 := reg7 m) (hpre7 := fun c => by rw [V14_eq]; exact .rfl) (hpost7 := fun c => by rw [V15_eq]; exact .rfl)
    (R8 := reg8 m) (hpre8 := fun c => by rw [V16_eq]; exact .rfl) (hpost8 := fun c => by rw [V17_eq]; exact .rfl)
  · iintro Hu; imodintro
    isplitl [Hu]
    · iapply (show (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · iintro ⟨H, -⟩
    imodintro
    iapply hall
    iexact H

end Cert.Kernel.Hand

end
-- ==== Proof.KI.R0.lean ====
import proofs.«417219_j7851200218009_2_alg».proof.Proof.Gen.KernelIdeal.Launch
import proofs.«417219_j7851200218009_2_alg».proof.Proof.Gen.KernelIdeal.Skeleton
import proofs.«417219_j7851200218009_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S10000x64 := Rect.unit (s := S10000x64) ![0, 0] S10000x64.size inb_S10000x64_S10000x64_0_0
abbrev r0_1 : Rect S64x64 := Rect.unit (s := S64x64) ![0, 0] S64x64.size inb_S64x64_S64x64_0_0
abbrev r0_2 : Rect S10000x64 := Rect.unit (s := S10000x64) ![0, 0] S10000x64.size inb_S10000x64_S10000x64_0_0

def out0_2 (x0 : Vec F S10000x64 .f32) (x1 : Vec F S64x64 .f32) :
    Vec F S10000x64 .f32 :=
  View.canon [⟨r0_2, k0_pay1 (View.ld x0 r0_0) (View.ld x1 r0_1)⟩]

theorem cover0_2 (p0 : Vec F S10000x64 .f32) (y : S10000x64.Idx) :
    ∃ pc ∈ ([⟨r0_2, p0⟩] : List (View.Piece (Elt F) S10000x64 .f32)), y ∈ pc.1.set :=
  View.cover_of_tiled [⟨r0_2, p0⟩] S10000x64.size (by rfl) y

set_option maxHeartbeats 1000000 in
/-- The body on whole buffers: both inputs are left as they were, the output holds the block product of them. -/
theorem sound_kernel0 (c : Dev nD) (E : Set ℕ) (i : grid0.Coords)
    (arg1 : Memref sig .tc .vmem S10000x64 .f32) (harg1 : arg1.IsWhole) (arg2 : Memref sig .tc .vmem S64x64 .f32) (harg2 : arg2.IsWhole)
    (arg3 : Memref sig .tc .vmem S10000x64 .f32) (harg3 : arg3.IsWhole)
    (x0 : Vec F S10000x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem Phi0 (c : Dev nD) (t : Fin (cfg0.N + 1)) : (dat0 V c).Φ t = Pipeline.ΦA spec0 c := rfl

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.R1.lean ====
import proofs.«417219_j7851200218009_2_alg».proof.Proof.Gen.KernelIdeal.Launch
import proofs.«417219_j7851200218009_2_alg».proof.Proof.Gen.KernelIdeal.Skeleton
import proofs.«417219_j7851200218009_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

abbrev r1_0 : Rect S10000x64 := Rect.unit (s := S10000x64) ![0, 0] S10000x64.size inb_S10000x64_S10000x64_0_0

def out1_1 (x0 : Vec F S10000x64 .f32) : Vec F S10000x64 .f32 :=
  View.canon [⟨r1_0, k1_pay1 (View.ld x0 r1_0)⟩]

theorem cover1_1 (p0 : Vec F S10000x64 .f32) (y : S10000x64.Idx) :
    ∃ pc ∈ ([⟨r1_0, p0⟩] : List (View.Piece (Elt F) S10000x64 .f32)), y ∈ pc.1.set :=
  View.cover_of_tiled [⟨r1_0, p0⟩] S10000x64.size (by rfl) y

set_option maxHeartbeats 1000000 in
/-- The body on whole buffers: the input is left as it was, the output holds the pointwise payload of it. -/
theorem sound_kernel1 (c : Dev nD) (E : Set ℕ) (i : grid1.Coords) (arg1 : Memref sig .tc .vmem S10000x64 .f32) (harg1 : arg1.IsWhole) (arg2 : Memref sig .tc .vmem S10000x64 .f32) (harg2 : arg2.IsWhole)
    (x0 : Vec F S10000x64 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out1_1 x0)) -∗ K ⟨⟩))
      ⊢ wp frame (wpE (defs₀ (F := F)) Variants.none c none) E (cc1__leaky_relu_kernel i arg1 harg1 arg2 harg2) K := by
  simp only [cc1__leaky_relu_kernel_eq_skeleton]; unfold cc1__leaky_relu_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover1_1 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => out1_1 (iblk1 V c 0 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = out1_1 (iblk1 V c 0 t) := by dsimp only [dat1]

theorem Phi1 (c : Dev nD) (t : Fin (cfg1.N + 1)) : (dat1 V c).Φ t = Pipeline.ΦA spec1 c := rfl

theorem before1_0 (c : Dev nD) (t : Fin cfg1.N) (d) : (dat1 V c).before 0 t d = iblk1 V c 0 t :=
  before1_0_of V (dat1 V c) (A_eq1 V c 0) (after1_0 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1]
  iintro ⟨HΦ, Ho, ⟨%d0, H0⟩, ⟨%d1, H1⟩⟩
  iapply (sound_kernel1 c Set.univ _ _ _ _ _ (iblk1 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.R2.lean ====
import proofs.«417219_j7851200218009_2_alg».proof.Proof.Gen.KernelIdeal.Launch
import proofs.«417219_j7851200218009_2_alg».proof.Proof.Gen.KernelIdeal.Skeleton
import proofs.«417219_j7851200218009_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

abbrev r2_0 : Rect S10000x64 := Rect.unit (s := S10000x64) ![0, 0] S10000x64.size inb_S10000x64_S10000x64_0_0
abbrev r2_1 : Rect S64x64 := Rect.unit (s := S64x64) ![0, 0] S64x64.size inb_S64x64_S64x64_0_0
abbrev r2_2 : Rect S10000x64 := Rect.unit (s := S10000x64) ![0, 0] S10000x64.size inb_S10000x64_S10000x64_0_0

def out2_2 (x0 : Vec F S10000x64 .f32) (x1 : Vec F S64x64 .f32) :
    Vec F S10000x64 .f32 :=
  View.canon [⟨r2_2, k2_pay1 (View.ld x0 r2_0) (View.ld x1 r2_1)⟩]

theorem cover2_2 (p0 : Vec F S10000x64 .f32) (y : S10000x64.Idx) :
    ∃ pc ∈ ([⟨r2_2, p0⟩] : List (View.Piece (Elt F) S10000x64 .f32)), y ∈ pc.1.set :=
  View.cover_of_tiled [⟨r2_2, p0⟩] S10000x64.size (by rfl) y

set_option maxHeartbeats 1000000 in
/-- The body on whole buffers: both inputs are left as they were, the output holds the block product of them. -/
theorem sound_kernel2 (c : Dev nD) (E : Set ℕ) (i : grid2.Coords)
    (arg1 : Memref sig .tc .vmem S10000x64 .f32) (harg1 : arg1.IsWhole) (arg2 : Memref sig .tc .vmem S64x64 .f32) (harg2 : arg2.IsWhole)
    (arg3 : Memref sig .tc .vmem S10000x64 .f32) (harg3 : arg3.IsWhole)
    (x0 : Vec F S10000x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__matmul_kernel i arg1 harg1 arg2 harg2 arg3 harg3) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem Phi2 (c : Dev nD) (t : Fin (cfg2.N + 1)) : (dat2 V c).Φ t = Pipeline.ΦA spec2 c := rfl

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ (grid2.coords t) _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.R3.lean ====
import proofs.«417219_j7851200218009_2_alg».proof.Proof.Gen.KernelIdeal.Launch
import proofs.«417219_j7851200218009_2_alg».proof.Proof.Gen.KernelIdeal.Skeleton
import proofs.«417219_j7851200218009_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

abbrev r3_0 : Rect S10000x64 := Rect.unit (s := S10000x64) ![0, 0] S10000x64.size inb_S10000x64_S10000x64_0_0

def out3_1 (x0 : Vec F S10000x64 .f32) : Vec F S10000x64 .f32 :=
  View.canon [⟨r3_0, k3_pay1 (View.ld x0 r3_0)⟩]

theorem cover3_1 (p0 : Vec F S10000x64 .f32) (y : S10000x64.Idx) :
    ∃ pc ∈ ([⟨r3_0, p0⟩] : List (View.Piece (Elt F) S10000x64 .f32)), y ∈ pc.1.set :=
  View.cover_of_tiled [⟨r3_0, p0⟩] S10000x64.size (by rfl) y

set_option maxHeartbeats 1000000 in
/-- The body on whole buffers: the input is left as it was, the output holds the pointwise payload of it. -/
theorem sound_kernel3 (c : Dev nD) (E : Set ℕ) (i : grid3.Coords) (arg1 : Memref sig .tc .vmem S10000x64 .f32) (harg1 : arg1.IsWhole) (arg2 : Memref sig .tc .vmem S10000x64 .f32) (harg2 : arg2.IsWhole)
    (x0 : Vec F S10000x64 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out3_1 x0)) -∗ K ⟨⟩))
      ⊢ wp frame (wpE (defs₀ (F := F)) Variants.none c none) E (cc3__relu_kernel i arg1 harg1 arg2 harg2) K := by
  simp only [cc3__relu_kernel_eq_skeleton]; unfold cc3__relu_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover3_1 _)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => out3_1 (iblk3 V c 0 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = out3_1 (iblk3 V c 0 t) := by dsimp only [dat3]

theorem Phi3 (c : Dev nD) (t : Fin (cfg3.N + 1)) : (dat3 V c).Φ t = Pipeline.ΦA spec3 c := rfl

theorem before3_0 (c : Dev nD) (t : Fin cfg3.N) (d) : (dat3 V c).before 0 t d = iblk3 V c 0 t :=
  before3_0_of V (dat3 V c) (A_eq3 V c 0) (after3_0 V c) t d

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0]
  rw [show (dat3 V c).Φ t.succ = (dat3 V c).Φ t.castSucc from rfl,
    show (dat3 V c).owesAt () t.succ = (dat3 V c).owesAt () t.castSucc from rfl,
    after3_0, after3_1]
  iintro ⟨HΦ, Ho, ⟨%d0, H0⟩, ⟨%d1, H1⟩⟩
  iapply (sound_kernel3 c Set.univ _ _ _ _ _ (iblk3 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.R4.lean ====
import proofs.«417219_j7851200218009_2_alg».proof.Proof.Gen.KernelIdeal.Launch
import proofs.«417219_j7851200218009_2_alg».proof.Proof.Gen.KernelIdeal.Skeleton
import proofs.«417219_j7851200218009_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

abbrev r4_0 : Rect S10000x64 := Rect.unit (s := S10000x64) ![0, 0] S10000x64.size inb_S10000x64_S10000x64_0_0
abbrev r4_1 : Rect S64x32 := Rect.unit (s := S64x32) ![0, 0] S64x32.size inb_S64x32_S64x32_0_0
abbrev r4_2 : Rect S10000x32 := Rect.unit (s := S10000x32) ![0, 0] S10000x32.size inb_S10000x32_S10000x32_0_0

def out4_2 (x0 : Vec F S10000x64 .f32) (x1 : Vec F S64x32 .f32) :
    Vec F S10000x32 .f32 :=
  View.canon [⟨r4_2, k4_pay1 (View.ld x0 r4_0) (View.ld x1 r4_1)⟩]

theorem cover4_2 (p0 : Vec F S10000x32 .f32) (y : S10000x32.Idx) :
    ∃ pc ∈ ([⟨r4_2, p0⟩] : List (View.Piece (Elt F) S10000x32 .f32)), y ∈ pc.1.set :=
  View.cover_of_tiled [⟨r4_2, p0⟩] S10000x32.size (by rfl) y

set_option maxHeartbeats 1000000 in
/-- The body on whole buffers: both inputs are left as they were, the output holds the block product of them. -/
theorem sound_kernel4 (c : Dev nD) (E : Set ℕ) (i : grid4.Coords)
    (arg1 : Memref sig .tc .vmem S10000x64 .f32) (harg1 : arg1.IsWhole) (arg2 : Memref sig .tc .vmem S64x32 .f32) (harg2 : arg2.IsWhole)
    (arg3 : Memref sig .tc .vmem S10000x32 .f32) (harg3 : arg3.IsWhole)
    (x0 : Vec F S10000x64 .f32) (x1 : Vec F S64x32 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out4_2 x0 x1)) -∗ K ⟨⟩))
      ⊢ wp frame (wpE (defs₀ (F := F)) Variants.none c none) E (cc4__matmul_kernel i arg1 harg1 arg2 harg2 arg3 harg3) K := by
  simp only [cc4__matmul_kernel_eq_skeleton]; unfold cc4__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]

theorem Phi4 (c : Dev nD) (t : Fin (cfg4.N + 1)) : (dat4 V c).Φ t = Pipeline.ΦA spec4 c := rfl

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ (grid4.coords t) _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KI.R5.lean ====
import proofs.«417219_j7851200218009_2_alg».proof.Proof.Gen.KernelIdeal.Launch
import proofs.«417219_j7851200218009_2_alg».proof.Proof.Gen.KernelIdeal.Skeleton
import proofs.«417219_j7851200218009_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

abbrev r5_0 : Rect S10000x32 := Rect.unit (s := S10000x32) ![0, 0] S10000x32.size inb_S10000x32_S10000x32_0_0
abbrev r5_1 : Rect S1x32 := Rect.unit (s := S1x32) ![0, 0] S1x32.size inb_S1x32_S1x32_0_0

def out5_2 (x0 : Vec F S10000x32 .f32) (x1 : Vec F S1x32 .f32) : Vec F S10000x32 .f32 :=
  View.canon [⟨r5_0, k5_pay1 (View.ld x0 r5_0) (View.ld x1 r5_1)⟩]

theorem cover5_2 (p0 : Vec F S10000x32 .f32) (y : S10000x32.Idx) :
    ∃ pc ∈ ([⟨r5_0, p0⟩] : List (View.Piece (Elt F) S10000x32 .f32)), y ∈ pc.1.set :=
  View.cover_of_tiled [⟨r5_0, p0⟩] S10000x32.size (by rfl) y

set_option maxHeartbeats 1000000 in
/-- The body on whole buffers: the block and the bias row are left as they were, the output holds the block with the row added. -/
theorem sound_kernel5 (c : Dev nD) (E : Set ℕ) (i : grid5.Coords) (arg1 : Memref sig .tc .vmem S10000x32 .f32) (harg1 : arg1.IsWhole) (arg2 : Memref sig .tc .vmem S1x32 .f32) (harg2 : arg2.IsWhole) (arg3 : Memref sig .tc .vmem S10000x32 .f32) (harg3 : arg3.IsWhole)
    (x0 : Vec F S10000x32 .f32) (x1 : Vec F S1x32 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out5_2 x0 x1)) -∗ K ⟨⟩))
      ⊢ wp frame (wpE (defs₀ (F := F)) Variants.none c none) E (cc5__bias_add_kernel i arg1 harg1 arg2 harg2 arg3 harg3) K := by
  simp only [cc5__bias_add_kernel_eq_skeleton]; unfold cc5__bias_add_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover5_2 _)

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out5_2 (iblk5 V c 0 t) (iblk5 V c 1 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = out5_2 (iblk5 V c 0 t) (iblk5 V c 1 t) := by dsimp only [dat5]

theorem Phi5 (c : Dev nD) (t : Fin (cfg5.N + 1)) : (dat5 V c).Φ t = Pipeline.ΦA spec5 c := rfl

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).Φ t.succ = (dat5 V c).Φ t.castSucc from rfl,
    show (dat5 V c).owesAt () t.succ = (dat5 V c).owesAt () t.castSucc from rfl,
    after5_0, after5_1, after5_2]
  iintro ⟨HΦ, Ho, ⟨%d0, H0⟩, ⟨%d1, H1⟩, ⟨%d2, H2⟩⟩
  iapply (sound_kernel5 c Set.univ _ _ _ _ _ _ _ (iblk5 V c 0 t) (iblk5 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation5 (c : Dev nD) : BodyObligation (dat5 (F := F) V c) (defs₀ (F := F)) Variants.none () Set.univ := fun t => by
  rw [bigSep_W5, bigSep_W5]
  exact sound_body5 V c t

end Cert.KernelIdeal.Hand

end
-- ==== Proof.KI.R6.lean ====
import proofs.«417219_j7851200218009_2_alg».proof.Proof.Gen.KernelIdeal.Launch
import proofs.«417219_j7851200218009_2_alg».proof.Proof.Gen.KernelIdeal.Skeleton
import proofs.«417219_j7851200218009_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

abbrev r6_0 : Rect S10000x64 := Rect.unit (s := S10000x64) ![0, 0] S10000x64.size inb_S10000x64_S10000x64_0_0
abbrev r6_1 : Rect S64x32 := Rect.unit (s := S64x32) ![0, 0] S64x32.size inb_S64x32_S64x32_0_0
abbrev r6_2 : Rect S10000x32 := Rect.unit (s := S10000x32) ![0, 0] S10000x32.size inb_S10000x32_S10000x32_0_0

def out6_2 (x0 : Vec F S10000x64 .f32) (x1 : Vec F S64x32 .f32) :
    Vec F S10000x32 .f32 :=
  View.canon [⟨r6_2, k6_pay1 (View.ld x0 r6_0) (View.ld x1 r6_1)⟩]

theorem cover6_2 (p0 : Vec F S10000x32 .f32) (y : S10000x32.Idx) :
    ∃ pc ∈ ([⟨r6_2, p0⟩] : List (View.Piece (Elt F) S10000x32 .f32)), y ∈ pc.1.set :=
  View.cover_of_tiled [⟨r6_2, p0⟩] S10000x32.size (by rfl) y

set_option maxHeartbeats 1000000 in
/-- The body on whole buffers: both inputs are left as they were, the output holds the block product of them. -/
theorem sound_kernel6 (c : Dev nD) (E : Set ℕ) (i : grid6.Coords)
    (arg1 : Memref sig .tc .vmem S10000x64 .f32) (harg1 : arg1.IsWhole) (arg2 : Memref sig .tc .vmem S64x32 .f32) (harg2 : arg2.IsWhole)
    (arg3 : Memref sig .tc .vmem S10000x32 .f32) (harg3 : arg3.IsWhole)
    (x0 : Vec F S10000x64 .f32) (x1 : Vec F S64x32 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out6_2 x0 x1)) -∗ K ⟨⟩))
      ⊢ wp frame (wpE (defs₀ (F := F)) Variants.none c none) E (cc6__matmul_kernel i arg1 harg1 arg2 harg2 arg3 harg3) K := by
  simp only [cc6__matmul_kernel_eq_skeleton]; unfold cc6__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover6_2 _)

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => out6_2 (iblk6 V c 0 t) (iblk6 V c 1 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = out6_2 (iblk6 V c 0 t) (iblk6 V c 1 t) := by dsimp only [dat6]

theorem Phi6 (c : Dev nD) (t : Fin (cfg6.N + 1)) : (dat6 V c).Φ t = Pipeline.ΦA spec6 c := rfl

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d

def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d)))

def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t))

theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).Φ t.succ = (dat6 V c).Φ t.castSucc from rfl,
    show (dat6 V c).owesAt () t.succ = (dat6 V c).owesAt () t.castSucc from rfl,
    after6_0, after6_1, after6_2]
  iintro ⟨HΦ, Ho, ⟨%d0, H0⟩, ⟨%d1, H1⟩, ⟨%d2, H2⟩⟩
  iapply (sound_kernel6 c Set.univ (grid6.coords t) _ _ _ _ _ _ (iblk6 V c 0 t) (iblk6 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation6 (c : Dev nD) : BodyObligation (dat6 (F := F) V c) (defs₀ (F := F)) Variants.none () Set.univ := fun t => by
  rw [bigSep_W6, bigSep_W6]
  exact sound_body6 V c t

end Cert.KernelIdeal.Hand

end
-- ==== Proof.KI.R7.lean ====
import proofs.«417219_j7851200218009_2_alg».proof.Proof.Gen.KernelIdeal.Launch
import proofs.«417219_j7851200218009_2_alg».proof.Proof.Gen.KernelIdeal.Skeleton
import proofs.«417219_j7851200218009_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

abbrev r7_0 : Rect S10000x32 := Rect.unit (s := S10000x32) ![0, 0] S10000x32.size inb_S10000x32_S10000x32_0_0
abbrev r7_1 : Rect S1x32 := Rect.unit (s := S1x32) ![0, 0] S1x32.size inb_S1x32_S1x32_0_0

def out7_2 (x0 : Vec F S10000x32 .f32) (x1 : Vec F S1x32 .f32) : Vec F S10000x32 .f32 :=
  View.canon [⟨r7_0, k7_pay1 (View.ld x0 r7_0) (View.ld x1 r7_1)⟩]

theorem cover7_2 (p0 : Vec F S10000x32 .f32) (y : S10000x32.Idx) :
    ∃ pc ∈ ([⟨r7_0, p0⟩] : List (View.Piece (Elt F) S10000x32 .f32)), y ∈ pc.1.set :=
  View.cover_of_tiled [⟨r7_0, p0⟩] S10000x32.size (by rfl) y

set_option maxHeartbeats 1000000 in
/-- The body on whole buffers: the block and the bias row are left as they were, the output holds the block with the row added. -/
theorem sound_kernel7 (c : Dev nD) (E : Set ℕ) (i : grid7.Coords) (arg1 : Memref sig .tc .vmem S10000x32 .f32) (harg1 : arg1.IsWhole) (arg2 : Memref sig .tc .vmem S1x32 .f32) (harg2 : arg2.IsWhole) (arg3 : Memref sig .tc .vmem S10000x32 .f32) (harg3 : arg3.IsWhole)
    (x0 : Vec F S10000x32 .f32) (x1 : Vec F S1x32 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out7_2 x0 x1)) -∗ K ⟨⟩))
      ⊢ wp frame (wpE (defs₀ (F := F)) Variants.none c none) E (cc7__bias_add_kernel i arg1 harg1 arg2 harg2 arg3 harg3) K := by
  simp only [cc7__bias_add_kernel_eq_skeleton]; unfold cc7__bias_add_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover7_2 _)

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => out7_2 (iblk7 V c 0 t) (iblk7 V c 1 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = out7_2 (iblk7 V c 0 t) (iblk7 V c 1 t) := by dsimp only [dat7]

theorem Phi7 (c : Dev nD) (t : Fin (cfg7.N + 1)) : (dat7 V c).Φ t = Pipeline.ΦA spec7 c := rfl

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d

def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d)))

def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t))

theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1]
  rw [show (dat7 V c).Φ t.succ = (dat7 V c).Φ t.castSucc from rfl,
    show (dat7 V c).owesAt () t.succ = (dat7 V c).owesAt () t.castSucc from rfl,
    after7_0, after7_1, after7_2]
  iintro ⟨HΦ, Ho, ⟨%d0, H0⟩, ⟨%d1, H1⟩, ⟨%d2, H2⟩⟩
  iapply (sound_kernel7 c Set.univ _ _ _ _ _ _ _ (iblk7 V c 0 t) (iblk7 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation7 (c : Dev nD) : BodyObligation (dat7 (F := F) V c) (defs₀ (F := F)) Variants.none () Set.univ := fun t => by
  rw [bigSep_W7, bigSep_W7]
  exact sound_body7 V c t

end Cert.KernelIdeal.Hand

end
-- ==== Proof.KI.R8.lean ====
import proofs.«417219_j7851200218009_2_alg».proof.Proof.Gen.KernelIdeal.Launch
import proofs.«417219_j7851200218009_2_alg».proof.Proof.Gen.KernelIdeal.Skeleton
import proofs.«417219_j7851200218009_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

abbrev cond8_0 (i : grid8.Coords) : Prop := (Scalar.cmpi .ne (Scalar.extui (Scalar.cmpi .eq (BitVec.ofNat 32 (i 0).val) 0#32)) 0#32) = 1#1
theorem hcond8_0 : ∀ t : Fin cfg8.N, cond8_0 (grid8.coords t) ↔ t.val = 0 :=
  (by decide +kernel : ∀ t : Fin grid8.N, cond8_0 (grid8.coords t) ↔ t.val = 0)

abbrev cond8_1 (i : grid8.Coords) : Prop := k8_cond2 i = 1#1
theorem hcond8_1 : ∀ t : Fin cfg8.N, cond8_1 (grid8.coords t) ↔ t.val = 9 :=
  (by decide +kernel : ∀ t : Fin grid8.N, cond8_1 (grid8.coords t) ↔ t.val = 9)

theorem liveAt8_0 : ∀ t : Fin cfg8.N, cfg8.idle 0 (grid8.coords t) = false := by decide +kernel
theorem liveAt8_1 : ∀ t : Fin cfg8.N, cfg8.idle 1 (grid8.coords t) = false := by decide +kernel

theorem idleAt8_2 : ∀ t : Fin cfg8.N, ¬cond8_1 (grid8.coords t) → cfg8.idle 2 (grid8.coords t) = true := by decide +kernel

theorem noFlush8_2 : ∀ t : Fin cfg8.N, ¬cond8_1 (grid8.coords t) → (cfg8.win 2).flush t = false := by decide +kernel

theorem liveAt8_2 : ∀ t : Fin cfg8.N, cond8_1 (grid8.coords t) → cfg8.idle 2 (grid8.coords t) = false := by decide +kernel

abbrev scM8_0 : Memref sig .tc .vmem S64x32 .f32 := Memref.whole cc8_scratch0
abbrev scM8_1 : Memref sig .tc .vmem S64x1 .f32 := Memref.whole cc8_scratch1

theorem PhiA8_eq (c : Dev nD) :
    (Pipeline.ΦA spec8 c : sProp 𝕄)
      = iprop(iprop(iprop((∃ d, owns (c : Thread nD τ) scM8_0 fullShare d) ∗ (∃ d, owns (c : Thread nD τ) scM8_1 fullShare d))
          ∗ Pipeline.scopedRestBut (Ix := Unit) (Name := ℕ) (U := UR sig nD τ) (Lvl := ℕ) (Val := Elt F) spec8 c [cc8_scratch0, cc8_scratch1]) ∗ (∃ r, prngReg c r)) := by
  unfold Pipeline.ΦA; rw [scopedRest8_split]; simp only [scM8_0, scM8_1, owns_whole]; try rfl

theorem zeros8 : (![0, 0] : Fin 2 → ℕ) = fun _ => 0 := by funext a; fin_cases a <;> rfl

theorem cover8_S (p : Vec F S64x32 .f32) (L : List (View.Piece (Elt F) S64x32 .f32)) (y : S64x32.Idx) :
    ∃ pc ∈ ((⟨Rect.unit ![0, 0] S64x32.size inb_S64x32_S64x32_0_0, p⟩ : View.Piece (Elt F) S64x32 .f32) :: L), y ∈ pc.1.set :=
  ⟨_, List.Mem.head _, View.mem_set_unit_zero zeros8 inb_S64x32_S64x32_0_0 y⟩

theorem cover8_N (p : Vec F S64x1 .f32) (L : List (View.Piece (Elt F) S64x1 .f32)) (y : S64x1.Idx) :
    ∃ pc ∈ ((⟨Rect.unit ![0, 0] S64x1.size inb_S64x1_S64x1_0_0, p⟩ : View.Piece (Elt F) S64x1 .f32) :: L), y ∈ pc.1.set :=
  ⟨_, List.Mem.head _, View.mem_set_unit_zero zeros8 inb_S64x1_S64x1_0_0 y⟩

set_option maxHeartbeats 4000000 in
theorem sound_kernel8_A (c : Dev nD) (E : Set ℕ) (i : grid8.Coords) (arg1 : Memref sig .tc .vmem S10000x32 .f32) (harg1 : arg1.IsWhole) (arg2 : Memref sig .tc .vmem S10000x1 .i32) (harg2 : arg2.IsWhole) (arg3 : Memref sig .tc .vmem S64x32 .f32) (harg3 : arg3.IsWhole) (arg4 : Memref sig .tc .vmem S64x32 .f32) (harg4 : arg4.IsWhole) (arg5 : Memref sig .tc .vmem S64x1 .f32) (harg5 : arg5.IsWhole)
    (hc0 : cond8_0 i) (hc1 : ¬cond8_1 i)
    (x0 : Vec F S10000x32 .f32) (g0 : Vec F S10000x1 .i32) (o0 : Vec F S64x32 .f32) (K : PUnit → sProp 𝕄) :
    iprop(owns (c : Thread nD τ) arg1 fullShare x0 ∗ owns (c : Thread nD τ) arg2 fullShare g0 ∗ owns (c : Thread nD τ) arg3 fullShare o0
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare g0 ∗ owns (c : Thread nD τ) arg3 fullShare o0
            ∗ owns (c : Thread nD τ) arg4 fullShare (k8_pay4 x0 g0 (k8_pay1 (F := F))) ∗ owns (c : Thread nD τ) arg5 fullShare (k8_pay5 g0 (k8_pay2 (F := F)))) -∗ K ⟨⟩))
      ⊢ wp frame (wpE (defs₀ (F := F)) Variants.none c none) E (cc8__pool_kernel i arg1 harg1 arg2 harg2 arg3 harg3 arg4 harg4 arg5 harg5) K := by
  simp only [cc8__pool_kernel_eq_skeleton]; unfold cc8__pool_kernel_skel
  unfold owns
  iintro ⟨⟨%f1, %hf1, H1⟩, ⟨%f2, %hf2, H2⟩, ⟨%f3, %hf3, H3⟩, ⟨%d4, %f4, -, H4⟩, ⟨%d5, %f5, -, H5⟩, Hk⟩
  subst hf1; subst hf2; subst hf3
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    sl_unfold_run_names
    refine (View.read_writes_eq_canon _ _ _ (cover8_S _ _)).trans ?_
    refine (View.canon_cons_unit_zero zeros8 _ _ _).trans ?_
    have e1 : View.readAt (Elt F) arg1.view (Rect.unit ![0, 0] S10000x32.size inb_S10000x32_S10000x32_0_0).toLoadRect f1 = View.read (Elt F) arg1.view f1 :=
      View.ld_unit_zero zeros8 inb_S10000x32_S10000x32_0_0 (View.read (Elt F) arg1.view f1)
    have e2 : View.readAt (Elt F) arg2.view (Rect.unit ![0, 0] S10000x1.size inb_S10000x1_S10000x1_0_0).toLoadRect f2 = View.read (Elt F) arg2.view f2 :=
      View.ld_unit_zero zeros8 inb_S10000x1_S10000x1_0_0 (View.read (Elt F) arg2.view f2)
    exact congr (congr (congrArg k8_pay4 e1) e2) (View.readCov_unit_zero arg4.view zeros8 inb_S64x32_S64x32_0_0 _)
  iexists _; isplitr
  swap; · iexact H5
  ipureintro
  sl_unfold_run_names
  refine (View.read_writes_eq_canon _ _ _ (cover8_N _ _)).trans ?_
  refine (View.canon_cons_unit_zero zeros8 _ _ _).trans ?_
  have e2 : View.readAt (Elt F) arg2.view (Rect.unit ![0, 0] S10000x1.size inb_S10000x1_S10000x1_0_0).toLoadRect f2 = View.read (Elt F) arg2.view f2 :=
    View.ld_unit_zero zeros8 inb_S10000x1_S10000x1_0_0 (View.read (Elt F) arg2.view f2)
  exact congr (congrArg k8_pay5 e2) (View.readCov_unit_zero arg5.view zeros8 inb_S64x1_S64x1_0_0 _)

set_option maxHeartbeats 4000000 in
theorem sound_kernel8_B (c : Dev nD) (E : Set ℕ) (i : grid8.Coords) (arg1 : Memref sig .tc .vmem S10000x32 .f32) (harg1 : arg1.IsWhole) (arg2 : Memref sig .tc .vmem S10000x1 .i32) (harg2 : arg2.IsWhole) (arg3 : Memref sig .tc .vmem S64x32 .f32) (harg3 : arg3.IsWhole) (arg4 : Memref sig .tc .vmem S64x32 .f32) (harg4 : arg4.IsWhole) (arg5 : Memref sig .tc .vmem S64x1 .f32) (harg5 : arg5.IsWhole)
    (hc0 : ¬cond8_0 i) (hc1 : ¬cond8_1 i)
    (x0 : Vec F S10000x32 .f32) (g0 : Vec F S10000x1 .i32) (o0 : Vec F S64x32 .f32) (s : Vec F S64x32 .f32) (n : Vec F S64x1 .f32) (K : PUnit → sProp 𝕄) :
    iprop(owns (c : Thread nD τ) arg1 fullShare x0 ∗ owns (c : Thread nD τ) arg2 fullShare g0 ∗ owns (c : Thread nD τ) arg3 fullShare o0
        ∗ owns (c : Thread nD τ) arg4 fullShare s ∗ owns (c : Thread nD τ) arg5 fullShare n
        ∗ (iprop(owns (c : Thread nD τ) arg1 fullShare x0 ∗ owns (c : Thread nD τ) arg2 fullShare g0 ∗ owns (c : Thread nD τ) arg3 fullShare o0
            ∗ owns (c : Thread nD τ) arg4 fullShare (k8_pay4 x0 g0 s) ∗ owns (c : Thread nD τ) arg5 fullShare (k8_pay5 g0 n)) -∗ K ⟨⟩))
      ⊢ wp frame (wpE (defs₀ (F := F)) Variants.none c none) E (cc8__pool_kernel i arg1 harg1 arg2 harg2 arg3 harg3 arg4 harg4 arg5 harg5) K := by
  simp only [cc8__pool_kernel_eq_skeleton]; unfold cc8__pool_kernel_skel
  unfold owns
  iintro ⟨⟨%f1, %hf1, H1⟩, ⟨%f2, %hf2, H2⟩, ⟨%f3, %hf3, H3⟩, ⟨%f4, %hf4, H4⟩, ⟨%f5, %hf5, H5⟩, Hk⟩
  subst hf1; subst hf2; subst hf3; subst hf4; subst hf5
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    refine (View.read_writes_eq_canon _ _ _ (cover8_S _ _)).trans ?_
    refine (View.canon_unit_zero zeros8 _ _).trans ?_
    have e1 : View.readAt (Elt F) arg1.view (Rect.unit ![0, 0] S10000x32.size inb_S10000x32_S10000x32_0_0).toLoadRect f1 = View.read (Elt F) arg1.view f1 :=
      View.ld_unit_zero zeros8 inb_S10000x32_S10000x32_0_0 (View.read (Elt F) arg1.view f1)
    have e2 : View.readAt (Elt F) arg2.view (Rect.unit ![0, 0] S10000x1.size inb_S10000x1_S10000x1_0_0).toLoadRect f2 = View.read (Elt F) arg2.view f2 :=
      View.ld_unit_zero zeros8 inb_S10000x1_S10000x1_0_0 (View.read (Elt F) arg2.view f2)
    have e4 : View.readAt (Elt F) arg4.view (Rect.unit ![0, 0] S64x32.size inb_S64x32_S64x32_0_0).toLoadRect f4 = View.read (Elt F) arg4.view f4 :=
      View.ld_unit_zero zeros8 inb_S64x32_S64x32_0_0 (View.read (Elt F) arg4.view f4)
    exact congr (congr (congrArg k8_pay4 e1) e2) e4
  iexists _; isplitr
  swap; · iexact H5
  ipureintro
  refine (View.read_writes_eq_canon _ _ _ (cover8_N _ _)).trans ?_
  refine (View.canon_unit_zero zeros8 _ _).trans ?_
  have e2 : View.readAt (Elt F) arg2.view (Rect.unit ![0, 0] S10000x1.size inb_S10000x1_S10000x1_0_0).toLoadRect f2 = View.read (Elt F) arg2.view f2 :=
    View.ld_unit_zero zeros8 inb_S10000x1_S10000x1_0_0 (View.read (Elt F) arg2.view f2)
  have e5 : View.readAt (Elt F) arg5.view (Rect.unit ![0, 0] S64x1.size inb_S64x1_S64x1_0_0).toLoadRect f5 = View.read (Elt F) arg5.view f5 :=
    View.ld_unit_zero zeros8 inb_S64x1_S64x1_0_0 (View.read (Elt F) arg5.view f5)
  exact congr (congrArg k8_pay5 e2) e5

set_option maxHeartbeats 4000000 in
theorem sound_kernel8_C (c : Dev nD) (E : Set ℕ) (i : grid8.Coords) (arg1 : Memref sig .tc .vmem S10000x32 .f32) (harg1 : arg1.IsWhole) (arg2 : Memref sig .tc .vmem S10000x1 .i32) (harg2 : arg2.IsWhole) (arg3 : Memref sig .tc .vmem S64x32 .f32) (harg3 : arg3.IsWhole) (arg4 : Memref sig .tc .vmem S64x32 .f32) (harg4 : arg4.IsWhole) (arg5 : Memref sig .tc .vmem S64x1 .f32) (harg5 : arg5.IsWhole)
    (hc0 : ¬cond8_0 i) (hc1 : cond8_1 i)
    (x0 : Vec F S10000x32 .f32) (g0 : Vec F S10000x1 .i32) (s : Vec F S64x32 .f32) (n : Vec F S64x1 .f32) (K : PUnit → sProp 𝕄) :
    iprop(owns (c : Thread nD τ) arg1 fullShare x0 ∗ owns (c : Thread nD τ) arg2 fullShare g0 ∗ (∃ d, owns (c : Thread nD τ) arg3 fullShare d)
        ∗ owns (c : Thread nD τ) arg4 fullShare s ∗ owns (c : Thread nD τ) arg5 fullShare n
        ∗ (iprop(owns (c : Thread nD τ) arg1 fullShare x0 ∗ owns (c : Thread nD τ) arg2 fullShare g0
            ∗ owns (c : Thread nD τ) arg3 fullShare (k8_pay6 (k8_pay4 x0 g0 s) (k8_pay5 g0 n))
            ∗ owns (c : Thread nD τ) arg4 fullShare (k8_pay4 x0 g0 s) ∗ owns (c : Thread nD τ) arg5 fullShare (k8_pay5 g0 n)) -∗ K ⟨⟩))
      ⊢ wp frame (wpE (defs₀ (F := F)) Variants.none c none) E (cc8__pool_kernel i arg1 harg1 arg2 harg2 arg3 harg3 arg4 harg4 arg5 harg5) K := by
  simp only [cc8__pool_kernel_eq_skeleton]; unfold cc8__pool_kernel_skel
  unfold owns
  iintro ⟨⟨%f1, %hf1, H1⟩, ⟨%f2, %hf2, H2⟩, ⟨%d3, %f3, -, H3⟩, ⟨%f4, %hf4, H4⟩, ⟨%f5, %hf5, H5⟩, Hk⟩
  subst hf1; subst hf2; subst hf4; subst hf5
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists _; isplitr
    swap; · iexact H3
    ipureintro
    sl_unfold_run_names
    refine (View.read_writes_eq_canon _ _ _ (cover8_S _ _)).trans ?_
    refine (View.canon_unit_zero zeros8 _ _).trans ?_
    have e1 : View.readAt (Elt F) arg1.view (Rect.unit ![0, 0] S10000x32.size inb_S10000x32_S10000x32_0_0).toLoadRect f1 = View.read (Elt F) arg1.view f1 :=
      View.ld_unit_zero zeros8 inb_S10000x32_S10000x32_0_0 (View.read (Elt F) arg1.view f1)
    have e2 : View.readAt (Elt F) arg2.view (Rect.unit ![0, 0] S10000x1.size inb_S10000x1_S10000x1_0_0).toLoadRect f2 = View.read (Elt F) arg2.view f2 :=
      View.ld_unit_zero zeros8 inb_S10000x1_S10000x1_0_0 (View.read (Elt F) arg2.view f2)
    have e4 : View.readAt (Elt F) arg4.view (Rect.unit ![0, 0] S64x32.size inb_S64x32_S64x32_0_0).toLoadRect f4 = View.read (Elt F) arg4.view f4 :=
      View.ld_unit_zero zeros8 inb_S64x32_S64x32_0_0 (View.read (Elt F) arg4.view f4)
    have e5 : View.readAt (Elt F) arg5.view (Rect.unit ![0, 0] S64x1.size inb_S64x1_S64x1_0_0).toLoadRect f5 = View.read (Elt F) arg5.view f5 :=
      View.ld_unit_zero zeros8 inb_S64x1_S64x1_0_0 (View.read (Elt F) arg5.view f5)
    exact congr (congrArg k8_pay6 ((View.readCov_unit_zero arg4.view zeros8 inb_S64x32_S64x32_0_0 _).trans (congr (congr (congrArg k8_pay4 e1) e2) e4)))
      ((View.readCov_unit_zero arg5.view zeros8 inb_S64x1_S64x1_0_0 _).trans (congr (congrArg k8_pay5 e2) e5))
  isplitl [H4]
  · iexists _; isplitr
    swap; · iexact H4
    ipureintro
    refine (View.read_writes_eq_canon _ _ _ (cover8_S _ _)).trans ?_
    refine (View.canon_unit_zero zeros8 _ _).trans ?_
    have e1 : View.readAt (Elt F) arg1.view (Rect.unit ![0, 0] S10000x32.size inb_S10000x32_S10000x32_0_0).toLoadRect f1 = View.read (Elt F) arg1.view f1 :=
      View.ld_unit_zero zeros8 inb_S10000x32_S10000x32_0_0 (View.read (Elt F) arg1.view f1)
    have e2 : View.readAt (Elt F) arg2.view (Rect.unit ![0, 0] S10000x1.size inb_S10000x1_S10000x1_0_0).toLoadRect f2 = View.read (Elt F) arg2.view f2 :=
      View.ld_unit_zero zeros8 inb_S10000x1_S10000x1_0_0 (View.read (Elt F) arg2.view f2)
    have e4 : View.readAt (Elt F) arg4.view (Rect.unit ![0, 0] S64x32.size inb_S64x32_S64x32_0_0).toLoadRect f4 = View.read (Elt F) arg4.view f4 :=
      View.ld_unit_zero zeros8 inb_S64x32_S64x32_0_0 (View.read (Elt F) arg4.view f4)
    exact congr (congr (congrArg k8_pay4 e1) e2) e4
  iexists _; isplitr
  swap; · iexact H5
  ipureintro
  refine (View.read_writes_eq_canon _ _ _ (cover8_N _ _)).trans ?_
  refine (View.canon_unit_zero zeros8 _ _).trans ?_
  have e2 : View.readAt (Elt F) arg2.view (Rect.unit ![0, 0] S10000x1.size inb_S10000x1_S10000x1_0_0).toLoadRect f2 = View.read (Elt F) arg2.view f2 :=
    View.ld_unit_zero zeros8 inb_S10000x1_S10000x1_0_0 (View.read (Elt F) arg2.view f2)
  have e5 : View.readAt (Elt F) arg5.view (Rect.unit ![0, 0] S64x1.size inb_S64x1_S64x1_0_0).toLoadRect f5 = View.read (Elt F) arg5.view f5 :=
    View.ld_unit_zero zeros8 inb_S64x1_S64x1_0_0 (View.read (Elt F) arg5.view f5)
  exact congr (congrArg k8_pay5 e2) e5

def acc8 (c : Dev nD) : (n : ℕ) → n < cfg8.N → Vec F S64x32 .f32 × Vec F S64x1 .f32
  | 0, hn => (k8_pay4 (iblk8 V c 0 ⟨0, hn⟩) (iblk8 V c 1 ⟨0, hn⟩) (k8_pay1 (F := F)), k8_pay5 (iblk8 V c 1 ⟨0, hn⟩) (k8_pay2 (F := F)))
  | n + 1, hn => (k8_pay4 (iblk8 V c 0 ⟨n + 1, hn⟩) (iblk8 V c 1 ⟨n + 1, hn⟩) (acc8 c n (Nat.lt_of_succ_lt hn)).1,
      k8_pay5 (iblk8 V c 1 ⟨n + 1, hn⟩) (acc8 c n (Nat.lt_of_succ_lt hn)).2)

theorem acc8_zero (c : Dev nD) (hn : 0 < cfg8.N) :
    acc8 V c 0 hn = (k8_pay4 (iblk8 V c 0 ⟨0, hn⟩) (iblk8 V c 1 ⟨0, hn⟩) (k8_pay1 (F := F)), k8_pay5 (iblk8 V c 1 ⟨0, hn⟩) (k8_pay2 (F := F))) := rfl

theorem acc8_succ (c : Dev nD) (n : ℕ) (hn : n + 1 < cfg8.N) :
    acc8 V c (n + 1) hn = (k8_pay4 (iblk8 V c 0 ⟨n + 1, hn⟩) (iblk8 V c 1 ⟨n + 1, hn⟩) (acc8 V c n (Nat.lt_of_succ_lt hn)).1,
      k8_pay5 (iblk8 V c 1 ⟨n + 1, hn⟩) (acc8 V c n (Nat.lt_of_succ_lt hn)).2) := rfl

theorem acc8_first_fst (c : Dev nD) (t : Fin cfg8.N) (hz : t.val = 0) :
    (acc8 V c t.val t.isLt).1 = k8_pay4 (iblk8 V c 0 t) (iblk8 V c 1 t) (k8_pay1 (F := F)) := by
  obtain ⟨n, hn⟩ := t
  cases n with
  | zero => exact rfl
  | succ n => exact absurd hz (Nat.succ_ne_zero n)

theorem acc8_first_snd (c : Dev nD) (t : Fin cfg8.N) (hz : t.val = 0) :
    (acc8 V c t.val t.isLt).2 = k8_pay5 (iblk8 V c 1 t) (k8_pay2 (F := F)) := by
  obtain ⟨n, hn⟩ := t
  cases n with
  | zero => exact rfl
  | succ n => exact absurd hz (Nat.succ_ne_zero n)

theorem acc8_later_fst (c : Dev nD) (t : Fin cfg8.N) (hz : t.val ≠ 0) :
    (acc8 V c t.val t.isLt).1 = k8_pay4 (iblk8 V c 0 t) (iblk8 V c 1 t) (acc8 V c (t.val - 1) (Nat.lt_of_le_of_lt (Nat.sub_le _ _) t.isLt)).1 := by
  obtain ⟨n, hn⟩ := t
  cases n with
  | zero => exact absurd rfl hz
  | succ n => exact rfl

theorem acc8_later_snd (c : Dev nD) (t : Fin cfg8.N) (hz : t.val ≠ 0) :
    (acc8 V c t.val t.isLt).2 = k8_pay5 (iblk8 V c 1 t) (acc8 V c (t.val - 1) (Nat.lt_of_le_of_lt (Nat.sub_le _ _) t.isLt)).2 := by
  obtain ⟨n, hn⟩ := t
  cases n with
  | zero => exact absurd rfl hz
  | succ n => exact rfl

def Phi8 (c : Dev nD) : (n : ℕ) → n ≤ cfg8.N → sProp 𝕄
  | 0, _ => Pipeline.ΦA spec8 c
  | n + 1, hn => iprop(iprop(iprop(owns (c : Thread nD τ) scM8_0 fullShare (acc8 V c n hn).1 ∗ owns (c : Thread nD τ) scM8_1 fullShare (acc8 V c n hn).2)
      ∗ Pipeline.scopedRestBut (Ix := Unit) (Name := ℕ) (U := UR sig nD τ) (Lvl := ℕ) (Val := Elt F) spec8 c [cc8_scratch0, cc8_scratch1]) ∗ (∃ r, prngReg c r))

theorem Phi8_zero (c : Dev nD) (n : ℕ) (h : n ≤ cfg8.N) (hz : n = 0) : Phi8 V c n h = Pipeline.ΦA spec8 c := by
  subst hz; rfl

theorem Phi8_succ (c : Dev nD) (n : ℕ) (hn : n < cfg8.N) :
    Phi8 V c (n + 1) hn = iprop(iprop(iprop(owns (c : Thread nD τ) scM8_0 fullShare (acc8 V c n hn).1 ∗ owns (c : Thread nD τ) scM8_1 fullShare (acc8 V c n hn).2)
      ∗ Pipeline.scopedRestBut (Ix := Unit) (Name := ℕ) (U := UR sig nD τ) (Lvl := ℕ) (Val := Elt F) spec8 c [cc8_scratch0, cc8_scratch1]) ∗ (∃ r, prngReg c r)) := rfl

theorem Phi8_pos (c : Dev nD) (n : ℕ) (h : n ≤ cfg8.N) (hz : n ≠ 0) :
    Phi8 V c n h = iprop(iprop(iprop(owns (c : Thread nD τ) scM8_0 fullShare (acc8 V c (n - 1) (by omega)).1 ∗ owns (c : Thread nD τ) scM8_1 fullShare (acc8 V c (n - 1) (by omega)).2)
      ∗ Pipeline.scopedRestBut (Ix := Unit) (Name := ℕ) (U := UR sig nD τ) (Lvl := ℕ) (Val := Elt F) spec8 c [cc8_scratch0, cc8_scratch1]) ∗ (∃ r, prngReg c r)) := by
  cases n with
  | zero => exact absurd rfl hz
  | succ n => rfl

def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => k8_pay6 (acc8 V c t.val t.isLt).1 (acc8 V c t.val t.isLt).2
  Φ t := Phi8 V c t.val (Nat.le_of_lt_succ t.isLt)
  q _ := fullShare
  owed _ := 0

theorem A_eq8 (c : Dev nD) (w : Fin cfg8.W) : (dat8 V c).A w = V c (Pipeline.arrRef spec8 w) := by
  dsimp only [dat8]

theorem Phi8_castSucc (c : Dev nD) (t : Fin cfg8.N) :
    (dat8 V c).Φ t.castSucc = Phi8 V c t.val (Nat.le_of_lt t.isLt) := by
  dsimp only [dat8]; simp only [Fin.coe_castSucc]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) :
    (dat8 V c).after 2 t = k8_pay6 (acc8 V c t.val t.isLt).1 (acc8 V c t.val t.isLt).2 := by dsimp only [dat8]

theorem after8_2_last (c : Dev nD) :
    (dat8 V c).after 2 t8_9 = k8_pay6 (acc8 V c 9 t8_9.isLt).1 (acc8 V c 9 t8_9.isLt).2 := after8_2 V c t8_9

theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d

def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d)))

def bodyPost8 (c : Dev nD) (t : Fin cfg8.N) : sProp 𝕄 :=
  iprop((dat8 V c).Φ t.succ ∗ (dat8 V c).owesAt () t.succ
    ∗ (dat8 V c).leavesExact 0 t
    ∗ (dat8 V c).leavesExact 1 t
    ∗ (dat8 V c).leavesExact 2 t)

set_option maxHeartbeats 4800000 in
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1]
  rw [show (dat8 V c).owesAt () t.succ = (dat8 V c).owesAt () t.castSucc from rfl]
  rw [show (dat8 V c).Φ t.succ = Phi8 V c (t.val + 1) t.isLt from rfl, Phi8_succ]
  rw [show (dat8 V c).leavesExact 0 t = owns (c : Thread nD τ) (st8_0 t) fullShare ((dat8 V c).after 0 t) from by
    unfold Dat.leavesExact; rw [liveAt8_0 t], after8_0]
  rw [show (dat8 V c).leavesExact 1 t = owns (c : Thread nD τ) (st8_1 t) fullShare ((dat8 V c).after 1 t) from by
    unfold Dat.leavesExact; rw [liveAt8_1 t], after8_1]
  have hN : t.val < 10 := lt_of_lt_of_eq t.isLt (show cfg8.N = 10 from N_8)
  by_cases h9 : t.val = 9
  · have hz : t.val ≠ 0 := by omega
    have hc0 : ¬cond8_0 (grid8.coords t) := fun h => hz ((hcond8_0 t).mp h)
    have hc1 : cond8_1 (grid8.coords t) := (hcond8_1 t).mpr h9
    rw [show (dat8 V c).leavesExact 2 t = owns (c : Thread nD τ) (st8_2 t) fullShare ((dat8 V c).after 2 t) from by
      unfold Dat.leavesExact; rw [liveAt8_2 t hc1], after8_2]
    rw [acc8_later_fst V c t hz, acc8_later_snd V c t hz]
    rw [Phi8_castSucc V c t, Phi8_pos V c _ _ hz]
    iintro ⟨⟨⟨⟨HS0, HS1⟩, Hrest⟩, Hg⟩, Ho, ⟨%d0, H0⟩, ⟨%d1, H1⟩, ⟨%d2, H2⟩⟩
    iapply (sound_kernel8_C c Set.univ (grid8.coords t) _ _ _ _ _ _ _ _ _ _ hc0 hc1 (iblk8 V c 0 t) (iblk8 V c 1 t) _ _ _)
    isplitl [H0]; · iexact H0
    isplitl [H1]; · iexact H1
    isplitl [H2]; · iexists _; iexact H2
    isplitl [HS0]; · iexact HS0
    isplitl [HS1]; · iexact HS1
    iintro ⟨H0, H1, H2, HS0, HS1⟩
    isplitl [HS0 HS1 Hrest Hg]
    · isplitl [HS0 HS1 Hrest]
      · isplitl [HS0 HS1]
        · isplitl [HS0]; · iexact HS0
          iexact HS1
        iexact Hrest
      iexact Hg
    isplitl [Ho]; · iexact Ho
    isplitl [H0]; · iexact H0
    isplitl [H1]; · iexact H1
    iexact H2
  · have hc1 : ¬cond8_1 (grid8.coords t) := fun h => h9 ((hcond8_1 t).mp h)
    rw [Dat.leavesExact_idle (dat8 V c) 2 t (idleAt8_2 t hc1) (noFlush8_2 t hc1)]
    by_cases hz : t.val = 0
    · have hc0 : cond8_0 (grid8.coords t) := (hcond8_0 t).mpr hz
      rw [acc8_first_fst V c t hz, acc8_first_snd V c t hz]
      rw [Phi8_castSucc V c t, Phi8_zero V c _ _ hz, PhiA8_eq]
      iintro ⟨⟨⟨⟨HS0, HS1⟩, Hrest⟩, Hg⟩, Ho, ⟨%d0, H0⟩, ⟨%d1, H1⟩, ⟨%d2, H2⟩⟩
      iapply (sound_kernel8_A c Set.univ (grid8.coords t) _ _ _ _ _ _ _ _ _ _ hc0 hc1 (iblk8 V c 0 t) (iblk8 V c 1 t) ((dat8 V c).before 2 t d2) _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      iexists d2; iexact H2
    · have hc0 : ¬cond8_0 (grid8.coords t) := fun h => hz ((hcond8_0 t).mp h)
      rw [acc8_later_fst V c t hz, acc8_later_snd V c t hz]
      rw [Phi8_castSucc V c t, Phi8_pos V c _ _ hz]
      iintro ⟨⟨⟨⟨HS0, HS1⟩, Hrest⟩, Hg⟩, Ho, ⟨%d0, H0⟩, ⟨%d1, H1⟩, ⟨%d2, H2⟩⟩
      iapply (sound_kernel8_B c Set.univ (grid8.coords t) _ _ _ _ _ _ _ _ _ _ hc0 hc1 (iblk8 V c 0 t) (iblk8 V c 1 t) ((dat8 V c).before 2 t d2) _ _ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      iexists d2; iexact H2

theorem body_obligation8 (c : Dev nD) : BodyObligation (dat8 (F := F) V c) (defs₀ (F := F)) Variants.none () Set.univ := fun t => by
  rw [bigSep_W8, bigSep_W8]
  exact sound_body8 V c t

theorem hin8 (c : Dev nD) : Pipeline.ΦA spec8 c ⊢ (dat8 V c).Φ 0 := by
  rw [show (dat8 V c).Φ 0 = Phi8 V c 0 (Nat.zero_le _) from rfl, Phi8_zero V c 0 _ rfl]
  try exact Idealize.SL.BI.Entails.refl _

theorem Phi8_out (c : Dev nD) (t : Fin (cfg8.N + 1)) (ht : t.val ≠ 0) : (dat8 V c).Φ t ⊢ Pipeline.ΦA spec8 c := by
  rw [show (dat8 V c).Φ t = Phi8 V c t.val (Nat.le_of_lt_succ t.isLt) from rfl, Phi8_pos V c _ _ ht, PhiA8_eq]
  iintro ⟨⟨⟨HS0, HS1⟩, Hrest⟩, Hg⟩
  isplitl [HS0 HS1 Hrest]
  · isplitl [HS0 HS1]
    · isplitl [HS0]
      · iexists _; iexact HS0
      iexists _; iexact HS1
    iexact Hrest
  iexact Hg

theorem hout8 (c : Dev nD) : (dat8 V c).Φ (Fin.last cfg8.N) ⊢ Pipeline.ΦA spec8 c :=
  Phi8_out V c _ (by rw [Fin.val_last]; have : cfg8.N = 10 := N_8; omega)

end Cert.KernelIdeal.Hand

end
-- ==== Proof.KI.Fold.lean ====
import proofs.«417219_j7851200218009_2_alg».proof.Proof.KI.R0
import proofs.«417219_j7851200218009_2_alg».proof.Proof.KI.R1
import proofs.«417219_j7851200218009_2_alg».proof.Proof.KI.R2
import proofs.«417219_j7851200218009_2_alg».proof.Proof.KI.R3
import proofs.«417219_j7851200218009_2_alg».proof.Proof.KI.R4
import proofs.«417219_j7851200218009_2_alg».proof.Proof.KI.R5
import proofs.«417219_j7851200218009_2_alg».proof.Proof.KI.R6
import proofs.«417219_j7851200218009_2_alg».proof.Proof.KI.R7
import proofs.«417219_j7851200218009_2_alg».proof.Proof.KI.R8
import proofs.«417219_j7851200218009_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat)

variable {F : FTy → Type} [FloatOps F]
variable (m : (ℓ : Loc nD τ sig) → Buf (Elt F) ℓ)

abbrev atTc (X : Dev nD → Valuation τ sig (Elt F)) : (c : Dev nD) → (b : Ref sig .tc) → Buf (Elt F) ((c : Thread nD τ).loc b) :=
  fun c b => X c b

/-- The boundary contents in order: the launch memory after the first host stretches, then by turns a region's output array
    replaced by what the region leaves there, and the next host stretch applied. -/
abbrev X3 (c : Dev nD) : Valuation τ sig (Elt F) := Gen.V3 m c

def arr0 (c : Dev nD) : Buf (Elt F) ((c : Thread nD τ).loc main_v30) := (dat0 (atTc (X3 m)) c).arrAt 2 cfg0.N

def X4 (c : Dev nD) : Valuation τ sig (Elt F) := Function.update (X3 m c) main_v30 (arr0 m c)

abbrev X5 (c : Dev nD) : Valuation τ sig (Elt F) := StableHlo.after hostOps1 (X4 m c)

def arr1 (c : Dev nD) : Buf (Elt F) ((c : Thread nD τ).loc main_v44) := (dat1 (atTc (X5 m)) c).arrAt 1 cfg1.N

def X6 (c : Dev nD) : Valuation τ sig (Elt F) := Function.update (X5 m c) main_v44 (arr1 m c)

def arr2 (c : Dev nD) : Buf (Elt F) ((c : Thread nD τ).loc main_v45) := (dat2 (atTc (X6 m)) c).arrAt 2 cfg2.N

def X7 (c : Dev nD) : Valuation τ sig (Elt F) := Function.update (X6 m c) main_v45 (arr2 m c)

abbrev X8 (c : Dev nD) : Valuation τ sig (Elt F) := StableHlo.after hostOps3 (X7 m c)

def arr3 (c : Dev nD) : Buf (Elt F) ((c : Thread nD τ).loc main_v59) := (dat3 (atTc (X8 m)) c).arrAt 1 cfg3.N

def X9 (c : Dev nD) : Valuation τ sig (Elt F) := Function.update (X8 m c) main_v59 (arr3 m c)

def arr4 (c : Dev nD) : Buf (Elt F) ((c : Thread nD τ).loc main_v60) := (dat4 (atTc (X9 m)) c).arrAt 2 cfg4.N

def X10 (c : Dev nD) : Valuation τ sig (Elt F) := Function.update (X9 m c) main_v60 (arr4 m c)

abbrev X11 (c : Dev nD) : Valuation τ sig (Elt F) := StableHlo.after hostOps5 (X10 m c)

def arr5 (c : Dev nD) : Buf (Elt F) ((c : Thread nD τ).loc main_v75) := (dat5 (atTc (X11 m)) c).arrAt 2 cfg5.N

def X12 (c : Dev nD) : Valuation τ sig (Elt F) := Function.update (X11 m c) main_v75 (arr5 m c)

def arr6 (c : Dev nD) : Buf (Elt F) ((c : Thread nD τ).loc main_v76) := (dat6 (atTc (X12 m)) c).arrAt 2 cfg6.N

def X13 (c : Dev nD) : Valuation τ sig (Elt F) := Function.update (X12 m c) main_v76 (arr6 m c)

abbrev X14 (c : Dev nD) : Valuation τ sig (Elt F) := StableHlo.after hostOps7 (X13 m c)

def arr7 (c : Dev nD) : Buf (Elt F) ((c : Thread nD τ).loc main_v91) := (dat7 (atTc (X14 m)) c).arrAt 2 cfg7.N

def X15 (c : Dev nD) : Valuation τ sig (Elt F) := Function.update (X14 m c) main_v91 (arr7 m c)

abbrev X16 (c : Dev nD) : Valuation τ sig (Elt F) := StableHlo.after hostOps8 (X15 m c)

def arr8 (c : Dev nD) : Buf (Elt F) ((c : Thread nD τ).loc main_v93) := (dat8 (atTc (X16 m)) c).arrAt 2 cfg8.N

def X17 (c : Dev nD) : Valuation τ sig (Elt F) := Function.update (X16 m c) main_v93 (arr8 m c)

def outsFn : Outs (F := F) := fun J r c => match J with
  | 4 => X4 m c r
  | 6 => X6 m c r
  | 7 => X7 m c r
  | 9 => X9 m c r
  | 10 => X10 m c r
  | 12 => X12 m c r
  | 13 => X13 m c r
  | 15 => X15 m c r
  | 17 => X17 m c r
  | _ => Gen.V0 m c r

theorem V4_eq (c : Dev nD) : Gen.V4 m (outsFn m) c = X4 m c := by
  show Function.update (Gen.V3 m c) main_v30 (X4 m c main_v30) = X4 m c
  unfold X4; rw [Function.update_self]
theorem V5_eq (c : Dev nD) : Gen.V5 m (outsFn m) c = X5 m c := by
  show StableHlo.after hostOps1 (Gen.V4 m (outsFn m) c) = _
  rw [V4_eq]

theorem V6_eq (c : Dev nD) : Gen.V6 m (outsFn m) c = X6 m c := by
  show Function.update (Gen.V5 m (outsFn m) c) main_v44 (X6 m c main_v44) = X6 m c
  rw [V5_eq]; unfold X6; rw [Function.update_self]

theorem V7_eq (c : Dev nD) : Gen.V7 m (outsFn m) c = X7 m c := by
  show Function.update (Gen.V6 m (outsFn m) c) main_v45 (X7 m c main_v45) = X7 m c
  rw [V6_eq]; unfold X7; rw [Function.update_self]
theorem V8_eq (c : Dev nD) : Gen.V8 m (outsFn m) c = X8 m c := by
  show StableHlo.after hostOps3 (Gen.V7 m (outsFn m) c) = _
  rw [V7_eq]

theorem V9_eq (c : Dev nD) : Gen.V9 m (outsFn m) c = X9 m c := by
  show Function.update (Gen.V8 m (outsFn m) c) main_v59 (X9 m c main_v59) = X9 m c
  rw [V8_eq]; unfold X9; rw [Function.update_self]

theorem V10_eq (c : Dev nD) : Gen.V10 m (outsFn m) c = X10 m c := by
  show Function.update (Gen.V9 m (outsFn m) c) main_v60 (X10 m c main_v60) = X10 m c
  rw [V9_eq]; unfold X10; rw [Function.update_self]
theorem V11_eq (c : Dev nD) : Gen.V11 m (outsFn m) c = X11 m c := by
  show StableHlo.after hostOps5 (Gen.V10 m (outsFn m) c) = _
  rw [V10_eq]

theorem V12_eq (c : Dev nD) : Gen.V12 m (outsFn m) c = X12 m c := by
  show Function.update (Gen.V11 m (outsFn m) c) main_v75 (X12 m c main_v75) = X12 m c
  rw [V11_eq]; unfold X12; rw [Function.update_self]

theorem V13_eq (c : Dev nD) : Gen.V13 m (outsFn m) c = X13 m c := by
  show Function.update (Gen.V12 m (outsFn m) c) main_v76 (X13 m c main_v76) = X13 m c
  rw [V12_eq]; unfold X13; rw [Function.update_self]
theorem V14_eq (c : Dev nD) : Gen.V14 m (outsFn m) c = X14 m c := by
  show StableHlo.after hostOps7 (Gen.V13 m (outsFn m) c) = _
  rw [V13_eq]

theorem V15_eq (c : Dev nD) : Gen.V15 m (outsFn m) c = X15 m c := by
  show Function.update (Gen.V14 m (outsFn m) c) main_v91 (X15 m c main_v91) = X15 m c
  rw [V14_eq]; unfold X15; rw [Function.update_self]
theorem V16_eq (c : Dev nD) : Gen.V16 m (outsFn m) c = X16 m c := by
  show StableHlo.after hostOps8 (Gen.V15 m (outsFn m) c) = _
  rw [V15_eq]

theorem V17_eq (c : Dev nD) : Gen.V17 m (outsFn m) c = X17 m c := by
  show Function.update (Gen.V16 m (outsFn m) c) main_v93 (X17 m c main_v93) = X17 m c
  rw [V16_eq]; unfold X17; rw [Function.update_self]

/-- Every region's proof data, each taken at its own region's entry contents. -/
def pdats : (p : Fin 9) → (c : Dev nD) → Dat τ (Elt F) Unit ℕ (UR sig nD τ) ℕ (cfgs p) c
  | ⟨0, _⟩ => fun c => dat0 (atTc (X3 m)) c
  | ⟨1, _⟩ => fun c => dat1 (atTc (X5 m)) c
  | ⟨2, _⟩ => fun c => dat2 (atTc (X6 m)) c
  | ⟨3, _⟩ => fun c => dat3 (atTc (X8 m)) c
  | ⟨4, _⟩ => fun c => dat4 (atTc (X9 m)) c
  | ⟨5, _⟩ => fun c => dat5 (atTc (X11 m)) c
  | ⟨6, _⟩ => fun c => dat6 (atTc (X12 m)) c
  | ⟨7, _⟩ => fun c => dat7 (atTc (X14 m)) c
  | ⟨8, _⟩ => fun c => dat8 (atTc (X16 m)) c

end Cert.KernelIdeal.Hand

end
-- ==== Proof.KI.Rest.lean ====
import proofs.«417219_j7851200218009_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

abbrev L : GSem nD τ sig → Finset Unit := fun _ => ∅
abbrev lv : GSem nD τ sig → Unit → ℕ := fun _ _ => 0

/-- What rides beside the buffers between two items: the generator register at some state, and no dues. -/
abbrev Rst (c : Dev nD) : sProp 𝕄 := iprop((∃ r, prngReg c r) ∗ ∃ W, owes (c : Thread nD τ) (0 : CellTallies nD τ sig Unit) W)

end Cert.KernelIdeal.Hand

end
-- ==== Proof.KI.Segs.lean ====
import proofs.«417219_j7851200218009_2_alg».proof.Proof.KI.Fold
import proofs.«417219_j7851200218009_2_alg».proof.Proof.KI.Rest

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-- A region's exit contents: its entry contents with the output window's array replaced by that array after the last grid point. -/
abbrev exitOf {p : Fin 9} (X : Dev nD → Valuation τ sig (Elt F)) (wo : Fin (cfgs p).W) (c : Dev nD) : Valuation τ sig (Elt F) :=
  Function.update (X c) (Proc.devRef .tc (Pipeline.arrRef (cfgs p).spec wo) : DevRef τ sig) ((pdats m p c).arrAt wo (cfgs p).N)

/-- An input window's array is never written and, the windows' arrays being distinct, is not the replaced one. -/
theorem arrAt_exit {p : Fin 9} (kit : Pipeline.LaunchFacts (nD := nD) (τ := τ) cfgs p) (X : Dev nD → Valuation τ sig (Elt F))
    (wo : Fin (cfgs p).W) (hin : ∀ w, w ≠ wo → ((cfgs p).win w).isOut = false) (c : Dev nD)
    (hA : ∀ w, (pdats m p c).A w = atTc X c (Pipeline.arrRef (cfgs p).spec w)) (w : Fin (cfgs p).W) :
    (pdats m p c).arrAt w (cfgs p).N = atTc (exitOf m X wo) c (Pipeline.arrRef (cfgs p).spec w) := by
  by_cases h : w = wo
  · subst h; exact (Function.update_self (Proc.devRef .tc (Pipeline.arrRef (cfgs p).spec w) : DevRef τ sig) _ (X c)).symm
  · exact (((pdats m p c).arrAt_in w (hin w h) _).trans (hA w)).trans
      (Function.update_of_ne (StableHlo.devRef_ne_of_ne fun e => h (kit.win.arr_inj e)) _ _).symm

theorem rest_exit {p : Fin 9} (X : Dev nD → Valuation τ sig (Elt F)) (wo : Fin (cfgs p).W) (c : Dev nD) (b : Ref sig .tc)
    (hb : b ∉ Finset.univ.image (Pipeline.arrRef (cfgs p).spec)) : atTc (exitOf m X wo) c b = atTc X c b :=
  Function.update_of_ne (StableHlo.devRef_ne_of_ne fun e => hb (Finset.mem_image.mpr ⟨wo, Finset.mem_univ _, e.symm⟩)) _ _

theorem owesAt_first {p : Fin 9} (c : Dev nD) (howed : ∀ t, (pdats m p c).owed t = 0) (hrec : (pdats m p c).recorded 0 = Set.univ) :
    (iprop(∃ W, owes (c : Thread nD τ) (0 : CellTallies nD τ sig Unit) W) : sProp 𝕄) ⊢ (pdats m p c).owesAt () 0 := by
  unfold Pipeline.Dat.owesAt Pipeline.owesWithin
  rw [howed 0]
  iintro ⟨%W, HO⟩; iexists W; isplitr; · ipureintro; exact fun _ _ => Or.inl (hrec ▸ Set.mem_univ _)
  iexact HO

theorem owesAt_last {p : Fin 9} (c : Dev nD) (howed : ∀ t, (pdats m p c).owed t = 0) :
    (pdats m p c).owesAt () (Fin.last _) ⊢ (iprop(∃ W, owes (c : Thread nD τ) (0 : CellTallies nD τ sig Unit) W) : sProp 𝕄) := by
  unfold Pipeline.Dat.owesAt Pipeline.owesWithin
  rw [howed (Fin.last _)]
  iintro ⟨%W, -, HO⟩; iexists W; iexact HO

set_option backward.isDefEq.respectTransparency.types false in
/-- Any region with one output window, as a segment of the run: its arrays are split out of the unscoped buffers at the entry
    contents and joined back at the exit contents; nothing is owed before or after. Said once, for all nine regions. -/
def mkReg (p : Fin 9) (kit : Pipeline.LaunchFacts (nD := nD) (τ := τ) cfgs p) (X : Dev nD → Valuation τ sig (Elt F))
    (wo : Fin (cfgs p).W) (hin : ∀ w, w ≠ wo → ((cfgs p).win w).isOut = false)
    (hbody : ∀ c, Pipeline.BodyObligationLoose (pdats m p c) (defs₀ (F := F)) Variants.none () Set.univ)
    (hq : ∀ c w, (pdats m p c).q w = fullShare) (howed : ∀ c t, (pdats m p c).owed t = 0) (hrec : ∀ c, (pdats m p c).recorded 0 = Set.univ)
    (hA : ∀ c w, (pdats m p c).A w = atTc X c (Pipeline.arrRef (cfgs p).spec w))
    (hΦ0 : ∀ c, Pipeline.ΦA (cfgs p).spec c ⊢ (pdats m p c).Φ 0)
    (hΦN : ∀ c, (pdats m p c).Φ (Fin.last _) ⊢ Pipeline.ΦA (cfgs p).spec c) :
    Pipeline.RegionSeg (pcfgs (F := F)) adm (pdats m) () defs₀ Variants.none L lv p where
  win := kit.win.to₀
  block_pos := kit.block_pos
  stage_whole := kit.stage_whole
  K := PEmpty
  osem k := k.elim
  ho := Pipeline.OwnSemFacts.none _
  hbody := hbody
  hwaits := Pipeline.hwaits_of_owed_zero _ _ _ _ L lv p howed
  pre c := iprop(StableHlo.held (c : Thread nD τ) (Pipeline.ucRefs τ sig) (X c) ∗ Rst c)
  post c := iprop(StableHlo.held (c : Thread nD τ) (Pipeline.ucRefs τ sig) (exitOf m X wo c) ∗ Rst c)
  X c := iprop(∃ r, prngReg c r)
  Y c := iprop(∃ r, prngReg c r)
  Z c := Pipeline.unscopedRest (Ix := Unit) (Name := ℕ) (U := UR sig nD τ) (Lvl := ℕ) (cfgs p).spec c (atTc X c)
  hentry c := by
    rw [Pipeline.ownSems0_none]
    have hsplit := Pipeline.arrays_of_unscopedBufs (p := p) (pcfgs (F := F)) adm (pdats m) kit.win kit.arr_whole c
      ((pdats m p c).share_full (hq c)) (atTc X c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply owesAt_first m c (howed c) (hrec c); iexact HO
    isplitl [Hp]; · iexact Hp
    iexact Hrest
  hin c := by
    refine BIBase.Entails.trans ?_ (hΦ0 c)
    unfold Pipeline.ΦA
    iintro ⟨Hp, -, Hr⟩
    isplitl [Hr]; · iexact Hr
    iexact Hp
  hout c := by
    rw [Pipeline.ownSems0_none]
    refine (hΦN c).trans ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      kit.win kit.arr_whole c (pdats m) ((pdats m p c).share_full (hq c))
      (atTc X c) (atTc (exitOf m X wo) c) ((pdats m p c).arrAt · (cfgs p).N) (arrAt_exit m kit X wo hin c (hA c)) (rest_exit m X wo c)
    rw [Pipeline.unscopedBufs_held] at hjoin
    iintro ⟨Ha, HO, HY, Hrest⟩
    imodintro
    isplitl [Ha Hrest]
    · iapply hjoin; isplitl [Ha] <;> iassumption
    isplitl [HY]; · iexact HY
    iapply owesAt_last m c (howed c); iexact HO

def reg0 := mkReg m 0 launch0 (X3 m) 2 (by decide) (fun c => (body_obligation0 (atTc (X3 m)) c).loose) (fun _ _ => rfl) (fun _ _ => rfl) (fun _ => rfl) (fun _ _ => rfl) (fun _ => .rfl) (fun _ => .rfl)
def reg1 := mkReg m 1 launch1 (X5 m) 1 (by decide) (fun c => (body_obligation1 (atTc (X5 m)) c).loose) (fun _ _ => rfl) (fun _ _ => rfl) (fun _ => rfl) (fun _ _ => rfl) (fun _ => .rfl) (fun _ => .rfl)
def reg2 := mkReg m 2 launch2 (X6 m) 2 (by decide) (fun c => (body_obligation2 (atTc (X6 m)) c).loose) (fun _ _ => rfl) (fun _ _ => rfl) (fun _ => rfl) (fun _ _ => rfl) (fun _ => .rfl) (fun _ => .rfl)
def reg3 := mkReg m 3 launch3 (X8 m) 1 (by decide) (fun c => (body_obligation3 (atTc (X8 m)) c).loose) (fun _ _ => rfl) (fun _ _ => rfl) (fun _ => rfl) (fun _ _ => rfl) (fun _ => .rfl) (fun _ => .rfl)
def reg4 := mkReg m 4 launch4 (X9 m) 2 (by decide) (fun c => (body_obligation4 (atTc (X9 m)) c).loose) (fun _ _ => rfl) (fun _ _ => rfl) (fun _ => rfl) (fun _ _ => rfl) (fun _ => .rfl) (fun _ => .rfl)
def reg5 := mkReg m 5 launch5 (X11 m) 2 (by decide) (fun c => (body_obligation5 (atTc (X11 m)) c).loose) (fun _ _ => rfl) (fun _ _ => rfl) (fun _ => rfl) (fun _ _ => rfl) (fun _ => .rfl) (fun _ => .rfl)
def reg6 := mkReg m 6 launch6 (X12 m) 2 (by decide) (fun c => (body_obligation6 (atTc (X12 m)) c).loose) (fun _ _ => rfl) (fun _ _ => rfl) (fun _ => rfl) (fun _ _ => rfl) (fun _ => .rfl) (fun _ => .rfl)
def reg7 := mkReg m 7 launch7 (X14 m) 2 (by decide) (fun c => (body_obligation7 (atTc (X14 m)) c).loose) (fun _ _ => rfl) (fun _ _ => rfl) (fun _ => rfl) (fun _ _ => rfl) (fun _ => .rfl) (fun _ => .rfl)
def reg8 := mkReg m 8 launch8 (X16 m) 2 (by decide) (fun c => (body_obligation8 (atTc (X16 m)) c).loose) (fun _ _ => rfl) (fun _ _ => rfl) (fun _ => rfl) (fun _ _ => rfl) (hin8 (atTc (X16 m))) (hout8 (atTc (X16 m)))

end Cert.KernelIdeal.Hand

end
-- ==== Proof.KI.RunCond.lean ====
import proofs.«417219_j7851200218009_2_alg».proof.Proof.KI.Rest

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev restAt : Fin 10 → Dev nD → sProp 𝕄 := fun _ => Rst

variable (m : (ℓ : Loc nD τ sig) → Buf (Elt F) ℓ)

set_option backward.isDefEq.respectTransparency.types false in
/-- The run of the whole program from one segment record per region, with the three result arrays read off the last boundary's
    contents beside the arguments, which no item writes. -/
theorem run_cond (ρ : Dev nD → PrngReg) (outs : Outs (F := F))
    (pdats : (p : Fin 9) → (c : Dev nD) → Dat τ (Elt F) Unit ℕ (UR sig nD τ) ℕ (cfgs p) c)
    (R0 : RegionSeg (pcfgs (F := F)) adm pdats () defs₀ Variants.none L lv 0)
    (hpre0 : ∀ c : Dev nD, iprop(StableHlo.held (c : Thread nD τ) (Pipeline.ucRefs τ sig) (Gen.V3 m c) ∗ Rst c) ⊢ R0.pre c)
    (hpost0 : ∀ c : Dev nD, R0.post c ⊢ iprop(StableHlo.held (c : Thread nD τ) (Pipeline.ucRefs τ sig) (Gen.V4 m outs c) ∗ Rst c))
    (R1 : RegionSeg (pcfgs (F := F)) adm pdats () defs₀ Variants.none L lv 1)
    (hpre1 : ∀ c : Dev nD, iprop(StableHlo.held (c : Thread nD τ) (Pipeline.ucRefs τ sig) (Gen.V5 m outs c) ∗ Rst c) ⊢ R1.pre c)
    (hpost1 : ∀ c : Dev nD, R1.post c ⊢ iprop(StableHlo.held (c : Thread nD τ) (Pipeline.ucRefs τ sig) (Gen.V6 m outs c) ∗ Rst c))
    (R2 : RegionSeg (pcfgs (F := F)) adm pdats () defs₀ Variants.none L lv 2)
    (hpre2 : ∀ c : Dev nD, iprop(StableHlo.held (c : Thread nD τ) (Pipeline.ucRefs τ sig) (Gen.V6 m outs c) ∗ Rst c) ⊢ R2.pre c)
    (hpost2 : ∀ c : Dev nD, R2.post c ⊢ iprop(StableHlo.held (c : Thread nD τ) (Pipeline.ucRefs τ sig) (Gen.V7 m outs c) ∗ Rst c))
    (R3 : RegionSeg (pcfgs (F := F)) adm pdats () defs₀ Variants.none L lv 3)
    (hpre3 : ∀ c : Dev nD, iprop(StableHlo.held (c : Thread nD τ) (Pipeline.ucRefs τ sig) (Gen.V8 m outs c) ∗ Rst c) ⊢ R3.pre c)
    (hpost3 : ∀ c : Dev nD, R3.post c ⊢ iprop(StableHlo.held (c : Thread nD τ) (Pipeline.ucRefs τ sig) (Gen.V9 m outs c) ∗ Rst c))
    (R4 : RegionSeg (pcfgs (F := F)) adm pdats () defs₀ Variants.none L lv 4)
    (hpre4 : ∀ c : Dev nD, iprop(StableHlo.held (c : Thread nD τ) (Pipeline.ucRefs τ sig) (Gen.V9 m outs c) ∗ Rst c) ⊢ R4.pre c)
    (hpost4 : ∀ c : Dev nD, R4.post c ⊢ iprop(StableHlo.held (c : Thread nD τ) (Pipeline.ucRefs τ sig) (Gen.V10 m outs c) ∗ Rst c))
    (R5 : RegionSeg (pcfgs (F := F)) adm pdats () defs₀ Variants.none L lv 5)
    (hpre5 : ∀ c : Dev nD, iprop(StableHlo.held (c : Thread nD τ) (Pipeline.ucRefs τ sig) (Gen.V11 m outs c) ∗ Rst c) ⊢ R5.pre c)
    (hpost5 : ∀ c : Dev nD, R5.post c ⊢ iprop(StableHlo.held (c : Thread nD τ) (Pipeline.ucRefs τ sig) (Gen.V12 m outs c) ∗ Rst c))
    (R6 : RegionSeg (pcfgs (F := F)) adm pdats () defs₀ Variants.none L lv 6)
    (hpre6 : ∀ c : Dev nD, iprop(StableHlo.held (c : Thread nD τ) (Pipeline.ucRefs τ sig) (Gen.V12 m outs c) ∗ Rst c) ⊢ R6.pre c)
    (hpost6 : ∀ c : Dev nD, R6.post c ⊢ iprop(StableHlo.held (c : Thread nD τ) (Pipeline.ucRefs τ sig) (Gen.V13 m outs c) ∗ Rst c))
    (R7 : RegionSeg (pcfgs (F := F)) adm pdats () defs₀ Variants.none L lv 7)
    (hpre7 : ∀ c : Dev nD, iprop(StableHlo.held (c : Thread nD τ) (Pipeline.ucRefs τ sig) (Gen.V14 m outs c) ∗ Rst c) ⊢ R7.pre c)
    (hpost7 : ∀ c : Dev nD, R7.post c ⊢ iprop(StableHlo.held (c : Thread nD τ) (Pipeline.ucRefs τ sig) (Gen.V15 m outs c) ∗ Rst c))
    (R8 : RegionSeg (pcfgs (F := F)) adm pdats () defs₀ Variants.none L lv 8)
    (hpre8 : ∀ c : Dev nD, iprop(StableHlo.held (c : Thread nD τ) (Pipeline.ucRefs τ sig) (Gen.V16 m outs c) ∗ Rst c) ⊢ R8.pre c)
    (hpost8 : ∀ c : Dev nD, R8.post c ⊢ iprop(StableHlo.held (c : Thread nD τ) (Pipeline.ucRefs τ sig) (Gen.V17 m outs c) ∗ Rst c)) :
    θ_run defs (onTc (τ := τ) (main (F := F))) ⟨m, fun _ => 0, ρ⟩ (fun r => ∀ c : Dev nD,
      r.2.mem ((c.tc : Thread nD τ).loc main_v75) = Gen.V17 m outs c main_v75
      ∧ r.2.mem ((c.tc : Thread nD τ).loc main_v91) = Gen.V17 m outs c main_v91
      ∧ r.2.mem ((c.tc : Thread nD τ).loc main_v93) = Gen.V17 m outs c main_v93
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  refine Pipeline.θ_run_regions_kit_dev (pcfgs (F := F)) adm pdats () cellOf_inj emb₁ defs₀ Variants.none L lv m ρ main
    (Gen.segs m outs Variants.none L lv restAt () pdats R0 R1 R2 R3 R4 R5 R6 R7 R8)
    (fun c Q => by
      rewrite [main_chain c, Seg.run_eq_chain,
        show (Gen.segs m outs Variants.none L lv restAt () pdats R0 R1 R2 R3 R4 R5 R6 R7 R8 c).map Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          Prog.lift (.customCall (Pipeline.entry 2) ()),
          StableHlo.seq hostOps3,
          Prog.lift (.customCall (Pipeline.entry 3) ()),
          Prog.lift (.customCall (Pipeline.entry 4) ()),
          StableHlo.seq hostOps5,
          Prog.lift (.customCall (Pipeline.entry 5) ()),
          Prog.lift (.customCall (Pipeline.entry 6) ()),
          StableHlo.seq hostOps7,
          Prog.lift (.customCall (Pipeline.entry 7) ()),
          StableHlo.seq hostOps8,
          Prog.lift (.customCall (Pipeline.entry 8) ()) ] from rfl]
      exact .rfl)
    (fun c => by simp only [Gen.segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ Rst c))
    (Tₙ := fun c => StableHlo.held (c : Thread nD τ) (Pipeline.ucRefs τ sig) (Gen.V17 m outs c))
    (hch := fun c => ⟨.rfl, .rfl, .rfl, hpre0 c, hpost0 c, hpre1 c, (hpost1 c).trans (hpre2 c), hpost2 c, hpre3 c, (hpost3 c).trans (hpre4 c), hpost4 c, hpre5 c, (hpost5 c).trans (hpre6 c), hpost6 c, hpre7 c, hpost7 c, hpre8 c,
      (hpost8 c).trans (sep_mono .rfl (by iintro ⟨-, HO⟩; iexact HO))⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => s.mem ((c.tc : Thread nD τ).loc main_v75) = Gen.V17 m outs c main_v75
      ∧ s.mem ((c.tc : Thread nD τ).loc main_v91) = Gen.V17 m outs c main_v91
      ∧ s.mem ((c.tc : Thread nD τ).loc main_v93) = Gen.V17 m outs c main_v93
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7)
      ∧ s.mem ((c.tc : Thread nD τ).loc main_arg8) = m ((c.tc : Thread nD τ).loc main_arg8))
    (hfin := fun c s' => ?_) (hQ := fun _ h => h)

  unfold StableHlo.held
  iintro ⟨Hh, HSI⟩
  ihave Hr := (pointsTo_read_all (Pipeline.ucRefs τ sig) (fun b => ((c : Thread nD τ).1, b)) (Gen.V17 m outs c) s') $$ [Hh HSI]
  · isplitl [Hh] <;> iassumption
  icases Hr with ⟨%h, HSI⟩
  imodintro
  isplitr
  · ipureintro
    exact ⟨h (Proc.devRef .tc main_v75) (mem_uc main_v75 (by decide)),
        h (Proc.devRef .tc main_v91) (mem_uc main_v91 (by decide)),
        h (Proc.devRef .tc main_v93) (mem_uc main_v93 (by decide)),
        (h (Proc.devRef .tc main_arg0) (mem_uc main_arg0 (by decide))).trans (Gen.V17_main_arg0 m outs c),
        (h (Proc.devRef .tc main_arg1) (mem_uc main_arg1 (by decide))).trans (Gen.V17_main_arg1 m outs c),
        (h (Proc.devRef .tc main_arg2) (mem_uc main_arg2 (by decide))).trans (Gen.V17_main_arg2 m outs c),
        (h (Proc.devRef .tc main_arg3) (mem_uc main_arg3 (by decide))).trans (Gen.V17_main_arg3 m outs c),
        (h (Proc.devRef .tc main_arg4) (mem_uc main_arg4 (by decide))).trans (Gen.V17_main_arg4 m outs c),
        (h (Proc.devRef .tc main_arg5) (mem_uc main_arg5 (by decide))).trans (Gen.V17_main_arg5 m outs c),
        (h (Proc.devRef .tc main_arg6) (mem_uc main_arg6 (by decide))).trans (Gen.V17_main_arg6 m outs c),
        (h (Proc.devRef .tc main_arg7) (mem_uc main_arg7 (by decide))).trans (Gen.V17_main_arg7 m outs c),
        (h (Proc.devRef .tc main_arg8) (mem_uc main_arg8 (by decide))).trans (Gen.V17_main_arg8 m outs c)⟩
  · iexact HSI

end Cert.KernelIdeal.Hand

end
-- ==== Proof.KI.Run.lean ====
import proofs.«417219_j7851200218009_2_alg».proof.Proof.KI.Segs
import proofs.«417219_j7851200218009_2_alg».proof.Proof.KI.RunCond

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

theorem run_main (ρ : Dev nD → PrngReg) : θ_run defs (onTc (τ := τ) (main (F := F))) ⟨m, fun _ => 0, ρ⟩ (fun r => ∀ c : Dev nD,
      r.2.mem ((c.tc : Thread nD τ).loc main_v75) = X17 m c main_v75
      ∧ r.2.mem ((c.tc : Thread nD τ).loc main_v91) = X17 m c main_v91
      ∧ r.2.mem ((c.tc : Thread nD τ).loc main_v93) = X17 m c main_v93
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
      ⟨(h c).1.trans (congrFun (V17_eq m c) _), (h c).2.1.trans (congrFun (V17_eq m c) _), (h c).2.2.1.trans (congrFun (V17_eq m c) _), (h c).2.2.2⟩)
    (run_cond m ρ (outsFn m) (pdats m)
    (reg0 m) (fun c => .rfl) (fun c => by rw [V4_eq]; exact .rfl)
    (reg1 m) (fun c => by rw [V5_eq]; exact .rfl) (fun c => by rw [V6_eq]; exact .rfl)
    (reg2 m) (fun c => by rw [V6_eq]; exact .rfl) (fun c => by rw [V7_eq]; exact .rfl)
    (reg3 m) (fun c => by rw [V8_eq]; exact .rfl) (fun c => by rw [V9_eq]; exact .rfl)
    (reg4 m) (fun c => by rw [V9_eq]; exact .rfl) (fun c => by rw [V10_eq]; exact .rfl)
    (reg5 m) (fun c => by rw [V11_eq]; exact .rfl) (fun c => by rw [V12_eq]; exact .rfl)
    (reg6 m) (fun c => by rw [V12_eq]; exact .rfl) (fun c => by rw [V13_eq]; exact .rfl)
    (reg7 m) (fun c => by rw [V14_eq]; exact .rfl) (fun c => by rw [V15_eq]; exact .rfl)
    (reg8 m) (fun c => by rw [V16_eq]; exact .rfl) (fun c => by rw [V17_eq]; exact .rfl))

theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => (h c).2.2.2) (run_main m ρ)

end Cert.KernelIdeal.Hand

end
-- ==== Proof.RefStages.lean ====
import proofs.«417219_j7851200218009_2_alg».proof.Proof.Gen.ReferenceIdeal
import Idealize.ShloMosaic.Lib.Pipeline.Value
import Idealize.ShloMosaic.Lib.ValueIdx
import Idealize.ShloMosaic.PureOps.Ideal.Laws

noncomputable section

namespace Cert.ReferenceIdeal.Read

open Cert.ReferenceIdeal Cert.ReferenceIdeal.Gen Idealize.ShloMosaic Idealize.ShloMosaic.TcCoe Idealize.SL.Sem Idealize.ShloMosaic.StableHlo

variable {F : FTy → Type} [FloatOps F]

def val_main_v0 : (⟨S100000, .i32⟩ : BufTy).Contents (Elt F) :=
  iotaInDim S100000 32 0

def val_main_v1 (x1 : (⟨S2x1600000, .i32⟩ : BufTy).Contents (Elt F)) : (⟨S1x1600000, .i32⟩ : BufTy).Contents (Elt F) :=
  extractStridedSlice S1x1600000 ![0, 0] (x1) slices_S2x1600000_S1x1600000_0_0

def val_main_v2 (x1 : (⟨S2x1600000, .i32⟩ : BufTy).Contents (Elt F)) : (⟨S1600000, .i32⟩ : BufTy).Contents (Elt F) :=
  shapeCast _ (val_main_v1 (F := F) x1) shapeCasts_S1x1600000_S1600000

def val_main_v3 (x1 : (⟨S2x1600000, .i32⟩ : BufTy).Contents (Elt F)) : (⟨S1700000, .i32⟩ : BufTy).Contents (Elt F) :=
  concatenate S1700000 0 [⟨S1600000, (val_main_v2 (F := F) x1)⟩, ⟨S100000, (val_main_v0 (F := F))⟩] concatenates_S1600000_S100000_S1700000_d0

def val_main_v4 (x1 : (⟨S2x1600000, .i32⟩ : BufTy).Contents (Elt F)) : (⟨S1x1600000, .i32⟩ : BufTy).Contents (Elt F) :=
  extractStridedSlice S1x1600000 ![1, 0] (x1) slices_S2x1600000_S1x1600000_1_0

def val_main_v5 (x1 : (⟨S2x1600000, .i32⟩ : BufTy).Contents (Elt F)) : (⟨S1600000, .i32⟩ : BufTy).Contents (Elt F) :=
  shapeCast _ (val_main_v4 (F := F) x1) shapeCasts_S1x1600000_S1600000

def val_main_v6 (x1 : (⟨S2x1600000, .i32⟩ : BufTy).Contents (Elt F)) : (⟨S1700000, .i32⟩ : BufTy).Contents (Elt F) :=
  concatenate S1700000 0 [⟨S1600000, (val_main_v5 (F := F) x1)⟩, ⟨S100000, (val_main_v0 (F := F))⟩] concatenates_S1600000_S100000_S1700000_d0

def val_main_cst : (⟨S_, .f32⟩ : BufTy).Contents (Elt F) :=
  constant S_ .f32 0x3F800000#32

def val_main_v7 : (⟨S1700000, .f32⟩ : BufTy).Contents (Elt F) :=
  broadcastInDim S1700000 ![] bcast_S_S1700000 (val_main_cst (F := F))

def val_main_cst_0 : (⟨S_, .f32⟩ : BufTy).Contents (Elt F) :=
  constant S_ .f32 0x00000000#32

def val_main_v8 : (⟨S100000, .f32⟩ : BufTy).Contents (Elt F) :=
  broadcastInDim S100000 ![] bcast_S_S100000 (val_main_cst_0 (F := F))

def val_main_v9 (x1 : (⟨S2x1600000, .i32⟩ : BufTy).Contents (Elt F)) : (⟨S1700000x1, .i32⟩ : BufTy).Contents (Elt F) :=
  broadcastInDim S1700000x1 ![0] bcast_S1700000_S1700000x1_0 (val_main_v6 (F := F) x1)

def val_main_v10 (x1 : (⟨S2x1600000, .i32⟩ : BufTy).Contents (Elt F)) : (⟨S100000, .f32⟩ : BufTy).Contents (Elt F) :=
  Host.scatterAdd scatter_S100000_S1700000x1_S1700000_n_0_0_1 (val_main_v8 (F := F)) (val_main_v9 (F := F) x1) (val_main_v7 (F := F))

def val_main_cst_1 : (⟨S_, .f32⟩ : BufTy).Contents (Elt F) :=
  constant S_ .f32 0x00000000#32

def val_main_v11 : (⟨S100000, .f32⟩ : BufTy).Contents (Elt F) :=
  broadcastInDim S100000 ![] bcast_S_S100000 (val_main_cst_1 (F := F))

def val_main_v12 (x1 : (⟨S2x1600000, .i32⟩ : BufTy).Contents (Elt F)) : (⟨S100000, .i1⟩ : BufTy).Contents (Elt F) :=
  cmpf (F := F) .ogt (val_main_v10 (F := F) x1) (val_main_v11 (F := F))

def val_main_v13 (x1 : (⟨S2x1600000, .i32⟩ : BufTy).Contents (Elt F)) : (⟨S100000, .f32⟩ : BufTy).Contents (Elt F) :=
  Host.rsqrt (val_main_v10 (F := F) x1)

def val_main_cst_2 : (⟨S_, .f32⟩ : BufTy).Contents (Elt F) :=
  constant S_ .f32 0x00000000#32

def val_main_call0_v0 : (⟨S_, .f32⟩ : BufTy).Contents (Elt F) :=
  id (val_main_cst_2 (F := F))

def val_main_call0_v1 : (⟨S100000, .f32⟩ : BufTy).Contents (Elt F) :=
  broadcastInDim S100000 ![] bcast_S_S100000 (val_main_call0_v0 (F := F))

def val_main_v14 (x1 : (⟨S2x1600000, .i32⟩ : BufTy).Contents (Elt F)) : (⟨S100000, .f32⟩ : BufTy).Contents (Elt F) :=
  select (val_main_v12 (F := F) x1) (val_main_v13 (F := F) x1) (val_main_call0_v1 (F := F))

def val_main_c : (⟨S_, .i32⟩ : BufTy).Contents (Elt F) :=
  constantI S_ 32 0#32

def val_main_v15 : (⟨S1700000, .i32⟩ : BufTy).Contents (Elt F) :=
  broadcastInDim S1700000 ![] bcast_S_S1700000 (val_main_c (F := F))

def val_main_v16 (x1 : (⟨S2x1600000, .i32⟩ : BufTy).Contents (Elt F)) : (⟨S1700000, .i1⟩ : BufTy).Contents (Elt F) :=
  cmpi .slt (val_main_v3 (F := F) x1) (val_main_v15 (F := F))

def val_main_c_3 : (⟨S_, .i32⟩ : BufTy).Contents (Elt F) :=
  constantI S_ 32 100000#32

def val_main_v17 : (⟨S1700000, .i32⟩ : BufTy).Contents (Elt F) :=
  broadcastInDim S1700000 ![] bcast_S_S1700000 (val_main_c_3 (F := F))

def val_main_v18 (x1 : (⟨S2x1600000, .i32⟩ : BufTy).Contents (Elt F)) : (⟨S1700000, .i32⟩ : BufTy).Contents (Elt F) :=
  addi (val_main_v3 (F := F) x1) (val_main_v17 (F := F))

def val_main_v19 (x1 : (⟨S2x1600000, .i32⟩ : BufTy).Contents (Elt F)) : (⟨S1700000, .i32⟩ : BufTy).Contents (Elt F) :=
  select (val_main_v16 (F := F) x1) (val_main_v18 (F := F) x1) (val_main_v3 (F := F) x1)

def val_main_v20 (x1 : (⟨S2x1600000, .i32⟩ : BufTy).Contents (Elt F)) : (⟨S1700000x1, .i32⟩ : BufTy).Contents (Elt F) :=
  broadcastInDim S1700000x1 ![0] bcast_S1700000_S1700000x1_0 (val_main_v19 (F := F) x1)

def val_main_v21 (x1 : (⟨S2x1600000, .i32⟩ : BufTy).Contents (Elt F)) : (⟨S1700000, .f32⟩ : BufTy).Contents (Elt F) :=
  Host.gather gather_S100000_S1700000x1_S1700000_n_0_n_n_0_1_1 (val_main_v14 (F := F) x1) (val_main_v20 (F := F) x1)

def val_main_c_4 : (⟨S_, .i32⟩ : BufTy).Contents (Elt F) :=
  constantI S_ 32 0#32

def val_main_v22 : (⟨S1700000, .i32⟩ : BufTy).Contents (Elt F) :=
  broadcastInDim S1700000 ![] bcast_S_S1700000 (val_main_c_4 (F := F))

def val_main_v23 (x1 : (⟨S2x1600000, .i32⟩ : BufTy).Contents (Elt F)) : (⟨S1700000, .i1⟩ : BufTy).Contents (Elt F) :=
  cmpi .slt (val_main_v6 (F := F) x1) (val_main_v22 (F := F))

def val_main_c_5 : (⟨S_, .i32⟩ : BufTy).Contents (Elt F) :=
  constantI S_ 32 100000#32

def val_main_v24 : (⟨S1700000, .i32⟩ : BufTy).Contents (Elt F) :=
  broadcastInDim S1700000 ![] bcast_S_S1700000 (val_main_c_5 (F := F))

def val_main_v25 (x1 : (⟨S2x1600000, .i32⟩ : BufTy).Contents (Elt F)) : (⟨S1700000, .i32⟩ : BufTy).Contents (Elt F) :=
  addi (val_main_v6 (F := F) x1) (val_main_v24 (F := F))

def val_main_v26 (x1 : (⟨S2x1600000, .i32⟩ : BufTy).Contents (Elt F)) : (⟨S1700000, .i32⟩ : BufTy).Contents (Elt F) :=
  select (val_main_v23 (F := F) x1) (val_main_v25 (F := F) x1) (val_main_v6 (F := F) x1)

def val_main_v27 (x1 : (⟨S2x1600000, .i32⟩ : BufTy).Contents (Elt F)) : (⟨S1700000x1, .i32⟩ : BufTy).Contents (Elt F) :=
  broadcastInDim S1700000x1 ![0] bcast_S1700000_S1700000x1_0 (val_main_v26 (F := F) x1)

def val_main_v28 (x1 : (⟨S2x1600000, .i32⟩ : BufTy).Contents (Elt F)) : (⟨S1700000, .f32⟩ : BufTy).Contents (Elt F) :=
  Host.gather gather_S100000_S1700000x1_S1700000_n_0_n_n_0_1_1 (val_main_v14 (F := F) x1) (val_main_v27 (F := F) x1)

def val_main_v29 (x1 : (⟨S2x1600000, .i32⟩ : BufTy).Contents (Elt F)) : (⟨S1700000, .f32⟩ : BufTy).Contents (Elt F) :=
  mulf (val_main_v21 (F := F) x1) (val_main_v28 (F := F) x1)

def val_main_v30 (x0 : (⟨S100000x64, .f32⟩ : BufTy).Contents (Elt F)) (x3 : (⟨S64x64, .f32⟩ : BufTy).Contents (Elt F)) : (⟨S100000x64, .f32⟩ : BufTy).Contents (Elt F) :=
  Host.dotGeneral dot_S100000x64_S64x64_S100000x64_1_0_0_1_n_n none (x0) (x3)

def val_main_v31 (x1 : (⟨S2x1600000, .i32⟩ : BufTy).Contents (Elt F)) : (⟨S1700000x1, .f32⟩ : BufTy).Contents (Elt F) :=
  broadcastInDim S1700000x1 ![0] bcast_S1700000_S1700000x1_0 (val_main_v29 (F := F) x1)

def val_main_c_6 : (⟨S_, .i32⟩ : BufTy).Contents (Elt F) :=
  constantI S_ 32 0#32

def val_main_v32 : (⟨S1700000, .i32⟩ : BufTy).Contents (Elt F) :=
  broadcastInDim S1700000 ![] bcast_S_S1700000 (val_main_c_6 (F := F))

def val_main_v33 (x1 : (⟨S2x1600000, .i32⟩ : BufTy).Contents (Elt F)) : (⟨S1700000, .i1⟩ : BufTy).Contents (Elt F) :=
  cmpi .slt (val_main_v3 (F := F) x1) (val_main_v32 (F := F))

def val_main_c_7 : (⟨S_, .i32⟩ : BufTy).Contents (Elt F) :=
  constantI S_ 32 100000#32

def val_main_v34 : (⟨S1700000, .i32⟩ : BufTy).Contents (Elt F) :=
  broadcastInDim S1700000 ![] bcast_S_S1700000 (val_main_c_7 (F := F))

def val_main_v35 (x1 : (⟨S2x1600000, .i32⟩ : BufTy).Contents (Elt F)) : (⟨S1700000, .i32⟩ : BufTy).Contents (Elt F) :=
  addi (val_main_v3 (F := F) x1) (val_main_v34 (F := F))

def val_main_v36 (x1 : (⟨S2x1600000, .i32⟩ : BufTy).Contents (Elt F)) : (⟨S1700000, .i32⟩ : BufTy).Contents (Elt F) :=
  select (val_main_v33 (F := F) x1) (val_main_v35 (F := F) x1) (val_main_v3 (F := F) x1)

def val_main_v37 (x1 : (⟨S2x1600000, .i32⟩ : BufTy).Contents (Elt F)) : (⟨S1700000x1, .i32⟩ : BufTy).Contents (Elt F) :=
  broadcastInDim S1700000x1 ![0] bcast_S1700000_S1700000x1_0 (val_main_v36 (F := F) x1)

def val_main_v38 (x0 : (⟨S100000x64, .f32⟩ : BufTy).Contents (Elt F)) (x1 : (⟨S2x1600000, .i32⟩ : BufTy).Contents (Elt F)) (x3 : (⟨S64x64, .f32⟩ : BufTy).Contents (Elt F)) : (⟨S1700000x64, .f32⟩ : BufTy).Contents (Elt F) :=
  Host.gather gather_S100000x64_S1700000x1_S1700000x64_1_0_n_n_0_1_164 (val_main_v30 (F := F) x0 x3) (val_main_v37 (F := F) x1)

def val_main_v39 (x1 : (⟨S2x1600000, .i32⟩ : BufTy).Contents (Elt F)) : (⟨S1700000x64, .f32⟩ : BufTy).Contents (Elt F) :=
  broadcastInDim S1700000x64 ![0, 1] bcast_S1700000x1_S1700000x64_0_1 (val_main_v31 (F := F) x1)

def val_main_v40 (x0 : (⟨S100000x64, .f32⟩ : BufTy).Contents (Elt F)) (x1 : (⟨S2x1600000, .i32⟩ : BufTy).Contents (Elt F)) (x3 : (⟨S64x64, .f32⟩ : BufTy).Contents (Elt F)) : (⟨S1700000x64, .f32⟩ : BufTy).Contents (Elt F) :=
  mulf (val_main_v39 (F := F) x1) (val_main_v38 (F := F) x0 x1 x3)

def val_main_cst_8 : (⟨S_, .f32⟩ : BufTy).Contents (Elt F) :=
  constant S_ .f32 0x00000000#32

def val_main_v41 : (⟨S100000x64, .f32⟩ : BufTy).Contents (Elt F) :=
  broadcastInDim S100000x64 ![] bcast_S_S100000x64 (val_main_cst_8 (F := F))

def val_main_v42 (x1 : (⟨S2x1600000, .i32⟩ : BufTy).Contents (Elt F)) : (⟨S1700000x1, .i32⟩ : BufTy).Contents (Elt F) :=
  broadcastInDim S1700000x1 ![0] bcast_S1700000_S1700000x1_0 (val_main_v6 (F := F) x1)

def val_main_v43 (x0 : (⟨S100000x64, .f32⟩ : BufTy).Contents (Elt F)) (x1 : (⟨S2x1600000, .i32⟩ : BufTy).Contents (Elt F)) (x3 : (⟨S64x64, .f32⟩ : BufTy).Contents (Elt F)) : (⟨S100000x64, .f32⟩ : BufTy).Contents (Elt F) :=
  Host.scatterAdd scatter_S100000x64_S1700000x1_S1700000x64_1_0_0_1 (val_main_v41 (F := F)) (val_main_v42 (F := F) x1) (val_main_v40 (F := F) x0 x1 x3)

def val_main_cst_9 : (⟨S_, .f32⟩ : BufTy).Contents (Elt F) :=
  constant S_ .f32 0x00000000#32

def val_main_v44 : (⟨S100000x64, .f32⟩ : BufTy).Contents (Elt F) :=
  broadcastInDim S100000x64 ![] bcast_S_S100000x64 (val_main_cst_9 (F := F))

def val_main_v45 (x0 : (⟨S100000x64, .f32⟩ : BufTy).Contents (Elt F)) (x1 : (⟨S2x1600000, .i32⟩ : BufTy).Contents (Elt F)) (x3 : (⟨S64x64, .f32⟩ : BufTy).Contents (Elt F)) : (⟨S100000x64, .i1⟩ : BufTy).Contents (Elt F) :=
  cmpf (F := F) .ogt (val_main_v43 (F := F) x0 x1 x3) (val_main_v44 (F := F))

def val_main_cst_10 : (⟨S_, .f32⟩ : BufTy).Contents (Elt F) :=
  constant S_ .f32 0x3E99999A#32

def val_main_v46 : (⟨S100000x64, .f32⟩ : BufTy).Contents (Elt F) :=
  broadcastInDim S100000x64 ![] bcast_S_S100000x64 (val_main_cst_10 (F := F))

def val_main_v47 (x0 : (⟨S100000x64, .f32⟩ : BufTy).Contents (Elt F)) (x1 : (⟨S2x1600000, .i32⟩ : BufTy).Contents (Elt F)) (x3 : (⟨S64x64, .f32⟩ : BufTy).Contents (Elt F)) : (⟨S100000x64, .f32⟩ : BufTy).Contents (Elt F) :=
  mulf (val_main_v46 (F := F)) (val_main_v43 (F := F) x0 x1 x3)

def val_main_v48 (x0 : (⟨S100000x64, .f32⟩ : BufTy).Contents (Elt F)) (x1 : (⟨S2x1600000, .i32⟩ : BufTy).Contents (Elt F)) (x3 : (⟨S64x64, .f32⟩ : BufTy).Contents (Elt F)) : (⟨S100000x64, .f32⟩ : BufTy).Contents (Elt F) :=
  select (val_main_v45 (F := F) x0 x1 x3) (val_main_v43 (F := F) x0 x1 x3) (val_main_v47 (F := F) x0 x1 x3)

def val_main_v49 (x0 : (⟨S100000x64, .f32⟩ : BufTy).Contents (Elt F)) (x1 : (⟨S2x1600000, .i32⟩ : BufTy).Contents (Elt F)) (x3 x4 : (⟨S64x64, .f32⟩ : BufTy).Contents (Elt F)) : (⟨S100000x64, .f32⟩ : BufTy).Contents (Elt F) :=
  Host.dotGeneral dot_S100000x64_S64x64_S100000x64_1_0_0_1_n_n none (val_main_v48 (F := F) x0 x1 x3) (x4)

def val_main_v50 (x1 : (⟨S2x1600000, .i32⟩ : BufTy).Contents (Elt F)) : (⟨S1700000x1, .f32⟩ : BufTy).Contents (Elt F) :=
  broadcastInDim S1700000x1 ![0] bcast_S1700000_S1700000x1_0 (val_main_v29 (F := F) x1)

def val_main_c_11 : (⟨S_, .i32⟩ : BufTy).Contents (Elt F) :=
  constantI S_ 32 0#32

def val_main_v51 : (⟨S1700000, .i32⟩ : BufTy).Contents (Elt F) :=
  broadcastInDim S1700000 ![] bcast_S_S1700000 (val_main_c_11 (F := F))

def val_main_v52 (x1 : (⟨S2x1600000, .i32⟩ : BufTy).Contents (Elt F)) : (⟨S1700000, .i1⟩ : BufTy).Contents (Elt F) :=
  cmpi .slt (val_main_v3 (F := F) x1) (val_main_v51 (F := F))

def val_main_c_12 : (⟨S_, .i32⟩ : BufTy).Contents (Elt F) :=
  constantI S_ 32 100000#32

def val_main_v53 : (⟨S1700000, .i32⟩ : BufTy).Contents (Elt F) :=
  broadcastInDim S1700000 ![] bcast_S_S1700000 (val_main_c_12 (F := F))

def val_main_v54 (x1 : (⟨S2x1600000, .i32⟩ : BufTy).Contents (Elt F)) : (⟨S1700000, .i32⟩ : BufTy).Contents (Elt F) :=
  addi (val_main_v3 (F := F) x1) (val_main_v53 (F := F))

def val_main_v55 (x1 : (⟨S2x1600000, .i32⟩ : BufTy).Contents (Elt F)) : (⟨S1700000, .i32⟩ : BufTy).Contents (Elt F) :=
  select (val_main_v52 (F := F) x1) (val_main_v54 (F := F) x1) (val_main_v3 (F := F) x1)

def val_main_v56 (x1 : (⟨S2x1600000, .i32⟩ : BufTy).Contents (Elt F)) : (⟨S1700000x1, .i32⟩ : BufTy).Contents (Elt F) :=
  broadcastInDim S1700000x1 ![0] bcast_S1700000_S1700000x1_0 (val_main_v55 (F := F) x1)

def val_main_v57 (x0 : (⟨S100000x64, .f32⟩ : BufTy).Contents (Elt F)) (x1 : (⟨S2x1600000, .i32⟩ : BufTy).Contents (Elt F)) (x3 x4 : (⟨S64x64, .f32⟩ : BufTy).Contents (Elt F)) : (⟨S1700000x64, .f32⟩ : BufTy).Contents (Elt F) :=
  Host.gather gather_S100000x64_S1700000x1_S1700000x64_1_0_n_n_0_1_164 (val_main_v49 (F := F) x0 x1 x3 x4) (val_main_v56 (F := F) x1)

def val_main_v58 (x1 : (⟨S2x1600000, .i32⟩ : BufTy).Contents (Elt F)) : (⟨S1700000x64, .f32⟩ : BufTy).Contents (Elt F) :=
  broadcastInDim S1700000x64 ![0, 1] bcast_S1700000x1_S1700000x64_0_1 (val_main_v50 (F := F) x1)

def val_main_v59 (x0 : (⟨S100000x64, .f32⟩ : BufTy).Contents (Elt F)) (x1 : (⟨S2x1600000, .i32⟩ : BufTy).Contents (Elt F)) (x3 x4 : (⟨S64x64, .f32⟩ : BufTy).Contents (Elt F)) : (⟨S1700000x64, .f32⟩ : BufTy).Contents (Elt F) :=
  mulf (val_main_v58 (F := F) x1) (val_main_v57 (F := F) x0 x1 x3 x4)

def val_main_cst_13 : (⟨S_, .f32⟩ : BufTy).Contents (Elt F) :=
  constant S_ .f32 0x00000000#32

def val_main_v60 : (⟨S100000x64, .f32⟩ : BufTy).Contents (Elt F) :=
  broadcastInDim S100000x64 ![] bcast_S_S100000x64 (val_main_cst_13 (F := F))

def val_main_v61 (x1 : (⟨S2x1600000, .i32⟩ : BufTy).Contents (Elt F)) : (⟨S1700000x1, .i32⟩ : BufTy).Contents (Elt F) :=
  broadcastInDim S1700000x1 ![0] bcast_S1700000_S1700000x1_0 (val_main_v6 (F := F) x1)

def val_main_v62 (x0 : (⟨S100000x64, .f32⟩ : BufTy).Contents (Elt F)) (x1 : (⟨S2x1600000, .i32⟩ : BufTy).Contents (Elt F)) (x3 x4 : (⟨S64x64, .f32⟩ : BufTy).Contents (Elt F)) : (⟨S100000x64, .f32⟩ : BufTy).Contents (Elt F) :=
  Host.scatterAdd scatter_S100000x64_S1700000x1_S1700000x64_1_0_0_1 (val_main_v60 (F := F)) (val_main_v61 (F := F) x1) (val_main_v59 (F := F) x0 x1 x3 x4)

def val_main_cst_14 : (⟨S_, .f32⟩ : BufTy).Contents (Elt F) :=
  constant S_ .f32 0x00000000#32

def val_main_v63 : (⟨S100000x64, .f32⟩ : BufTy).Contents (Elt F) :=
  broadcastInDim S100000x64 ![] bcast_S_S100000x64 (val_main_cst_14 (F := F))

def val_main_v64 (x0 : (⟨S100000x64, .f32⟩ : BufTy).Contents (Elt F)) (x1 : (⟨S2x1600000, .i32⟩ : BufTy).Contents (Elt F)) (x3 x4 : (⟨S64x64, .f32⟩ : BufTy).Contents (Elt F)) : (⟨S100000x64, .i1⟩ : BufTy).Contents (Elt F) :=
  cmpf (F := F) .ogt (val_main_v62 (F := F) x0 x1 x3 x4) (val_main_v63 (F := F))

def val_main_cst_15 : (⟨S_, .f32⟩ : BufTy).Contents (Elt F) :=
  constant S_ .f32 0x3E99999A#32

def val_main_v65 : (⟨S100000x64, .f32⟩ : BufTy).Contents (Elt F) :=
  broadcastInDim S100000x64 ![] bcast_S_S100000x64 (val_main_cst_15 (F := F))

def val_main_v66 (x0 : (⟨S100000x64, .f32⟩ : BufTy).Contents (Elt F)) (x1 : (⟨S2x1600000, .i32⟩ : BufTy).Contents (Elt F)) (x3 x4 : (⟨S64x64, .f32⟩ : BufTy).Contents (Elt F)) : (⟨S100000x64, .f32⟩ : BufTy).Contents (Elt F) :=
  mulf (val_main_v65 (F := F)) (val_main_v62 (F := F) x0 x1 x3 x4)

def val_main_v67 (x0 : (⟨S100000x64, .f32⟩ : BufTy).Contents (Elt F)) (x1 : (⟨S2x1600000, .i32⟩ : BufTy).Contents (Elt F)) (x3 x4 : (⟨S64x64, .f32⟩ : BufTy).Contents (Elt F)) : (⟨S100000x64, .f32⟩ : BufTy).Contents (Elt F) :=
  select (val_main_v64 (F := F) x0 x1 x3 x4) (val_main_v62 (F := F) x0 x1 x3 x4) (val_main_v66 (F := F) x0 x1 x3 x4)

def val_main_call3_cst : (⟨S_, .f32⟩ : BufTy).Contents (Elt F) :=
  constant S_ .f32 0x00000000#32

def val_main_call3_v0 : (⟨S100000x64, .f32⟩ : BufTy).Contents (Elt F) :=
  broadcastInDim S100000x64 ![] bcast_S_S100000x64 (val_main_call3_cst (F := F))

def val_main_v68 (x0 : (⟨S100000x64, .f32⟩ : BufTy).Contents (Elt F)) (x1 : (⟨S2x1600000, .i32⟩ : BufTy).Contents (Elt F)) (x3 x4 : (⟨S64x64, .f32⟩ : BufTy).Contents (Elt F)) : (⟨S100000x64, .f32⟩ : BufTy).Contents (Elt F) :=
  maximumf (val_main_v67 (F := F) x0 x1 x3 x4) (val_main_call3_v0 (F := F))

def val_main_v69 (x0 : (⟨S100000x64, .f32⟩ : BufTy).Contents (Elt F)) (x1 : (⟨S2x1600000, .i32⟩ : BufTy).Contents (Elt F)) (x3 x4 : (⟨S64x64, .f32⟩ : BufTy).Contents (Elt F)) (x5 : (⟨S64x32, .f32⟩ : BufTy).Contents (Elt F)) : (⟨S100000x32, .f32⟩ : BufTy).Contents (Elt F) :=
  Host.dotGeneral dot_S100000x64_S64x32_S100000x32_1_0_0_1_n_n none (val_main_v68 (F := F) x0 x1 x3 x4) (x5)

def val_main_v70 (x1 : (⟨S2x1600000, .i32⟩ : BufTy).Contents (Elt F)) : (⟨S1700000x1, .f32⟩ : BufTy).Contents (Elt F) :=
  broadcastInDim S1700000x1 ![0] bcast_S1700000_S1700000x1_0 (val_main_v29 (F := F) x1)

def val_main_c_16 : (⟨S_, .i32⟩ : BufTy).Contents (Elt F) :=
  constantI S_ 32 0#32

def val_main_v71 : (⟨S1700000, .i32⟩ : BufTy).Contents (Elt F) :=
  broadcastInDim S1700000 ![] bcast_S_S1700000 (val_main_c_16 (F := F))

def val_main_v72 (x1 : (⟨S2x1600000, .i32⟩ : BufTy).Contents (Elt F)) : (⟨S1700000, .i1⟩ : BufTy).Contents (Elt F) :=
  cmpi .slt (val_main_v3 (F := F) x1) (val_main_v71 (F := F))

def val_main_c_17 : (⟨S_, .i32⟩ : BufTy).Contents (Elt F) :=
  constantI S_ 32 100000#32

def val_main_v73 : (⟨S1700000, .i32⟩ : BufTy).Contents (Elt F) :=
  broadcastInDim S1700000 ![] bcast_S_S1700000 (val_main_c_17 (F := F))

def val_main_v74 (x1 : (⟨S2x1600000, .i32⟩ : BufTy).Contents (Elt F)) : (⟨S1700000, .i32⟩ : BufTy).Contents (Elt F) :=
  addi (val_main_v3 (F := F) x1) (val_main_v73 (F := F))

def val_main_v75 (x1 : (⟨S2x1600000, .i32⟩ : BufTy).Contents (Elt F)) : (⟨S1700000, .i32⟩ : BufTy).Contents (Elt F) :=
  select (val_main_v72 (F := F) x1) (val_main_v74 (F := F) x1) (val_main_v3 (F := F) x1)

def val_main_v76 (x1 : (⟨S2x1600000, .i32⟩ : BufTy).Contents (Elt F)) : (⟨S1700000x1, .i32⟩ : BufTy).Contents (Elt F) :=
  broadcastInDim S1700000x1 ![0] bcast_S1700000_S1700000x1_0 (val_main_v75 (F := F) x1)

def val_main_v77 (x0 : (⟨S100000x64, .f32⟩ : BufTy).Contents (Elt F)) (x1 : (⟨S2x1600000, .i32⟩ : BufTy).Contents (Elt F)) (x3 x4 : (⟨S64x64, .f32⟩ : BufTy).Contents (Elt F)) (x5 : (⟨S64x32, .f32⟩ : BufTy).Contents (Elt F)) : (⟨S1700000x32, .f32⟩ : BufTy).Contents (Elt F) :=
  Host.gather gather_S100000x32_S1700000x1_S1700000x32_1_0_n_n_0_1_132 (val_main_v69 (F := F) x0 x1 x3 x4 x5) (val_main_v76 (F := F) x1)

def val_main_v78 (x1 : (⟨S2x1600000, .i32⟩ : BufTy).Contents (Elt F)) : (⟨S1700000x32, .f32⟩ : BufTy).Contents (Elt F) :=
  broadcastInDim S1700000x32 ![0, 1] bcast_S1700000x1_S1700000x32_0_1 (val_main_v70 (F := F) x1)

def val_main_v79 (x0 : (⟨S100000x64, .f32⟩ : BufTy).Contents (Elt F)) (x1 : (⟨S2x1600000, .i32⟩ : BufTy).Contents (Elt F)) (x3 x4 : (⟨S64x64, .f32⟩ : BufTy).Contents (Elt F)) (x5 : (⟨S64x32, .f32⟩ : BufTy).Contents (Elt F)) : (⟨S1700000x32, .f32⟩ : BufTy).Contents (Elt F) :=
  mulf (val_main_v78 (F := F) x1) (val_main_v77 (F := F) x0 x1 x3 x4 x5)

def val_main_cst_18 : (⟨S_, .f32⟩ : BufTy).Contents (Elt F) :=
  constant S_ .f32 0x00000000#32

def val_main_v80 : (⟨S100000x32, .f32⟩ : BufTy).Contents (Elt F) :=
  broadcastInDim S100000x32 ![] bcast_S_S100000x32 (val_main_cst_18 (F := F))

def val_main_v81 (x1 : (⟨S2x1600000, .i32⟩ : BufTy).Contents (Elt F)) : (⟨S1700000x1, .i32⟩ : BufTy).Contents (Elt F) :=
  broadcastInDim S1700000x1 ![0] bcast_S1700000_S1700000x1_0 (val_main_v6 (F := F) x1)

def val_main_v82 (x0 : (⟨S100000x64, .f32⟩ : BufTy).Contents (Elt F)) (x1 : (⟨S2x1600000, .i32⟩ : BufTy).Contents (Elt F)) (x3 x4 : (⟨S64x64, .f32⟩ : BufTy).Contents (Elt F)) (x5 : (⟨S64x32, .f32⟩ : BufTy).Contents (Elt F)) : (⟨S100000x32, .f32⟩ : BufTy).Contents (Elt F) :=
  Host.scatterAdd scatter_S100000x32_S1700000x1_S1700000x32_1_0_0_1 (val_main_v80 (F := F)) (val_main_v81 (F := F) x1) (val_main_v79 (F := F) x0 x1 x3 x4 x5)

def val_main_v83 (x6 : (⟨S32, .f32⟩ : BufTy).Contents (Elt F)) : (⟨S1x32, .f32⟩ : BufTy).Contents (Elt F) :=
  broadcastInDim S1x32 ![1] bcast_S32_S1x32_1 (x6)

abbrev idx_main_v83 (i : S1x32.Idx) : S32.Idx := fun a => match a with
  | ⟨0, _⟩ => ⟨(i 1).val, (i 1).isLt⟩

theorem val_main_v83_apply (x6 : (⟨S32, .f32⟩ : BufTy).Contents (Elt F)) (i : S1x32.Idx) :
    val_main_v83 (F := F) x6 i = x6 (idx_main_v83 i) := by
  unfold val_main_v83
  exact broadcastInDim_apply _ bcast_S32_S1x32_1 x6 i (idx_main_v83 i) (fun a => match a with
    | ⟨0, _⟩ => by show (i 1).val = if (32 : Nat) = 1 then 0 else (i 1).val; rw [if_neg (by decide)])

def val_main_v84 (x6 : (⟨S32, .f32⟩ : BufTy).Contents (Elt F)) : (⟨S100000x32, .f32⟩ : BufTy).Contents (Elt F) :=
  broadcastInDim S100000x32 ![0, 1] bcast_S1x32_S100000x32_0_1 (val_main_v83 (F := F) x6)

abbrev idx_main_v84 (i : S100000x32.Idx) : S1x32.Idx := fun a => match a with
  | ⟨0, _⟩ => ⟨0, Nat.one_pos⟩
  | ⟨1, _⟩ => ⟨(i 1).val, (i 1).isLt⟩

theorem val_main_v84_apply (x6 : (⟨S32, .f32⟩ : BufTy).Contents (Elt F)) (i : S100000x32.Idx) :
    val_main_v84 (F := F) x6 i = val_main_v83 (F := F) x6 (idx_main_v84 i) := by
  unfold val_main_v84
  generalize val_main_v83 (F := F) x6 = y
  exact broadcastInDim_apply _ bcast_S1x32_S100000x32_0_1 y i (idx_main_v84 i) (fun a => match a with
    | ⟨0, _⟩ => by show 0 = if (1 : Nat) = 1 then 0 else (i 0).val; rw [if_pos rfl]
    | ⟨1, _⟩ => by show (i 1).val = if (32 : Nat) = 1 then 0 else (i 1).val; rw [if_neg (by decide)])

def val_main_v85 (x0 : (⟨S100000x64, .f32⟩ : BufTy).Contents (Elt F)) (x1 : (⟨S2x1600000, .i32⟩ : BufTy).Contents (Elt F)) (x3 x4 : (⟨S64x64, .f32⟩ : BufTy).Contents (Elt F)) (x5 : (⟨S64x32, .f32⟩ : BufTy).Contents (Elt F)) (x6 : (⟨S32, .f32⟩ : BufTy).Contents (Elt F)) : (⟨S100000x32, .f32⟩ : BufTy).Contents (Elt F) :=
  addf (val_main_v82 (F := F) x0 x1 x3 x4 x5) (val_main_v84 (F := F) x6)

def val_main_v86 (x0 : (⟨S100000x64, .f32⟩ : BufTy).Contents (Elt F)) (x1 : (⟨S2x1600000, .i32⟩ : BufTy).Contents (Elt F)) (x3 x4 : (⟨S64x64, .f32⟩ : BufTy).Contents (Elt F)) (x7 : (⟨S64x32, .f32⟩ : BufTy).Contents (Elt F)) : (⟨S100000x32, .f32⟩ : BufTy).Contents (Elt F) :=
  Host.dotGeneral dot_S100000x64_S64x32_S100000x32_1_0_0_1_n_n none (val_main_v68 (F := F) x0 x1 x3 x4) (x7)

def val_main_v87 (x1 : (⟨S2x1600000, .i32⟩ : BufTy).Contents (Elt F)) : (⟨S1700000x1, .f32⟩ : BufTy).Contents (Elt F) :=
  broadcastInDim S1700000x1 ![0] bcast_S1700000_S1700000x1_0 (val_main_v29 (F := F) x1)

def val_main_c_19 : (⟨S_, .i32⟩ : BufTy).Contents (Elt F) :=
  constantI S_ 32 0#32

def val_main_v88 : (⟨S1700000, .i32⟩ : BufTy).Contents (Elt F) :=
  broadcastInDim S1700000 ![] bcast_S_S1700000 (val_main_c_19 (F := F))

def val_main_v89 (x1 : (⟨S2x1600000, .i32⟩ : BufTy).Contents (Elt F)) : (⟨S1700000, .i1⟩ : BufTy).Contents (Elt F) :=
  cmpi .slt (val_main_v3 (F := F) x1) (val_main_v88 (F := F))

def val_main_c_20 : (⟨S_, .i32⟩ : BufTy).Contents (Elt F) :=
  constantI S_ 32 100000#32

def val_main_v90 : (⟨S1700000, .i32⟩ : BufTy).Contents (Elt F) :=
  broadcastInDim S1700000 ![] bcast_S_S1700000 (val_main_c_20 (F := F))

def val_main_v91 (x1 : (⟨S2x1600000, .i32⟩ : BufTy).Contents (Elt F)) : (⟨S1700000, .i32⟩ : BufTy).Contents (Elt F) :=
  addi (val_main_v3 (F := F) x1) (val_main_v90 (F := F))

def val_main_v92 (x1 : (⟨S2x1600000, .i32⟩ : BufTy).Contents (Elt F)) : (⟨S1700000, .i32⟩ : BufTy).Contents (Elt F) :=
  select (val_main_v89 (F := F) x1) (val_main_v91 (F := F) x1) (val_main_v3 (F := F) x1)

def val_main_v93 (x1 : (⟨S2x1600000, .i32⟩ : BufTy).Contents (Elt F)) : (⟨S1700000x1, .i32⟩ : BufTy).Contents (Elt F) :=
  broadcastInDim S1700000x1 ![0] bcast_S1700000_S1700000x1_0 (val_main_v92 (F := F) x1)

def val_main_v94 (x0 : (⟨S100000x64, .f32⟩ : BufTy).Contents (Elt F)) (x1 : (⟨S2x1600000, .i32⟩ : BufTy).Contents (Elt F)) (x3 x4 : (⟨S64x64, .f32⟩ : BufTy).Contents (Elt F)) (x7 : (⟨S64x32, .f32⟩ : BufTy).Contents (Elt F)) : (⟨S1700000x32, .f32⟩ : BufTy).Contents (Elt F) :=
  Host.gather gather_S100000x32_S1700000x1_S1700000x32_1_0_n_n_0_1_132 (val_main_v86 (F := F) x0 x1 x3 x4 x7) (val_main_v93 (F := F) x1)

def val_main_v95 (x1 : (⟨S2x1600000, .i32⟩ : BufTy).Contents (Elt F)) : (⟨S1700000x32, .f32⟩ : BufTy).Contents (Elt F) :=
  broadcastInDim S1700000x32 ![0, 1] bcast_S1700000x1_S1700000x32_0_1 (val_main_v87 (F := F) x1)

def val_main_v96 (x0 : (⟨S100000x64, .f32⟩ : BufTy).Contents (Elt F)) (x1 : (⟨S2x1600000, .i32⟩ : BufTy).Contents (Elt F)) (x3 x4 : (⟨S64x64, .f32⟩ : BufTy).Contents (Elt F)) (x7 : (⟨S64x32, .f32⟩ : BufTy).Contents (Elt F)) : (⟨S1700000x32, .f32⟩ : BufTy).Contents (Elt F) :=
  mulf (val_main_v95 (F := F) x1) (val_main_v94 (F := F) x0 x1 x3 x4 x7)

def val_main_cst_21 : (⟨S_, .f32⟩ : BufTy).Contents (Elt F) :=
  constant S_ .f32 0x00000000#32

def val_main_v97 : (⟨S100000x32, .f32⟩ : BufTy).Contents (Elt F) :=
  broadcastInDim S100000x32 ![] bcast_S_S100000x32 (val_main_cst_21 (F := F))

def val_main_v98 (x1 : (⟨S2x1600000, .i32⟩ : BufTy).Contents (Elt F)) : (⟨S1700000x1, .i32⟩ : BufTy).Contents (Elt F) :=
  broadcastInDim S1700000x1 ![0] bcast_S1700000_S1700000x1_0 (val_main_v6 (F := F) x1)

def val_main_v99 (x0 : (⟨S100000x64, .f32⟩ : BufTy).Contents (Elt F)) (x1 : (⟨S2x1600000, .i32⟩ : BufTy).Contents (Elt F)) (x3 x4 : (⟨S64x64, .f32⟩ : BufTy).Contents (Elt F)) (x7 : (⟨S64x32, .f32⟩ : BufTy).Contents (Elt F)) : (⟨S100000x32, .f32⟩ : BufTy).Contents (Elt F) :=
  Host.scatterAdd scatter_S100000x32_S1700000x1_S1700000x32_1_0_0_1 (val_main_v97 (F := F)) (val_main_v98 (F := F) x1) (val_main_v96 (F := F) x0 x1 x3 x4 x7)

def val_main_v100 (x8 : (⟨S32, .f32⟩ : BufTy).Contents (Elt F)) : (⟨S1x32, .f32⟩ : BufTy).Contents (Elt F) :=
  broadcastInDim S1x32 ![1] bcast_S32_S1x32_1 (x8)

def val_main_v101 (x8 : (⟨S32, .f32⟩ : BufTy).Contents (Elt F)) : (⟨S100000x32, .f32⟩ : BufTy).Contents (Elt F) :=
  broadcastInDim S100000x32 ![0, 1] bcast_S1x32_S100000x32_0_1 (val_main_v100 (F := F) x8)

def val_main_v102 (x0 : (⟨S100000x64, .f32⟩ : BufTy).Contents (Elt F)) (x1 : (⟨S2x1600000, .i32⟩ : BufTy).Contents (Elt F)) (x3 x4 : (⟨S64x64, .f32⟩ : BufTy).Contents (Elt F)) (x7 : (⟨S64x32, .f32⟩ : BufTy).Contents (Elt F)) (x8 : (⟨S32, .f32⟩ : BufTy).Contents (Elt F)) : (⟨S100000x32, .f32⟩ : BufTy).Contents (Elt F) :=
  addf (val_main_v99 (F := F) x0 x1 x3 x4 x7) (val_main_v101 (F := F) x8)

def val_main_cst_22 : (⟨S_, .f32⟩ : BufTy).Contents (Elt F) :=
  constant S_ .f32 0x00000000#32

def val_main_v103 : (⟨S64x32, .f32⟩ : BufTy).Contents (Elt F) :=
  broadcastInDim S64x32 ![] bcast_S_S64x32 (val_main_cst_22 (F := F))

def val_main_v104 (x2 : (⟨S100000, .i32⟩ : BufTy).Contents (Elt F)) : (⟨S100000x1, .i32⟩ : BufTy).Contents (Elt F) :=
  broadcastInDim S100000x1 ![0] bcast_S100000_S100000x1_0 (x2)

abbrev idx_main_v104 (i : S100000x1.Idx) : S100000.Idx := fun a => match a with
  | ⟨0, _⟩ => ⟨(i 0).val, (i 0).isLt⟩

theorem val_main_v104_apply (x2 : (⟨S100000, .i32⟩ : BufTy).Contents (Elt F)) (i : S100000x1.Idx) :
    val_main_v104 (F := F) x2 i = x2 (idx_main_v104 i) := by
  unfold val_main_v104
  exact broadcastInDim_apply _ bcast_S100000_S100000x1_0 x2 i (idx_main_v104 i) (fun a => match a with
    | ⟨0, _⟩ => by show (i 0).val = if (100000 : Nat) = 1 then 0 else (i 0).val; rw [if_neg (by decide)])

def val_main_v105 (x0 : (⟨S100000x64, .f32⟩ : BufTy).Contents (Elt F)) (x1 : (⟨S2x1600000, .i32⟩ : BufTy).Contents (Elt F)) (x2 : (⟨S100000, .i32⟩ : BufTy).Contents (Elt F)) (x3 x4 : (⟨S64x64, .f32⟩ : BufTy).Contents (Elt F)) (x5 : (⟨S64x32, .f32⟩ : BufTy).Contents (Elt F)) (x6 : (⟨S32, .f32⟩ : BufTy).Contents (Elt F)) : (⟨S64x32, .f32⟩ : BufTy).Contents (Elt F) :=
  Host.scatterAdd scatter_S64x32_S100000x1_S100000x32_1_0_0_1 (val_main_v103 (F := F)) (val_main_v104 (F := F) x2) (val_main_v85 (F := F) x0 x1 x3 x4 x5 x6)

def val_main_cst_23 : (⟨S_, .f32⟩ : BufTy).Contents (Elt F) :=
  constant S_ .f32 0x3F800000#32

def val_main_v106 : (⟨S100000, .f32⟩ : BufTy).Contents (Elt F) :=
  broadcastInDim S100000 ![] bcast_S_S100000 (val_main_cst_23 (F := F))

def val_main_cst_24 : (⟨S_, .f32⟩ : BufTy).Contents (Elt F) :=
  constant S_ .f32 0x00000000#32

def val_main_v107 : (⟨S64, .f32⟩ : BufTy).Contents (Elt F) :=
  broadcastInDim S64 ![] bcast_S_S64 (val_main_cst_24 (F := F))

def val_main_v108 (x2 : (⟨S100000, .i32⟩ : BufTy).Contents (Elt F)) : (⟨S100000x1, .i32⟩ : BufTy).Contents (Elt F) :=
  broadcastInDim S100000x1 ![0] bcast_S100000_S100000x1_0 (x2)

def val_main_v109 (x2 : (⟨S100000, .i32⟩ : BufTy).Contents (Elt F)) : (⟨S64, .f32⟩ : BufTy).Contents (Elt F) :=
  Host.scatterAdd scatter_S64_S100000x1_S100000_n_0_0_1 (val_main_v107 (F := F)) (val_main_v108 (F := F) x2) (val_main_v106 (F := F))

def val_main_cst_25 : (⟨S_, .f32⟩ : BufTy).Contents (Elt F) :=
  constant S_ .f32 0x3F800000#32

theorem val_main_cst_25_apply (i : S_.Idx) :
    val_main_cst_25 (F := F) i = FloatOps.ofBits .f32 0x3F800000#32 := rfl

def val_main_v110 : (⟨S64, .f32⟩ : BufTy).Contents (Elt F) :=
  broadcastInDim S64 ![] bcast_S_S64 (val_main_cst_25 (F := F))

abbrev idx_main_v110 (i : S64.Idx) : S_.Idx := fun a => a.elim0

theorem val_main_v110_apply (i : S64.Idx) :
    val_main_v110 (F := F) i = val_main_cst_25 (F := F) (idx_main_v110 i) := by
  unfold val_main_v110
  generalize val_main_cst_25 (F := F) = y
  exact broadcastInDim_apply _ bcast_S_S64 y i (idx_main_v110 i) (fun a => a.elim0)

def val_main_v111 (x2 : (⟨S100000, .i32⟩ : BufTy).Contents (Elt F)) : (⟨S64, .f32⟩ : BufTy).Contents (Elt F) :=
  maximumf (val_main_v109 (F := F) x2) (val_main_v110 (F := F))

theorem val_main_v111_apply (x2 : (⟨S100000, .i32⟩ : BufTy).Contents (Elt F)) (i : S64.Idx) :
    val_main_v111 (F := F) x2 i = FloatOps.maximumf (val_main_v109 (F := F) x2 i) (val_main_v110 (F := F) i) := rfl

def val_main_v112 (x2 : (⟨S100000, .i32⟩ : BufTy).Contents (Elt F)) : (⟨S64x1, .f32⟩ : BufTy).Contents (Elt F) :=
  broadcastInDim S64x1 ![0] bcast_S64_S64x1_0 (val_main_v111 (F := F) x2)

abbrev idx_main_v112 (i : S64x1.Idx) : S64.Idx := fun a => match a with
  | ⟨0, _⟩ => ⟨(i 0).val, (i 0).isLt⟩

theorem val_main_v112_apply (x2 : (⟨S100000, .i32⟩ : BufTy).Contents (Elt F)) (i : S64x1.Idx) :
    val_main_v112 (F := F) x2 i = val_main_v111 (F := F) x2 (idx_main_v112 i) := by
  unfold val_main_v112
  generalize val_main_v111 (F := F) x2 = y
  exact broadcastInDim_apply _ bcast_S64_S64x1_0 y i (idx_main_v112 i) (fun a => match a with
    | ⟨0, _⟩ => by show (i 0).val = if (64 : Nat) = 1 then 0 else (i 0).val; rw [if_neg (by decide)])

def val_main_v113 (x2 : (⟨S100000, .i32⟩ : BufTy).Contents (Elt F)) : (⟨S64x32, .f32⟩ : BufTy).Contents (Elt F) :=
  broadcastInDim S64x32 ![0, 1] bcast_S64x1_S64x32_0_1 (val_main_v112 (F := F) x2)

abbrev idx_main_v113 (i : S64x32.Idx) : S64x1.Idx := fun a => match a with
  | ⟨0, _⟩ => ⟨(i 0).val, (i 0).isLt⟩
  | ⟨1, _⟩ => ⟨0, Nat.one_pos⟩

theorem val_main_v113_apply (x2 : (⟨S100000, .i32⟩ : BufTy).Contents (Elt F)) (i : S64x32.Idx) :
    val_main_v113 (F := F) x2 i = val_main_v112 (F := F) x2 (idx_main_v113 i) := by
  unfold val_main_v113
  generalize val_main_v112 (F := F) x2 = y
  exact broadcastInDim_apply _ bcast_S64x1_S64x32_0_1 y i (idx_main_v113 i) (fun a => match a with
    | ⟨0, _⟩ => by show (i 0).val = if (64 : Nat) = 1 then 0 else (i 0).val; rw [if_neg (by decide)]
    | ⟨1, _⟩ => by show 0 = if (1 : Nat) = 1 then 0 else (i 1).val; rw [if_pos rfl])

def val_main_v114 (x0 : (⟨S100000x64, .f32⟩ : BufTy).Contents (Elt F)) (x1 : (⟨S2x1600000, .i32⟩ : BufTy).Contents (Elt F)) (x2 : (⟨S100000, .i32⟩ : BufTy).Contents (Elt F)) (x3 x4 : (⟨S64x64, .f32⟩ : BufTy).Contents (Elt F)) (x5 : (⟨S64x32, .f32⟩ : BufTy).Contents (Elt F)) (x6 : (⟨S32, .f32⟩ : BufTy).Contents (Elt F)) : (⟨S64x32, .f32⟩ : BufTy).Contents (Elt F) :=
  Host.divf (val_main_v105 (F := F) x0 x1 x2 x3 x4 x5 x6) (val_main_v113 (F := F) x2)

end Cert.ReferenceIdeal.Read

end
-- ==== Proof.RefRun.lean ====
import proofs.«417219_j7851200218009_2_alg».proof.Proof.RefStages
import Idealize.ShloMosaic.Lib.StableHlo.Run

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

abbrev ops : List (HloOp τ sig (Elt F)) :=
  [ nullary main_v0 (iotaInDim S100000 32 0),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v7 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S1700000x1 ![0] bcast_S1700000_S1700000x1_0 : (⟨S1700000, .i32⟩ : BufTy).Contents (Elt F) → (⟨S1700000x1, .i32⟩ : BufTy).Contents (Elt F)),
    ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf (F := F) .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v13) (TRef.of (T := ⟨S100000, .f32⟩) main_call0_v1) (TRef.of (T := ⟨S100000, .f32⟩) main_v14) select,
    nullary main_c (constantI S_ 32 0#32),
    unary main_c main_v15 (broadcastInDim S1700000 ![] bcast_S_S1700000 : (⟨S_, .i32⟩ : BufTy).Contents (Elt F) → (⟨S1700000, .i32⟩ : BufTy).Contents (Elt F)),
    binary main_v3 main_v15 main_v16 (cmpi .slt : (⟨S1700000, .i32⟩ : BufTy).Contents (Elt F) → (⟨S1700000, .i32⟩ : BufTy).Contents (Elt F) → (⟨S1700000, .i1⟩ : BufTy).Contents (Elt F)),
    nullary main_c_3 (constantI S_ 32 100000#32),
    unary main_c_3 main_v17 (broadcastInDim S1700000 ![] bcast_S_S1700000 : (⟨S_, .i32⟩ : BufTy).Contents (Elt F) → (⟨S1700000, .i32⟩ : BufTy).Contents (Elt F)),
    binary main_v3 main_v17 main_v18 (addi : (⟨S1700000, .i32⟩ : BufTy).Contents (Elt F) → (⟨S1700000, .i32⟩ : BufTy).Contents (Elt F) → (⟨S1700000, .i32⟩ : BufTy).Contents (Elt F)),
    ternary main_v16 main_v18 main_v3 main_v19 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v19 main_v20 (broadcastInDim S1700000x1 ![0] bcast_S1700000_S1700000x1_0 : (⟨S1700000, .i32⟩ : BufTy).Contents (Elt F) → (⟨S1700000x1, .i32⟩ : BufTy).Contents (Elt F)),
    binary main_v14 main_v20 main_v21 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_4 (constantI S_ 32 0#32),
    unary main_c_4 main_v22 (broadcastInDim S1700000 ![] bcast_S_S1700000 : (⟨S_, .i32⟩ : BufTy).Contents (Elt F) → (⟨S1700000, .i32⟩ : BufTy).Contents (Elt F)),
    binary main_v6 main_v22 main_v23 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v24 (broadcastInDim S1700000 ![] bcast_S_S1700000 : (⟨S_, .i32⟩ : BufTy).Contents (Elt F) → (⟨S1700000, .i32⟩ : BufTy).Contents (Elt F)),
    binary main_v6 main_v24 main_v25 (addi : (⟨S1700000, .i32⟩ : BufTy).Contents (Elt F) → (⟨S1700000, .i32⟩ : BufTy).Contents (Elt F) → (⟨S1700000, .i32⟩ : BufTy).Contents (Elt F)),
    ternary main_v23 main_v25 main_v6 main_v26 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v26 main_v27 (broadcastInDim S1700000x1 ![0] bcast_S1700000_S1700000x1_0 : (⟨S1700000, .i32⟩ : BufTy).Contents (Elt F) → (⟨S1700000x1, .i32⟩ : BufTy).Contents (Elt F)),
    binary main_v14 main_v27 main_v28 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v21 main_v28 main_v29 (mulf : (⟨S1700000, .f32⟩ : BufTy).Contents (Elt F) → (⟨S1700000, .f32⟩ : BufTy).Contents (Elt F) → (⟨S1700000, .f32⟩ : BufTy).Contents (Elt F)),
    binary main_arg0 main_arg3 main_v30 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_v29 main_v31 (broadcastInDim S1700000x1 ![0] bcast_S1700000_S1700000x1_0 : (⟨S1700000, .f32⟩ : BufTy).Contents (Elt F) → (⟨S1700000x1, .f32⟩ : BufTy).Contents (Elt F)),
    nullary main_c_6 (constantI S_ 32 0#32),
    unary main_c_6 main_v32 (broadcastInDim S1700000 ![] bcast_S_S1700000 : (⟨S_, .i32⟩ : BufTy).Contents (Elt F) → (⟨S1700000, .i32⟩ : BufTy).Contents (Elt F)),
    binary main_v3 main_v32 main_v33 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v34 (broadcastInDim S1700000 ![] bcast_S_S1700000 : (⟨S_, .i32⟩ : BufTy).Contents (Elt F) → (⟨S1700000, .i32⟩ : BufTy).Contents (Elt F)),
    binary main_v3 main_v34 main_v35 (addi : (⟨S1700000, .i32⟩ : BufTy).Contents (Elt F) → (⟨S1700000, .i32⟩ : BufTy).Contents (Elt F) → (⟨S1700000, .i32⟩ : BufTy).Contents (Elt F)),
    ternary main_v33 main_v35 main_v3 main_v36 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v36 main_v37 (broadcastInDim S1700000x1 ![0] bcast_S1700000_S1700000x1_0 : (⟨S1700000, .i32⟩ : BufTy).Contents (Elt F) → (⟨S1700000x1, .i32⟩ : BufTy).Contents (Elt F)),
    binary main_v30 main_v37 main_v38 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v31 main_v39 (broadcastInDim S1700000x64 ![0, 1] bcast_S1700000x1_S1700000x64_0_1 : (⟨S1700000x1, .f32⟩ : BufTy).Contents (Elt F) → (⟨S1700000x64, .f32⟩ : BufTy).Contents (Elt F)),
    binary main_v39 main_v38 main_v40 (mulf : (⟨S1700000x64, .f32⟩ : BufTy).Contents (Elt F) → (⟨S1700000x64, .f32⟩ : BufTy).Contents (Elt F) → (⟨S1700000x64, .f32⟩ : BufTy).Contents (Elt F)),
    nullary main_cst_8 (constant S_ .f32 0x00000000#32),
    unary main_cst_8 main_v41 (broadcastInDim S100000x64 ![] bcast_S_S100000x64 : (⟨S_, .f32⟩ : BufTy).Contents (Elt F) → (⟨S100000x64, .f32⟩ : BufTy).Contents (Elt F)),
    unary main_v6 main_v42 (broadcastInDim S1700000x1 ![0] bcast_S1700000_S1700000x1_0 : (⟨S1700000, .i32⟩ : BufTy).Contents (Elt F) → (⟨S1700000x1, .i32⟩ : BufTy).Contents (Elt F)),
    ternary main_v41 main_v42 main_v40 main_v43 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    nullary main_cst_9 (constant S_ .f32 0x00000000#32),
    unary main_cst_9 main_v44 (broadcastInDim S100000x64 ![] bcast_S_S100000x64 : (⟨S_, .f32⟩ : BufTy).Contents (Elt F) → (⟨S100000x64, .f32⟩ : BufTy).Contents (Elt F)),
    binary main_v43 main_v44 main_v45 (cmpf (F := F) .ogt : (⟨S100000x64, .f32⟩ : BufTy).Contents (Elt F) → (⟨S100000x64, .f32⟩ : BufTy).Contents (Elt F) → (⟨S100000x64, .i1⟩ : BufTy).Contents (Elt F)),
    nullary main_cst_10 (constant S_ .f32 0x3E99999A#32),
    unary main_cst_10 main_v46 (broadcastInDim S100000x64 ![] bcast_S_S100000x64 : (⟨S_, .f32⟩ : BufTy).Contents (Elt F) → (⟨S100000x64, .f32⟩ : BufTy).Contents (Elt F)),
    binary main_v46 main_v43 main_v47 (mulf : (⟨S100000x64, .f32⟩ : BufTy).Contents (Elt F) → (⟨S100000x64, .f32⟩ : BufTy).Contents (Elt F) → (⟨S100000x64, .f32⟩ : BufTy).Contents (Elt F)),
    TRef.ternary (TRef.of (T := ⟨S100000x64, .i1⟩) main_v45) (TRef.of (T := ⟨S100000x64, .f32⟩) main_v43) (TRef.of (T := ⟨S100000x64, .f32⟩) main_v47) (TRef.of (T := ⟨S100000x64, .f32⟩) main_v48) select,
    binary main_v48 main_arg4 main_v49 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_v29 main_v50 (broadcastInDim S1700000x1 ![0] bcast_S1700000_S1700000x1_0 : (⟨S1700000, .f32⟩ : BufTy).Contents (Elt F) → (⟨S1700000x1, .f32⟩ : BufTy).Contents (Elt F)),
    nullary main_c_11 (constantI S_ 32 0#32),
    unary main_c_11 main_v51 (broadcastInDim S1700000 ![] bcast_S_S1700000 : (⟨S_, .i32⟩ : BufTy).Contents (Elt F) → (⟨S1700000, .i32⟩ : BufTy).Contents (Elt F)),
    binary main_v3 main_v51 main_v52 (cmpi .slt : (⟨S1700000, .i32⟩ : BufTy).Contents (Elt F) → (⟨S1700000, .i32⟩ : BufTy).Contents (Elt F) → (⟨S1700000, .i1⟩ : BufTy).Contents (Elt F)),
    nullary main_c_12 (constantI S_ 32 100000#32),
    unary main_c_12 main_v53 (broadcastInDim S1700000 ![] bcast_S_S1700000 : (⟨S_, .i32⟩ : BufTy).Contents (Elt F) → (⟨S1700000, .i32⟩ : BufTy).Contents (Elt F)),
    binary main_v3 main_v53 main_v54 (addi : (⟨S1700000, .i32⟩ : BufTy).Contents (Elt F) → (⟨S1700000, .i32⟩ : BufTy).Contents (Elt F) → (⟨S1700000, .i32⟩ : BufTy).Contents (Elt F)),
    ternary main_v52 main_v54 main_v3 main_v55 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v55 main_v56 (broadcastInDim S1700000x1 ![0] bcast_S1700000_S1700000x1_0 : (⟨S1700000, .i32⟩ : BufTy).Contents (Elt F) → (⟨S1700000x1, .i32⟩ : BufTy).Contents (Elt F)),
    binary main_v49 main_v56 main_v57 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v50 main_v58 (broadcastInDim S1700000x64 ![0, 1] bcast_S1700000x1_S1700000x64_0_1 : (⟨S1700000x1, .f32⟩ : BufTy).Contents (Elt F) → (⟨S1700000x64, .f32⟩ : BufTy).Contents (Elt F)),
    binary main_v58 main_v57 main_v59 (mulf : (⟨S1700000x64, .f32⟩ : BufTy).Contents (Elt F) → (⟨S1700000x64, .f32⟩ : BufTy).Contents (Elt F) → (⟨S1700000x64, .f32⟩ : BufTy).Contents (Elt F)),
    nullary main_cst_13 (constant S_ .f32 0x00000000#32),
    unary main_cst_13 main_v60 (broadcastInDim S100000x64 ![] bcast_S_S100000x64 : (⟨S_, .f32⟩ : BufTy).Contents (Elt F) → (⟨S100000x64, .f32⟩ : BufTy).Contents (Elt F)),
    unary main_v6 main_v61 (broadcastInDim S1700000x1 ![0] bcast_S1700000_S1700000x1_0 : (⟨S1700000, .i32⟩ : BufTy).Contents (Elt F) → (⟨S1700000x1, .i32⟩ : BufTy).Contents (Elt F)),
    ternary main_v60 main_v61 main_v59 main_v62 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    nullary main_cst_14 (constant S_ .f32 0x00000000#32),
    unary main_cst_14 main_v63 (broadcastInDim S100000x64 ![] bcast_S_S100000x64 : (⟨S_, .f32⟩ : BufTy).Contents (Elt F) → (⟨S100000x64, .f32⟩ : BufTy).Contents (Elt F)),
    binary main_v62 main_v63 main_v64 (cmpf (F := F) .ogt : (⟨S100000x64, .f32⟩ : BufTy).Contents (Elt F) → (⟨S100000x64, .f32⟩ : BufTy).Contents (Elt F) → (⟨S100000x64, .i1⟩ : BufTy).Contents (Elt F)),
    nullary main_cst_15 (constant S_ .f32 0x3E99999A#32),
    unary main_cst_15 main_v65 (broadcastInDim S100000x64 ![] bcast_S_S100000x64 : (⟨S_, .f32⟩ : BufTy).Contents (Elt F) → (⟨S100000x64, .f32⟩ : BufTy).Contents (Elt F)),
    binary main_v65 main_v62 main_v66 (mulf : (⟨S100000x64, .f32⟩ : BufTy).Contents (Elt F) → (⟨S100000x64, .f32⟩ : BufTy).Contents (Elt F) → (⟨S100000x64, .f32⟩ : BufTy).Contents (Elt F)),
    TRef.ternary (TRef.of (T := ⟨S100000x64, .i1⟩) main_v64) (TRef.of (T := ⟨S100000x64, .f32⟩) main_v62) (TRef.of (T := ⟨S100000x64, .f32⟩) main_v66) (TRef.of (T := ⟨S100000x64, .f32⟩) main_v67) select,
    TRef.nullary (TRef.of (T := ⟨S_, .f32⟩) main_call3_cst) (constant S_ .f32 0x00000000#32),
    TRef.unary (TRef.of (T := ⟨S_, .f32⟩) main_call3_cst) (TRef.of (T := ⟨S100000x64, .f32⟩) main_call3_v0) (broadcastInDim S100000x64 ![] bcast_S_S100000x64),
    TRef.binary (TRef.of (T := ⟨S100000x64, .f32⟩) main_v67) (TRef.of (T := ⟨S100000x64, .f32⟩) main_call3_v0) (TRef.of (T := ⟨S100000x64, .f32⟩) main_v68) maximumf,
    binary main_v68 main_arg5 main_v69 ((fun l r => Host.dotGeneral dot_S100000x64_S64x32_S100000x32_1_0_0_1_n_n none l r) : (⟨S100000x64, .f32⟩ : BufTy).Contents (Elt F) → (⟨S64x32, .f32⟩ : BufTy).Contents (Elt F) → (⟨S100000x32, .f32⟩ : BufTy).Contents (Elt F)),
    unary main_v29 main_v70 (broadcastInDim S1700000x1 ![0] bcast_S1700000_S1700000x1_0 : (⟨S1700000, .f32⟩ : BufTy).Contents (Elt F) → (⟨S1700000x1, .f32⟩ : BufTy).Contents (Elt F)),
    nullary main_c_16 (constantI S_ 32 0#32),
    unary main_c_16 main_v71 (broadcastInDim S1700000 ![] bcast_S_S1700000 : (⟨S_, .i32⟩ : BufTy).Contents (Elt F) → (⟨S1700000, .i32⟩ : BufTy).Contents (Elt F)),
    binary main_v3 main_v71 main_v72 (cmpi .slt : (⟨S1700000, .i32⟩ : BufTy).Contents (Elt F) → (⟨S1700000, .i32⟩ : BufTy).Contents (Elt F) → (⟨S1700000, .i1⟩ : BufTy).Contents (Elt F)),
    nullary main_c_17 (constantI S_ 32 100000#32),
    unary main_c_17 main_v73 (broadcastInDim S1700000 ![] bcast_S_S1700000 : (⟨S_, .i32⟩ : BufTy).Contents (Elt F) → (⟨S1700000, .i32⟩ : BufTy).Contents (Elt F)),
    binary main_v3 main_v73 main_v74 (addi : (⟨S1700000, .i32⟩ : BufTy).Contents (Elt F) → (⟨S1700000, .i32⟩ : BufTy).Contents (Elt F) → (⟨S1700000, .i32⟩ : BufTy).Contents (Elt F)),
    ternary main_v72 main_v74 main_v3 main_v75 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v75 main_v76 (broadcastInDim S1700000x1 ![0] bcast_S1700000_S1700000x1_0 : (⟨S1700000, .i32⟩ : BufTy).Contents (Elt F) → (⟨S1700000x1, .i32⟩ : BufTy).Contents (Elt F)),
    binary main_v69 main_v76 main_v77 ((fun x i => Host.gather gather_S100000x32_S1700000x1_S1700000x32_1_0_n_n_0_1_132 x i) : (⟨S100000x32, .f32⟩ : BufTy).Contents (Elt F) → (⟨S1700000x1, .i32⟩ : BufTy).Contents (Elt F) → (⟨S1700000x32, .f32⟩ : BufTy).Contents (Elt F)),
    unary main_v70 main_v78 (broadcastInDim S1700000x32 ![0, 1] bcast_S1700000x1_S1700000x32_0_1 : (⟨S1700000x1, .f32⟩ : BufTy).Contents (Elt F) → (⟨S1700000x32, .f32⟩ : BufTy).Contents (Elt F)),
    binary main_v78 main_v77 main_v79 (mulf : (⟨S1700000x32, .f32⟩ : BufTy).Contents (Elt F) → (⟨S1700000x32, .f32⟩ : BufTy).Contents (Elt F) → (⟨S1700000x32, .f32⟩ : BufTy).Contents (Elt F)),
    nullary main_cst_18 (constant S_ .f32 0x00000000#32),
    unary main_cst_18 main_v80 (broadcastInDim S100000x32 ![] bcast_S_S100000x32 : (⟨S_, .f32⟩ : BufTy).Contents (Elt F) → (⟨S100000x32, .f32⟩ : BufTy).Contents (Elt F)),
    unary main_v6 main_v81 (broadcastInDim S1700000x1 ![0] bcast_S1700000_S1700000x1_0 : (⟨S1700000, .i32⟩ : BufTy).Contents (Elt F) → (⟨S1700000x1, .i32⟩ : BufTy).Contents (Elt F)),
    ternary main_v80 main_v81 main_v79 main_v82 ((fun x i u => Host.scatterAdd scatter_S100000x32_S1700000x1_S1700000x32_1_0_0_1 x i u) : (⟨S100000x32, .f32⟩ : BufTy).Contents (Elt F) → (⟨S1700000x1, .i32⟩ : BufTy).Contents (Elt F) → (⟨S1700000x32, .f32⟩ : BufTy).Contents (Elt F) → (⟨S100000x32, .f32⟩ : BufTy).Contents (Elt F)),
    unary main_arg6 main_v83 (broadcastInDim S1x32 ![1] bcast_S32_S1x32_1 : (⟨S32, .f32⟩ : BufTy).Contents (Elt F) → (⟨S1x32, .f32⟩ : BufTy).Contents (Elt F)),
    unary main_v83 main_v84 (broadcastInDim S100000x32 ![0, 1] bcast_S1x32_S100000x32_0_1 : (⟨S1x32, .f32⟩ : BufTy).Contents (Elt F) → (⟨S100000x32, .f32⟩ : BufTy).Contents (Elt F)),
    binary main_v82 main_v84 main_v85 (addf : (⟨S100000x32, .f32⟩ : BufTy).Contents (Elt F) → (⟨S100000x32, .f32⟩ : BufTy).Contents (Elt F) → (⟨S100000x32, .f32⟩ : BufTy).Contents (Elt F)),
    binary main_v68 main_arg7 main_v86 ((fun l r => Host.dotGeneral dot_S100000x64_S64x32_S100000x32_1_0_0_1_n_n none l r) : (⟨S100000x64, .f32⟩ : BufTy).Contents (Elt F) → (⟨S64x32, .f32⟩ : BufTy).Contents (Elt F) → (⟨S100000x32, .f32⟩ : BufTy).Contents (Elt F)),
    unary main_v29 main_v87 (broadcastInDim S1700000x1 ![0] bcast_S1700000_S1700000x1_0 : (⟨S1700000, .f32⟩ : BufTy).Contents (Elt F) → (⟨S1700000x1, .f32⟩ : BufTy).Contents (Elt F)),
    nullary main_c_19 (constantI S_ 32 0#32),
    unary main_c_19 main_v88 (broadcastInDim S1700000 ![] bcast_S_S1700000 : (⟨S_, .i32⟩ : BufTy).Contents (Elt F) → (⟨S1700000, .i32⟩ : BufTy).Contents (Elt F)),
    binary main_v3 main_v88 main_v89 (cmpi .slt : (⟨S1700000, .i32⟩ : BufTy).Contents (Elt F) → (⟨S1700000, .i32⟩ : BufTy).Contents (Elt F) → (⟨S1700000, .i1⟩ : BufTy).Contents (Elt F)),
    nullary main_c_20 (constantI S_ 32 100000#32),
    unary main_c_20 main_v90 (broadcastInDim S1700000 ![] bcast_S_S1700000 : (⟨S_, .i32⟩ : BufTy).Contents (Elt F) → (⟨S1700000, .i32⟩ : BufTy).Contents (Elt F)),
    binary main_v3 main_v90 main_v91 (addi : (⟨S1700000, .i32⟩ : BufTy).Contents (Elt F) → (⟨S1700000, .i32⟩ : BufTy).Contents (Elt F) → (⟨S1700000, .i32⟩ : BufTy).Contents (Elt F)),
    ternary main_v89 main_v91 main_v3 main_v92 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v92 main_v93 (broadcastInDim S1700000x1 ![0] bcast_S1700000_S1700000x1_0 : (⟨S1700000, .i32⟩ : BufTy).Contents (Elt F) → (⟨S1700000x1, .i32⟩ : BufTy).Contents (Elt F)),
    binary main_v86 main_v93 main_v94 ((fun x i => Host.gather gather_S100000x32_S1700000x1_S1700000x32_1_0_n_n_0_1_132 x i) : (⟨S100000x32, .f32⟩ : BufTy).Contents (Elt F) → (⟨S1700000x1, .i32⟩ : BufTy).Contents (Elt F) → (⟨S1700000x32, .f32⟩ : BufTy).Contents (Elt F)),
    unary main_v87 main_v95 (broadcastInDim S1700000x32 ![0, 1] bcast_S1700000x1_S1700000x32_0_1 : (⟨S1700000x1, .f32⟩ : BufTy).Contents (Elt F) → (⟨S1700000x32, .f32⟩ : BufTy).Contents (Elt F)),
    binary main_v95 main_v94 main_v96 (mulf : (⟨S1700000x32, .f32⟩ : BufTy).Contents (Elt F) → (⟨S1700000x32, .f32⟩ : BufTy).Contents (Elt F) → (⟨S1700000x32, .f32⟩ : BufTy).Contents (Elt F)),
    nullary main_cst_21 (constant S_ .f32 0x00000000#32),
    unary main_cst_21 main_v97 (broadcastInDim S100000x32 ![] bcast_S_S100000x32 : (⟨S_, .f32⟩ : BufTy).Contents (Elt F) → (⟨S100000x32, .f32⟩ : BufTy).Contents (Elt F)),
    unary main_v6 main_v98 (broadcastInDim S1700000x1 ![0] bcast_S1700000_S1700000x1_0 : (⟨S1700000, .i32⟩ : BufTy).Contents (Elt F) → (⟨S1700000x1, .i32⟩ : BufTy).Contents (Elt F)),
    ternary main_v97 main_v98 main_v96 main_v99 ((fun x i u => Host.scatterAdd scatter_S100000x32_S1700000x1_S1700000x32_1_0_0_1 x i u) : (⟨S100000x32, .f32⟩ : BufTy).Contents (Elt F) → (⟨S1700000x1, .i32⟩ : BufTy).Contents (Elt F) → (⟨S1700000x32, .f32⟩ : BufTy).Contents (Elt F) → (⟨S100000x32, .f32⟩ : BufTy).Contents (Elt F)),
    unary main_arg8 main_v100 (broadcastInDim S1x32 ![1] bcast_S32_S1x32_1 : (⟨S32, .f32⟩ : BufTy).Contents (Elt F) → (⟨S1x32, .f32⟩ : BufTy).Contents (Elt F)),
    unary main_v100 main_v101 (broadcastInDim S100000x32 ![0, 1] bcast_S1x32_S100000x32_0_1 : (⟨S1x32, .f32⟩ : BufTy).Contents (Elt F) → (⟨S100000x32, .f32⟩ : BufTy).Contents (Elt F)),
    binary main_v99 main_v101 main_v102 (addf : (⟨S100000x32, .f32⟩ : BufTy).Contents (Elt F) → (⟨S100000x32, .f32⟩ : BufTy).Contents (Elt F) → (⟨S100000x32, .f32⟩ : BufTy).Contents (Elt F)),
    nullary main_cst_22 (constant S_ .f32 0x00000000#32),
    unary main_cst_22 main_v103 (broadcastInDim S64x32 ![] bcast_S_S64x32 : (⟨S_, .f32⟩ : BufTy).Contents (Elt F) → (⟨S64x32, .f32⟩ : BufTy).Contents (Elt F)),
    unary main_arg2 main_v104 (broadcastInDim S100000x1 ![0] bcast_S100000_S100000x1_0 : (⟨S100000, .i32⟩ : BufTy).Contents (Elt F) → (⟨S100000x1, .i32⟩ : BufTy).Contents (Elt F)),
    ternary main_v103 main_v104 main_v85 main_v105 ((fun x i u => Host.scatterAdd scatter_S64x32_S100000x1_S100000x32_1_0_0_1 x i u) : (⟨S64x32, .f32⟩ : BufTy).Contents (Elt F) → (⟨S100000x1, .i32⟩ : BufTy).Contents (Elt F) → (⟨S100000x32, .f32⟩ : BufTy).Contents (Elt F) → (⟨S64x32, .f32⟩ : BufTy).Contents (Elt F)),
    nullary main_cst_23 (constant S_ .f32 0x3F800000#32),
    unary main_cst_23 main_v106 (broadcastInDim S100000 ![] bcast_S_S100000 : (⟨S_, .f32⟩ : BufTy).Contents (Elt F) → (⟨S100000, .f32⟩ : BufTy).Contents (Elt F)),
    nullary main_cst_24 (constant S_ .f32 0x00000000#32),
    unary main_cst_24 main_v107 (broadcastInDim S64 ![] bcast_S_S64 : (⟨S_, .f32⟩ : BufTy).Contents (Elt F) → (⟨S64, .f32⟩ : BufTy).Contents (Elt F)),
    unary main_arg2 main_v108 (broadcastInDim S100000x1 ![0] bcast_S100000_S100000x1_0 : (⟨S100000, .i32⟩ : BufTy).Contents (Elt F) → (⟨S100000x1, .i32⟩ : BufTy).Contents (Elt F)),
    ternary main_v107 main_v108 main_v106 main_v109 ((fun x i u => Host.scatterAdd scatter_S64_S100000x1_S100000_n_0_0_1 x i u) : (⟨S64, .f32⟩ : BufTy).Contents (Elt F) → (⟨S100000x1, .i32⟩ : BufTy).Contents (Elt F) → (⟨S100000, .f32⟩ : BufTy).Contents (Elt F) → (⟨S64, .f32⟩ : BufTy).Contents (Elt F)),
    nullary main_cst_25 (constant S_ .f32 0x3F800000#32),
    unary main_cst_25 main_v110 (broadcastInDim S64 ![] bcast_S_S64 : (⟨S_, .f32⟩ : BufTy).Contents (Elt F) → (⟨S64, .f32⟩ : BufTy).Contents (Elt F)),
    binary main_v109 main_v110 main_v111 (maximumf : (⟨S64, .f32⟩ : BufTy).Contents (Elt F) → (⟨S64, .f32⟩ : BufTy).Contents (Elt F) → (⟨S64, .f32⟩ : BufTy).Contents (Elt F)),
    unary main_v111 main_v112 (broadcastInDim S64x1 ![0] bcast_S64_S64x1_0 : (⟨S64, .f32⟩ : BufTy).Contents (Elt F) → (⟨S64x1, .f32⟩ : BufTy).Contents (Elt F)),
    unary main_v112 main_v113 (broadcastInDim S64x32 ![0, 1] bcast_S64x1_S64x32_0_1 : (⟨S64x1, .f32⟩ : BufTy).Contents (Elt F) → (⟨S64x32, .f32⟩ : BufTy).Contents (Elt F)),
    binary main_v105 main_v113 main_v114 (Host.divf : (⟨S64x32, .f32⟩ : BufTy).Contents (Elt F) → (⟨S64x32, .f32⟩ : BufTy).Contents (Elt F) → (⟨S64x32, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub ..⟩

/-- Each result is its last stage at the arguments' launch contents; every stage is defined once, in the stages' module. -/
def res_main_v114 (m : (ℓ : Loc nD τ sig) → Buf (Elt F) ℓ) (c : Dev nD) : Buf (Elt F) ((c.tc : Thread nD τ).loc main_v114) :=
  Read.val_main_v114 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))

abbrev res_out2 (m : (ℓ : Loc nD τ sig) → Buf (Elt F) ℓ) (c : Dev nD) : Buf (Elt F) ((c.tc : Thread nD τ).loc main_v114) := res_main_v114 m c

def res_main_v102 (m : (ℓ : Loc nD τ sig) → Buf (Elt F) ℓ) (c : Dev nD) : Buf (Elt F) ((c.tc : Thread nD τ).loc main_v102) :=
  Read.val_main_v102 (F := F) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg7)) (m ((c.tc : Thread nD τ).loc main_arg8))

abbrev res_out1 (m : (ℓ : Loc nD τ sig) → Buf (Elt F) ℓ) (c : Dev nD) : Buf (Elt F) ((c.tc : Thread nD τ).loc main_v102) := res_main_v102 m c

def res_main_v85 (m : (ℓ : Loc nD τ sig) → Buf (Elt F) ℓ) (c : Dev nD) : Buf (Elt F) ((c.tc : Thread nD τ).loc main_v85) :=
  Read.val_main_v85 (F := F) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6))

abbrev res_out0 (m : (ℓ : Loc nD τ sig) → Buf (Elt F) ℓ) (c : Dev nD) : Buf (Elt F) ((c.tc : Thread nD τ).loc main_v85) := res_main_v85 m c

set_option maxRecDepth 8192 in
set_option maxHeartbeats 58800000 in
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v85) = res_main_v85 m c
      ∧ r.2.mem ((c.tc : Thread nD τ).loc main_v102) = res_main_v102 m c
      ∧ r.2.mem ((c.tc : Thread nD τ).loc main_v114) = res_main_v114 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c main_v85).trans (by after_results_simp <;> rfl <;> (unfold res_main_v85; rfl)),
      (h c main_v102).trans (by after_results_simp <;> rfl <;> (unfold res_main_v102; rfl)),
      (h c main_v114).trans (by after_results_simp <;> rfl <;> (unfold res_main_v114; rfl)),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl)⟩)
    (run_seq scopedRefs_eq scopedSems_eq defs main (fun _ => ops) main_eq (fun _ => ops_sub) m ρ)

end Cert.ReferenceIdeal.Value

namespace Cert.ReferenceIdeal.Read

open Cert.ReferenceIdeal Cert.ReferenceIdeal.Gen Idealize.ShloMosaic Idealize.ShloMosaic.TcCoe Idealize.SL.Sem Idealize.ShloMosaic.StableHlo

variable {F : FTy → Type} [FloatOps F]

theorem val_main_v85_eq (m : (ℓ : Loc nD τ sig) → Buf (Elt F) ℓ) (c : Dev nD) :
    Cert.ReferenceIdeal.Value.res_main_v85 m c = val_main_v85 (F := F) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) := rfl

theorem val_main_v102_eq (m : (ℓ : Loc nD τ sig) → Buf (Elt F) ℓ) (c : Dev nD) :
    Cert.ReferenceIdeal.Value.res_main_v102 m c = val_main_v102 (F := F) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg7)) (m ((c.tc : Thread nD τ).loc main_arg8)) := rfl

theorem val_main_v114_eq (m : (ℓ : Loc nD τ sig) → Buf (Elt F) ℓ) (c : Dev nD) :
    Cert.ReferenceIdeal.Value.res_main_v114 m c = val_main_v114 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := rfl

end Cert.ReferenceIdeal.Read

end
-- ==== Proof.LibSegmentScatter.lean ====
import Idealize.ShloMosaic.Lib.ValueIdx
import Idealize.ShloMosaic.Lib.StableHlo.Predicate
import Idealize.ShloMosaic.PureOps.Ideal.Laws

noncomputable section

namespace Cert.LibSegmentScatter

open Idealize.ShloMosaic Idealize.ShloMosaic.ValueIdx
open scoped BigOperators

abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section Rows
variable {N E C w : Nat} (wf : ScatterDims.WF ⟨2, ![N, C]⟩ ⟨2, ![E, 1]⟩ ⟨2, ![E, C]⟩ [1] [0] [0] 1)
  (idx : IVec ⟨2, ![E, 1]⟩ w) (e : Fin E) (k' : Fin C)

theorem rows_start_zero : (rowScatterDims N E C wf).start (ix2 e k') idx 0 = (idx (ix2 e 0)).toInt := by
  unfold ScatterDims.start
  rw [dif_pos (show (0 : Fin 2) ∈ (rowScatterDims N E C wf).scatterDimsToOperandDims from List.mem_singleton.mpr rfl)]
  have hsi : (rowScatterDims N E C wf).siIdx (ix2 e k') ⟨List.idxOf (0 : Fin 2) (rowScatterDims N E C wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

theorem rows_start_one : (rowScatterDims N E C wf).start (ix2 e k') idx 1 = 0 := by
  unfold ScatterDims.start
  rw [dif_neg (show (1 : Fin 2) ∉ ([0] : List (Fin 2)) by decide)]

theorem rows_window_zero : (rowScatterDims N E C wf).window (ix2 e k') 0 = 0 := by
  unfold ScatterDims.window
  have h0 : (0 : Fin 2) ∉ (rowScatterDims N E C wf).sKept := fun h =>
    absurd (List.mem_filter.1 h).2 (show ¬ (decide ((0 : Fin 2) ∉ ([0] : List (Fin 2))) = true) by decide)
  rw [dif_neg h0]

theorem rows_window_one : (rowScatterDims N E C wf).window (ix2 e k') 1 = k'.val := by
  unfold ScatterDims.window
  have h1 : (1 : Fin 2) ∈ (rowScatterDims N E C wf).sKept :=
    List.mem_filter.2 ⟨List.mem_finRange _, (show decide ((1 : Fin 2) ∉ ([0] : List (Fin 2))) = true by decide)⟩
  rw [dif_pos h1]
  rfl

theorem rows_resultIdx?_eq_some_iff (v : Fin N) (k : Fin C) :
    (rowScatterDims N E C wf).resultIdx? (ix2 e k') idx = some (ix2 v k)
      ↔ (idx (ix2 e 0)).toInt = (v.val : ℤ) ∧ k' = k := by
  unfold ScatterDims.resultIdx?
  constructor
  · intro h
    split at h
    · rename_i hc
      have h' := Option.some.inj h
      have e0 := congrArg (fun f => (f 0).val) h'
      have e1 := congrArg (fun f => (f 1).val) h'
      have c0 := (hc 0).1
      simp only [rows_start_zero, rows_window_zero, rows_start_one, rows_window_one] at e0 e1 c0
      refine ⟨?_, Fin.ext ?_⟩
      · have : ((v : ℕ) : ℤ) = ((ix2 v k 0 : Fin N) : ℕ) := rfl
        omega
      · have : (k : ℕ) = ((ix2 v k 1 : Fin C) : ℕ) := rfl
        omega
    · exact absurd h (by simp)
  · rintro ⟨hv, rfl⟩
    have hc : ∀ a, 0 ≤ (rowScatterDims N E C wf).start (ix2 e k') idx a + (rowScatterDims N E C wf).window (ix2 e k') a
        ∧ (rowScatterDims N E C wf).start (ix2 e k') idx a + (rowScatterDims N E C wf).window (ix2 e k') a
          < (((⟨2, ![N, C]⟩ : Shape).size a : ℕ) : ℤ) := by
      intro a
      match a with
      | ⟨0, _⟩ =>
        show 0 ≤ (rowScatterDims N E C wf).start (ix2 e k') idx 0 + (rowScatterDims N E C wf).window (ix2 e k') 0
          ∧ (rowScatterDims N E C wf).start (ix2 e k') idx 0 + (rowScatterDims N E C wf).window (ix2 e k') 0 < ((N : ℕ) : ℤ)
        rw [rows_start_zero, rows_window_zero, hv]
        have := v.isLt
        omega
      | ⟨1, _⟩ =>
        show 0 ≤ (rowScatterDims N E C wf).start (ix2 e k') idx 1 + (rowScatterDims N E C wf).window (ix2 e k') 1
          ∧ (rowScatterDims N E C wf).start (ix2 e k') idx 1 + (rowScatterDims N E C wf).window (ix2 e k') 1 < ((C : ℕ) : ℤ)
        rw [rows_start_one, rows_window_one]
        have := k'.isLt
        omega
    rw [dif_pos hc]
    congr 1
    funext a
    refine Fin.ext ?_
    match a with
    | ⟨0, _⟩ =>
      show ((rowScatterDims N E C wf).start (ix2 e k') idx 0 + (rowScatterDims N E C wf).window (ix2 e k') 0).toNat = v.val
      rw [rows_start_zero, rows_window_zero, hv]
      omega
    | ⟨1, _⟩ =>
      show ((rowScatterDims N E C wf).start (ix2 e k') idx 1 + (rowScatterDims N E C wf).window (ix2 e k') 1).toNat = k'.val
      rw [rows_start_one, rows_window_one]
      omega

end Rows

theorem scatterAdd_rows_apply {N E C w : Nat} (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w) (upd : (⟨2, ![E, C]⟩ : Shape).Idx → EReal)
    (v : Fin N) (k : Fin C) :
    Ideal.hostScatterAdd (rowScatterDims N E C wf) x idx upd (ix2 v k)
      = x (ix2 v k) + ∑ e : Fin E, if (idx (ix2 e 0)).toInt = (v.val : ℤ) then upd (ix2 e k) else 0 := by
  unfold Ideal.hostScatterAdd
  congr 1
  rw [Finset.sum_filter, sum_idx2]
  refine Finset.sum_congr rfl fun e _ => ?_
  simp only [rows_resultIdx?_eq_some_iff]
  by_cases hv : (idx (ix2 e 0)).toInt = (v.val : ℤ)
  · simp only [hv, true_and, Finset.sum_ite_eq', Finset.mem_univ, if_true]
  · simp only [hv, false_and, if_false, Finset.sum_const_zero]

abbrev entryScatterDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

theorem sum_idx1 {M : Type*} [AddCommMonoid M] {n : Nat} (f : (⟨1, ![n]⟩ : Shape).Idx → M) :
    ∑ i, f i = ∑ a : Fin n, f (ix1 a) := by
  refine Fintype.sum_equiv ⟨fun i => i 0, ix1, fun i => (eq_ix1 i).symm, fun _ => rfl⟩ _ _ (fun i => ?_)
  exact congrArg f (eq_ix1 i)

section Entries
variable {N E w : Nat} (wf : ScatterDims.WF ⟨1, ![N]⟩ ⟨2, ![E, 1]⟩ ⟨1, ![E]⟩ [] [0] [0] 1)
  (idx : IVec ⟨2, ![E, 1]⟩ w) (e : Fin E)

theorem entries_start : (entryScatterDims N E wf).start (ix1 e) idx 0 = (idx (ix2 e 0)).toInt := by
  unfold ScatterDims.start
  rw [dif_pos (show (0 : Fin 1) ∈ (entryScatterDims N E wf).scatterDimsToOperandDims from List.mem_singleton.mpr rfl)]
  have hsi : (entryScatterDims N E wf).siIdx (ix1 e) ⟨List.idxOf (0 : Fin 1) (entryScatterDims N E wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

theorem entries_window : (entryScatterDims N E wf).window (ix1 e) 0 = 0 := by
  unfold ScatterDims.window
  have h0 : (0 : Fin 1) ∉ (entryScatterDims N E wf).sKept := fun h =>
    absurd (List.mem_filter.1 h).2 (show ¬ (decide ((0 : Fin 1) ∉ ([0] : List (Fin 1))) = true) by decide)
  rw [dif_neg h0]

theorem entries_resultIdx?_eq_some_iff (v : Fin N) :
    (entryScatterDims N E wf).resultIdx? (ix1 e) idx = some (ix1 v) ↔ (idx (ix2 e 0)).toInt = (v.val : ℤ) := by
  unfold ScatterDims.resultIdx?
  constructor
  · intro h
    split at h
    · rename_i hc
      have h' := Option.some.inj h
      have e0 := congrArg (fun f => (f 0).val) h'
      have c0 := (hc 0).1
      simp only [entries_start, entries_window] at e0 c0
      have : ((v : ℕ) : ℤ) = ((ix1 v 0 : Fin N) : ℕ) := rfl
      omega
    · exact absurd h (by simp)
  · intro hv
    have hc : ∀ a, 0 ≤ (entryScatterDims N E wf).start (ix1 e) idx a + (entryScatterDims N E wf).window (ix1 e) a
        ∧ (entryScatterDims N E wf).start (ix1 e) idx a + (entryScatterDims N E wf).window (ix1 e) a
          < (((⟨1, ![N]⟩ : Shape).size a : ℕ) : ℤ) := by
      intro a
      match a with
      | ⟨0, _⟩ =>
        show 0 ≤ (entryScatterDims N E wf).start (ix1 e) idx 0 + (entryScatterDims N E wf).window (ix1 e) 0
          ∧ (entryScatterDims N E wf).start (ix1 e) idx 0 + (entryScatterDims N E wf).window (ix1 e) 0 < ((N : ℕ) : ℤ)
        rw [entries_start, entries_window, hv]
        have := v.isLt
        omega
    rw [dif_pos hc]
    congr 1
    funext a
    refine Fin.ext ?_
    match a with
    | ⟨0, _⟩ =>
      show ((entryScatterDims N E wf).start (ix1 e) idx 0 + (entryScatterDims N E wf).window (ix1 e) 0).toNat = v.val
      rw [entries_start, entries_window, hv]
      omega

end Entries

theorem scatterAdd_entries_apply {N E w : Nat} (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (upd : (⟨1, ![E]⟩ : Shape).Idx → EReal)
    (v : Fin N) :
    Ideal.hostScatterAdd (entryScatterDims N E wf) x idx upd (ix1 v)
      = x (ix1 v) + ∑ e : Fin E, if (idx (ix2 e 0)).toInt = (v.val : ℤ) then upd (ix1 e) else 0 := by
  unfold Ideal.hostScatterAdd
  congr 1
  rw [Finset.sum_filter, sum_idx1]
  refine Finset.sum_congr rfl fun e _ => ?_
  simp only [entries_resultIdx?_eq_some_iff]

abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

theorem gather_rows_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (rowGatherDims N E C wf) x idx (ix2 e k)
      = x (ix2 ⟨min (idx (ix2 e 0)).toInt.toNat (N - 1), by omega⟩ k) := by
  unfold Host.gather
  congr 1
  funext a
  refine Fin.ext ?_
  match a with
  | ⟨0, _⟩ =>
    show (rowGatherDims N E C wf).start (ix2 e k) idx 0 + (rowGatherDims N E C wf).batchCoord (ix2 e k) 0
      + (rowGatherDims N E C wf).offCoord (ix2 e k) 0 = min (idx (ix2 e 0)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e k) ⟨List.idxOf (0 : Fin 2) (rowGatherDims N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGatherDims N E C wf).start (ix2 e k) idx 1 + (rowGatherDims N E C wf).batchCoord (ix2 e k) 1
      + (rowGatherDims N E C wf).offCoord (ix2 e k) 1 = k.val
    rw [GatherDims.batchCoord_eq_zero _ _ _ List.not_mem_nil]
    have h1 : (1 : Fin 2) ∈ (rowGatherDims N E C wf).sKept :=
      (GatherDims.mem_sKept _ _).mpr ⟨show (1 : Fin 2) ∉ ([0] : List (Fin 2)) by decide, List.not_mem_nil⟩
    unfold GatherDims.start GatherDims.offCoord
    rw [dif_neg (show (1 : Fin 2) ∉ ([0] : List (Fin 2)) by decide), dif_pos h1]
    simp only [Nat.add_zero, Nat.zero_add]
    rfl

abbrev entryGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

theorem gather_entries_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (entryGatherDims N E wf) x idx (ix1 e)
      = x (ix1 ⟨min (idx (ix2 e 0)).toInt.toNat (N - 1), by omega⟩) := by
  unfold Host.gather
  congr 1
  funext a
  refine Fin.ext ?_
  match a with
  | ⟨0, _⟩ =>
    show (entryGatherDims N E wf).start (ix1 e) idx 0 + (entryGatherDims N E wf).batchCoord (ix1 e) 0
      + (entryGatherDims N E wf).offCoord (ix1 e) 0 = min (idx (ix2 e 0)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (entryGatherDims N E wf).startIndexMap from List.mem_singleton.mpr rfl)]
    have hsi : (entryGatherDims N E wf).siIdx (ix1 e) ⟨List.idxOf (0 : Fin 1) (entryGatherDims N E wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl

end Cert.LibSegmentScatter

end
-- ==== Proof.RefSpec.lean ====
import proofs.«417219_j7851200218009_2_alg».proof.Proof.RefRun
import proofs.«417219_j7851200218009_2_alg».proof.Proof.LibSegmentScatter

set_option maxRecDepth 16384

noncomputable section

namespace Cert.ReferenceIdeal.Hand

open Cert.ReferenceIdeal Cert.ReferenceIdeal.Gen Cert.ReferenceIdeal.Read Idealize.ShloMosaic Idealize.ShloMosaic.TcCoe Idealize.SL.Sem Idealize.ShloMosaic.StableHlo
open scoped BigOperators

variable {F : FTy → Type} [FloatOps F]

def srcIdxR (x1 : IVec S2x1600000 32) : IVec S1700000 32 := val_main_v3 (F := F) x1

def dstIdxR (x1 : IVec S2x1600000 32) : IVec S1700000 32 := val_main_v6 (F := F) x1

def edgeNormR (x1 : IVec S2x1600000 32) : FVec F S1700000 .f32 := val_main_v29 (F := F) x1

def aggR64 (nrm : FVec F S1700000 .f32) (src dst : IVec S1700000 32) (hw : FVec F S100000x64 .f32) :
    FVec F S100000x64 .f32 :=
  Host.scatterAdd scatter_S100000x64_S1700000x1_S1700000x64_1_0_0_1
    (broadcastInDim S100000x64 ![] bcast_S_S100000x64 (constant S_ .f32 0x00000000#32))
    (broadcastInDim S1700000x1 ![0] bcast_S1700000_S1700000x1_0 dst)
    (mulf
      (broadcastInDim S1700000x64 ![0, 1] bcast_S1700000x1_S1700000x64_0_1
        (broadcastInDim S1700000x1 ![0] bcast_S1700000_S1700000x1_0 nrm))
      (Host.gather gather_S100000x64_S1700000x1_S1700000x64_1_0_n_n_0_1_164 hw
        (broadcastInDim S1700000x1 ![0] bcast_S1700000_S1700000x1_0
          (select (cmpi .slt src (broadcastInDim S1700000 ![] bcast_S_S1700000 (constantI S_ 32 0#32)))
            (addi src (broadcastInDim S1700000 ![] bcast_S_S1700000 (constantI S_ 32 100000#32)))
            src))))

def aggR32 (nrm : FVec F S1700000 .f32) (src dst : IVec S1700000 32) (hw : FVec F S100000x32 .f32) :
    FVec F S100000x32 .f32 :=
  Host.scatterAdd scatter_S100000x32_S1700000x1_S1700000x32_1_0_0_1
    (broadcastInDim S100000x32 ![] bcast_S_S100000x32 (constant S_ .f32 0x00000000#32))
    (broadcastInDim S1700000x1 ![0] bcast_S1700000_S1700000x1_0 dst)
    (mulf
      (broadcastInDim S1700000x32 ![0, 1] bcast_S1700000x1_S1700000x32_0_1
        (broadcastInDim S1700000x1 ![0] bcast_S1700000_S1700000x1_0 nrm))
      (Host.gather gather_S100000x32_S1700000x1_S1700000x32_1_0_n_n_0_1_132 hw
        (broadcastInDim S1700000x1 ![0] bcast_S1700000_S1700000x1_0
          (select (cmpi .slt src (broadcastInDim S1700000 ![] bcast_S_S1700000 (constantI S_ 32 0#32)))
            (addi src (broadcastInDim S1700000 ![] bcast_S_S1700000 (constantI S_ 32 100000#32)))
            src))))

def dotR64 (a : FVec F S100000x64 .f32) (w : FVec F S64x64 .f32) : FVec F S100000x64 .f32 :=
  Host.dotGeneral dot_S100000x64_S64x64_S100000x64_1_0_0_1_n_n none a w

def dotR32 (a : FVec F S100000x64 .f32) (w : FVec F S64x32 .f32) : FVec F S100000x32 .f32 :=
  Host.dotGeneral dot_S100000x64_S64x32_S100000x32_1_0_0_1_n_n none a w

def leakyR (a : FVec F S100000x64 .f32) : FVec F S100000x64 .f32 :=
  select
    (cmpf .ogt a (broadcastInDim S100000x64 ![] bcast_S_S100000x64 (constant S_ .f32 0x00000000#32)))
    a
    (mulf (broadcastInDim S100000x64 ![] bcast_S_S100000x64 (constant S_ .f32 0x3E99999A#32)) a)

def reluR (a : FVec F S100000x64 .f32) : FVec F S100000x64 .f32 :=
  maximumf a (broadcastInDim S100000x64 ![] bcast_S_S100000x64 (constant S_ .f32 0x00000000#32))

def biasR (a : FVec F S100000x32 .f32) (b : FVec F S32 .f32) : FVec F S100000x32 .f32 :=
  addf a
    (broadcastInDim S100000x32 ![0, 1] bcast_S1x32_S100000x32_0_1
      (broadcastInDim S1x32 ![1] bcast_S32_S1x32_1 b))

def poolSumR (mean : FVec F S100000x32 .f32) (g : IVec S100000 32) : FVec F S64x32 .f32 :=
  Host.scatterAdd scatter_S64x32_S100000x1_S100000x32_1_0_0_1
    (broadcastInDim S64x32 ![] bcast_S_S64x32 (constant S_ .f32 0x00000000#32))
    (broadcastInDim S100000x1 ![0] bcast_S100000_S100000x1_0 g)
    mean

def poolCountR (g : IVec S100000 32) : FVec F S64 .f32 :=
  Host.scatterAdd scatter_S64_S100000x1_S100000_n_0_0_1
    (broadcastInDim S64 ![] bcast_S_S64 (constant S_ .f32 0x00000000#32))
    (broadcastInDim S100000x1 ![0] bcast_S100000_S100000x1_0 g)
    (broadcastInDim S100000 ![] bcast_S_S100000 (constant S_ .f32 0x3F800000#32))

def poolR (mean : FVec F S100000x32 .f32) (g : IVec S100000 32) : FVec F S64x32 .f32 :=
  Host.divf (poolSumR mean g)
    (broadcastInDim S64x32 ![0, 1] bcast_S64x1_S64x32_0_1
      (broadcastInDim S64x1 ![0] bcast_S64_S64x1_0
        (maximumf (poolCountR (F := F) g)
          (broadcastInDim S64 ![] bcast_S_S64 (constant S_ .f32 0x3F800000#32)))))

theorem stage_v43 (x0 : FVec F S100000x64 .f32) (x1 : IVec S2x1600000 32) (x3 : FVec F S64x64 .f32) :
    val_main_v43 (F := F) x0 x1 x3
      = aggR64 (edgeNormR (F := F) x1) (srcIdxR (F := F) x1) (dstIdxR (F := F) x1) (dotR64 x0 x3) := by
  unfold val_main_v43 val_main_v42 val_main_v41 val_main_cst_8 val_main_v40 val_main_v39 val_main_v38
    val_main_v37 val_main_v36 val_main_v35 val_main_v34 val_main_c_7 val_main_v33 val_main_v32 val_main_c_6
    val_main_v31 val_main_v30
  rfl

theorem stage_v48 (x0 : FVec F S100000x64 .f32) (x1 : IVec S2x1600000 32) (x3 : FVec F S64x64 .f32) :
    val_main_v48 (F := F) x0 x1 x3 = leakyR (val_main_v43 (F := F) x0 x1 x3) := by
  unfold val_main_v48 val_main_v47 val_main_v46 val_main_cst_10 val_main_v45 val_main_v44 val_main_cst_9
  rfl

theorem stage_v49 (x0 : FVec F S100000x64 .f32) (x1 : IVec S2x1600000 32) (x3 x4 : FVec F S64x64 .f32) :
    val_main_v49 (F := F) x0 x1 x3 x4 = dotR64 (val_main_v48 (F := F) x0 x1 x3) x4 := by
  unfold val_main_v49
  rfl

theorem stage_v62 (x0 : FVec F S100000x64 .f32) (x1 : IVec S2x1600000 32) (x3 x4 : FVec F S64x64 .f32) :
    val_main_v62 (F := F) x0 x1 x3 x4
      = aggR64 (edgeNormR (F := F) x1) (srcIdxR (F := F) x1) (dstIdxR (F := F) x1)
          (val_main_v49 (F := F) x0 x1 x3 x4) := by
  unfold val_main_v62 val_main_v61 val_main_v60 val_main_cst_13 val_main_v59 val_main_v58 val_main_v57
    val_main_v56 val_main_v55 val_main_v54 val_main_v53 val_main_c_12 val_main_v52 val_main_v51 val_main_c_11
    val_main_v50
  rfl

theorem stage_v67 (x0 : FVec F S100000x64 .f32) (x1 : IVec S2x1600000 32) (x3 x4 : FVec F S64x64 .f32) :
    val_main_v67 (F := F) x0 x1 x3 x4 = leakyR (val_main_v62 (F := F) x0 x1 x3 x4) := by
  unfold val_main_v67 val_main_v66 val_main_v65 val_main_cst_15 val_main_v64 val_main_v63 val_main_cst_14
  rfl

theorem stage_v68 (x0 : FVec F S100000x64 .f32) (x1 : IVec S2x1600000 32) (x3 x4 : FVec F S64x64 .f32) :
    val_main_v68 (F := F) x0 x1 x3 x4 = reluR (val_main_v67 (F := F) x0 x1 x3 x4) := by
  unfold val_main_v68 val_main_call3_v0 val_main_call3_cst
  rfl

theorem stage_v69 (x0 : FVec F S100000x64 .f32) (x1 : IVec S2x1600000 32) (x3 x4 : FVec F S64x64 .f32)
    (x5 : FVec F S64x32 .f32) :
    val_main_v69 (F := F) x0 x1 x3 x4 x5 = dotR32 (val_main_v68 (F := F) x0 x1 x3 x4) x5 := by
  unfold val_main_v69
  rfl

theorem stage_v82 (x0 : FVec F S100000x64 .f32) (x1 : IVec S2x1600000 32) (x3 x4 : FVec F S64x64 .f32)
    (x5 : FVec F S64x32 .f32) :
    val_main_v82 (F := F) x0 x1 x3 x4 x5
      = aggR32 (edgeNormR (F := F) x1) (srcIdxR (F := F) x1) (dstIdxR (F := F) x1)
          (val_main_v69 (F := F) x0 x1 x3 x4 x5) := by
  unfold val_main_v82 val_main_v81 val_main_v80 val_main_cst_18 val_main_v79 val_main_v78 val_main_v77
    val_main_v76 val_main_v75 val_main_v74 val_main_v73 val_main_c_17 val_main_v72 val_main_v71 val_main_c_16
    val_main_v70
  rfl

theorem stage_v85 (x0 : FVec F S100000x64 .f32) (x1 : IVec S2x1600000 32) (x3 x4 : FVec F S64x64 .f32)
    (x5 : FVec F S64x32 .f32) (x6 : FVec F S32 .f32) :
    val_main_v85 (F := F) x0 x1 x3 x4 x5 x6 = biasR (val_main_v82 (F := F) x0 x1 x3 x4 x5) x6 := by
  unfold val_main_v85 val_main_v84 val_main_v83
  rfl

theorem stage_v86 (x0 : FVec F S100000x64 .f32) (x1 : IVec S2x1600000 32) (x3 x4 : FVec F S64x64 .f32)
    (x7 : FVec F S64x32 .f32) :
    val_main_v86 (F := F) x0 x1 x3 x4 x7 = dotR32 (val_main_v68 (F := F) x0 x1 x3 x4) x7 := by
  unfold val_main_v86
  rfl

theorem stage_v99 (x0 : FVec F S100000x64 .f32) (x1 : IVec S2x1600000 32) (x3 x4 : FVec F S64x64 .f32)
    (x7 : FVec F S64x32 .f32) :
    val_main_v99 (F := F) x0 x1 x3 x4 x7
      = aggR32 (edgeNormR (F := F) x1) (srcIdxR (F := F) x1) (dstIdxR (F := F) x1)
          (val_main_v86 (F := F) x0 x1 x3 x4 x7) := by
  unfold val_main_v99 val_main_v98 val_main_v97 val_main_cst_21 val_main_v96 val_main_v95 val_main_v94
    val_main_v93 val_main_v92 val_main_v91 val_main_v90 val_main_c_20 val_main_v89 val_main_v88 val_main_c_19
    val_main_v87
  rfl

theorem stage_v102 (x0 : FVec F S100000x64 .f32) (x1 : IVec S2x1600000 32) (x3 x4 : FVec F S64x64 .f32)
    (x7 : FVec F S64x32 .f32) (x8 : FVec F S32 .f32) :
    val_main_v102 (F := F) x0 x1 x3 x4 x7 x8 = biasR (val_main_v99 (F := F) x0 x1 x3 x4 x7) x8 := by
  unfold val_main_v102 val_main_v101 val_main_v100
  rfl

theorem stage_v114 (x0 : FVec F S100000x64 .f32) (x1 : IVec S2x1600000 32) (x2 : IVec S100000 32)
    (x3 x4 : FVec F S64x64 .f32) (x5 : FVec F S64x32 .f32) (x6 : FVec F S32 .f32) :
    val_main_v114 (F := F) x0 x1 x2 x3 x4 x5 x6 = poolR (val_main_v85 (F := F) x0 x1 x3 x4 x5 x6) x2 := by
  unfold val_main_v114 val_main_v113 val_main_v112 val_main_v111 val_main_v110 val_main_cst_25 val_main_v109
    val_main_v108 val_main_v107 val_main_cst_24 val_main_v106 val_main_cst_23 val_main_v105 val_main_v104
    val_main_v103 val_main_cst_22
  rfl

theorem ref_out0 (m : (ℓ : Loc nD τ sig) → Buf (Elt F) ℓ) (c : Dev nD) :
    Cert.ReferenceIdeal.Value.res_out0 (F := F) m c
      = val_main_v85 (F := F) (m ((c.tc : Thread nD τ).loc main_arg0)) (m ((c.tc : Thread nD τ).loc main_arg1))
          (m ((c.tc : Thread nD τ).loc main_arg3)) (m ((c.tc : Thread nD τ).loc main_arg4))
          (m ((c.tc : Thread nD τ).loc main_arg5)) (m ((c.tc : Thread nD τ).loc main_arg6)) :=
  val_main_v85_eq m c

theorem ref_out1 (m : (ℓ : Loc nD τ sig) → Buf (Elt F) ℓ) (c : Dev nD) :
    Cert.ReferenceIdeal.Value.res_out1 (F := F) m c
      = val_main_v102 (F := F) (m ((c.tc : Thread nD τ).loc main_arg0)) (m ((c.tc : Thread nD τ).loc main_arg1))
          (m ((c.tc : Thread nD τ).loc main_arg3)) (m ((c.tc : Thread nD τ).loc main_arg4))
          (m ((c.tc : Thread nD τ).loc main_arg7)) (m ((c.tc : Thread nD τ).loc main_arg8)) :=
  val_main_v102_eq m c

theorem ref_out2 (m : (ℓ : Loc nD τ sig) → Buf (Elt F) ℓ) (c : Dev nD) :
    Cert.ReferenceIdeal.Value.res_out2 (F := F) m c
      = val_main_v114 (F := F) (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) :=
  val_main_v114_eq m c

theorem biasR_apply (a : FVec Ideal S100000x32 .f32) (b : FVec Ideal S32 .f32) (i : S100000x32.Idx) :
    biasR (F := Ideal) a b i = a i + b (idx_main_v83 (idx_main_v84 i)) := by
  have h : biasR (F := Ideal) a b i = a i + val_main_v84 (F := Ideal) b i := by
    unfold biasR val_main_v84 val_main_v83
    rfl
  rw [h, val_main_v84_apply, val_main_v83_apply]

theorem biasR_apply_ix (a : FVec Ideal S100000x32 .f32) (b : FVec Ideal S32 .f32) (i : S100000x32.Idx) :
    biasR (F := Ideal) a b i = a i + b (ValueIdx.ix1 (i 1)) := by
  rw [biasR_apply]
  congr 2
  funext d
  match d with
  | ⟨0, _⟩ => rfl

theorem reluR_apply (a : FVec Ideal S100000x64 .f32) (i : S100000x64.Idx) :
    reluR (F := Ideal) a i = max (a i) 0 := by
  show max (a i) (Ideal.ofBits .f32 0x00000000#32) = max (a i) 0
  rw [Ideal.ofBits_zero_f32]

theorem leakyR_apply (a : FVec Ideal S100000x64 .f32) (i : S100000x64.Idx) :
    leakyR (F := Ideal) a i = if 0 < a i then a i else Ideal.ofBits .f32 0x3E99999A#32 * a i := by
  show Scalar.select (Ideal.cmp .ogt (a i) (Ideal.ofBits .f32 0x00000000#32)) (a i)
      (Ideal.ofBits .f32 0x3E99999A#32 * a i) = _
  rw [Ideal.ofBits_zero_f32]
  by_cases h : 0 < a i
  · rw [if_pos h]
    show (if BitVec.ofBool (decide (0 < a i)) = 1 then _ else _) = _
    rw [decide_eq_true h]
    rfl
  · rw [if_neg h]
    show (if BitVec.ofBool (decide (0 < a i)) = 1 then _ else _) = _
    rw [decide_eq_false h]
    rfl

theorem leakySlope_eq : Ideal.ofBits .f32 0x3E99999A#32 = ((5033165 / 16777216 : ℝ) : EReal) := by
  simp [Ideal.ofBits, Ideal.ieee, -EReal.coe_mul]
  norm_num

theorem leakySlope_pos : (0 : EReal) < Ideal.ofBits .f32 0x3E99999A#32 := by
  rw [leakySlope_eq]
  exact_mod_cast (by norm_num : (0 : ℝ) < 5033165 / 16777216)

theorem max_leaky_zero (s x : EReal) (hs : 0 ≤ s) : max (if 0 < x then x else s * x) 0 = max x 0 := by
  by_cases h : 0 < x
  · rw [if_pos h]
  · rw [if_neg h]
    have hx : x ≤ 0 := not_lt.mp h
    rw [max_eq_right hx, max_eq_right]
    exact EReal.mul_nonpos_iff.mpr (Or.inl ⟨hs, hx⟩)

theorem reluR_leakyR_apply (a : FVec Ideal S100000x64 .f32) (i : S100000x64.Idx) :
    reluR (F := Ideal) (leakyR (F := Ideal) a) i = max (a i) 0 := by
  rw [reluR_apply, leakyR_apply]
  exact max_leaky_zero _ _ leakySlope_pos.le

theorem ofBits_one_f32 : Ideal.ofBits .f32 0x3F800000#32 = 1 := by
  simp [Ideal.ofBits, Ideal.ieee, -EReal.coe_mul]
  norm_num

theorem graphCol_apply (g : IVec S100000 32) (e : Fin 100000) :
    broadcastInDim S100000x1 ![0] bcast_S100000_S100000x1_0 g (ValueIdx.ix2 e 0) = g (ValueIdx.ix1 e) :=
  (val_main_v104_apply (F := Ideal) g (ValueIdx.ix2 e 0)).trans
    (congrArg g (funext fun d => match d with | ⟨0, _⟩ => rfl))

theorem poolSum_dims : scatter_S64x32_S100000x1_S100000x32_1_0_0_1
    = Cert.LibSegmentScatter.rowScatterDims 64 100000 32 scatter_S64x32_S100000x1_S100000x32_1_0_0_1_wf := rfl

theorem poolCount_dims : scatter_S64_S100000x1_S100000_n_0_0_1
    = Cert.LibSegmentScatter.entryScatterDims 64 100000 scatter_S64_S100000x1_S100000_n_0_0_1_wf := rfl

theorem poolSumR_apply (mean : FVec Ideal S100000x32 .f32) (g : IVec S100000 32) (v : Fin 64) (k : Fin 32) :
    poolSumR (F := Ideal) mean g (ValueIdx.ix2 v k)
      = ∑ e : Fin 100000, if (g (ValueIdx.ix1 e)).toInt = (v.val : ℤ) then mean (ValueIdx.ix2 e k) else 0 := by
  unfold poolSumR Host.scatterAdd
  rw [Ideal.hostScatterAdd_def]
  have h := Cert.LibSegmentScatter.scatterAdd_rows_apply (N := 64) (E := 100000) (C := 32)
    scatter_S64x32_S100000x1_S100000x32_1_0_0_1_wf
    (broadcastInDim S64x32 ![] bcast_S_S64x32 (constant (F := Ideal) S_ .f32 0x00000000#32))
    (broadcastInDim S100000x1 ![0] bcast_S100000_S100000x1_0 g) mean v k
  rw [poolSum_dims, h]
  have hz : broadcastInDim S64x32 ![] bcast_S_S64x32 (constant (F := Ideal) S_ .f32 0x00000000#32)
      (ValueIdx.ix2 v k) = 0 := Ideal.ofBits_zero_f32
  rw [hz, zero_add]
  refine Finset.sum_congr rfl fun e _ => ?_
  rw [graphCol_apply]

theorem poolCountR_apply (g : IVec S100000 32) (v : Fin 64) :
    poolCountR (F := Ideal) g (ValueIdx.ix1 v)
      = ∑ e : Fin 100000, if (g (ValueIdx.ix1 e)).toInt = (v.val : ℤ) then (1 : EReal) else 0 := by
  unfold poolCountR Host.scatterAdd
  rw [Ideal.hostScatterAdd_def]
  have h := Cert.LibSegmentScatter.scatterAdd_entries_apply (N := 64) (E := 100000)
    scatter_S64_S100000x1_S100000_n_0_0_1_wf
    (broadcastInDim S64 ![] bcast_S_S64 (constant (F := Ideal) S_ .f32 0x00000000#32))
    (broadcastInDim S100000x1 ![0] bcast_S100000_S100000x1_0 g)
    (broadcastInDim S100000 ![] bcast_S_S100000 (constant (F := Ideal) S_ .f32 0x3F800000#32)) v
  rw [poolCount_dims, h]
  have hz : broadcastInDim S64 ![] bcast_S_S64 (constant (F := Ideal) S_ .f32 0x00000000#32)
      (ValueIdx.ix1 v) = 0 := Ideal.ofBits_zero_f32
  have ho : ∀ e : Fin 100000, broadcastInDim S100000 ![] bcast_S_S100000
      (constant (F := Ideal) S_ .f32 0x3F800000#32) (ValueIdx.ix1 e) = 1 := fun _ => ofBits_one_f32
  rw [hz, zero_add]
  refine Finset.sum_congr rfl fun e _ => ?_
  rw [graphCol_apply, ho]

theorem poolR_apply_raw (mean : FVec Ideal S100000x32 .f32) (g : IVec S100000 32) (i : S64x32.Idx) :
    poolR (F := Ideal) mean g i
      = Ideal.div (poolSumR (F := Ideal) mean g i)
          (max (poolCountR (F := Ideal) g (idx_main_v112 (idx_main_v113 i))) (Ideal.ofBits .f32 0x3F800000#32)) := by
  have h : poolR (F := Ideal) mean g
      = Host.divf (poolSumR (F := Ideal) mean g) (val_main_v113 (F := Ideal) g) := by
    unfold poolR val_main_v113 val_main_v112 val_main_v111 val_main_v110 val_main_cst_25 val_main_v109
      val_main_v108 val_main_v107 val_main_cst_24 val_main_v106 val_main_cst_23 poolCountR
    rfl
  rw [h]
  unfold Host.divf
  rw [Ideal.hostDivf_def, val_main_v113_apply, val_main_v112_apply, val_main_v111_apply, Ideal.maximumf_def,
    val_main_v110_apply, val_main_cst_25_apply, Ideal.ofBits_def]
  rfl

theorem poolR_apply (mean : FVec Ideal S100000x32 .f32) (g : IVec S100000 32) (v : Fin 64) (k : Fin 32) :
    poolR (F := Ideal) mean g (ValueIdx.ix2 v k)
      = Ideal.div
          (∑ e : Fin 100000, if (g (ValueIdx.ix1 e)).toInt = (v.val : ℤ) then mean (ValueIdx.ix2 e k) else 0)
          (max (∑ e : Fin 100000, if (g (ValueIdx.ix1 e)).toInt = (v.val : ℤ) then (1 : EReal) else 0) 1) := by
  rw [poolR_apply_raw, poolSumR_apply, ofBits_one_f32]
  have hi : idx_main_v112 (idx_main_v113 (ValueIdx.ix2 v k)) = ValueIdx.ix1 v :=
    funext fun d => match d with | ⟨0, _⟩ => rfl
  rw [hi, poolCountR_apply]

end Cert.ReferenceIdeal.Hand

end
-- ==== Proof.KI.FoldVal.lean ====
import proofs.«417219_j7851200218009_2_alg».proof.Proof.KI.Fold

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat)

variable {F : FTy → Type} [FloatOps F]
variable (m : (ℓ : Loc nD τ sig) → Buf (Elt F) ℓ)

theorem X3_keep (c : Dev nD) (r : Ref sig .tc) (h1 : r ∉ hostOps0_W) (h2 : r ∉ hostOps0_1_W) (h3 : r ∉ hostOps0_2_W) :
    X3 m c r = m ((c : Thread nD τ).loc r) :=
  (Gen.V3_of m c r h3).trans ((Gen.V2_of m c r h2).trans ((Gen.V1_of m c r h1).trans rfl))

theorem step4 (c : Dev nD) (r : Ref sig .tc) (h : r ∉ ([main_v30] : List (Ref sig .tc))) : X4 m c r = X3 m c r := by
  rw [← V4_eq]; exact Gen.V4_of m (outsFn m) c r h

theorem X4_out (c : Dev nD) : X4 m c main_v30 = arr0 m c := by
  unfold X4; exact Function.update_self ..

theorem step5 (c : Dev nD) (r : Ref sig .tc) (h : r ∉ hostOps1_W) : X5 m c r = X4 m c r :=
  StableHlo.after_of_writes_sub hostOps1 _ hostOps1_writes h

theorem step6 (c : Dev nD) (r : Ref sig .tc) (h : r ∉ ([main_v44] : List (Ref sig .tc))) : X6 m c r = X5 m c r := by
  rw [← V6_eq, ← V5_eq]; exact Gen.V6_of m (outsFn m) c r h

theorem X6_out (c : Dev nD) : X6 m c main_v44 = arr1 m c := by
  unfold X6; exact Function.update_self ..

theorem step7 (c : Dev nD) (r : Ref sig .tc) (h : r ∉ ([main_v45] : List (Ref sig .tc))) : X7 m c r = X6 m c r := by
  rw [← V7_eq, ← V6_eq]; exact Gen.V7_of m (outsFn m) c r h

theorem X7_out (c : Dev nD) : X7 m c main_v45 = arr2 m c := by
  unfold X7; exact Function.update_self ..

theorem step8 (c : Dev nD) (r : Ref sig .tc) (h : r ∉ hostOps3_W) : X8 m c r = X7 m c r :=
  StableHlo.after_of_writes_sub hostOps3 _ hostOps3_writes h

theorem step9 (c : Dev nD) (r : Ref sig .tc) (h : r ∉ ([main_v59] : List (Ref sig .tc))) : X9 m c r = X8 m c r := by
  rw [← V9_eq, ← V8_eq]; exact Gen.V9_of m (outsFn m) c r h

theorem X9_out (c : Dev nD) : X9 m c main_v59 = arr3 m c := by
  unfold X9; exact Function.update_self ..

theorem step10 (c : Dev nD) (r : Ref sig .tc) (h : r ∉ ([main_v60] : List (Ref sig .tc))) : X10 m c r = X9 m c r := by
  rw [← V10_eq, ← V9_eq]; exact Gen.V10_of m (outsFn m) c r h

theorem X10_out (c : Dev nD) : X10 m c main_v60 = arr4 m c := by
  unfold X10; exact Function.update_self ..

theorem step11 (c : Dev nD) (r : Ref sig .tc) (h : r ∉ hostOps5_W) : X11 m c r = X10 m c r :=
  StableHlo.after_of_writes_sub hostOps5 _ hostOps5_writes h

theorem step12 (c : Dev nD) (r : Ref sig .tc) (h : r ∉ ([main_v75] : List (Ref sig .tc))) : X12 m c r = X11 m c r := by
  rw [← V12_eq, ← V11_eq]; exact Gen.V12_of m (outsFn m) c r h

theorem X12_out (c : Dev nD) : X12 m c main_v75 = arr5 m c := by
  unfold X12; exact Function.update_self ..

theorem step13 (c : Dev nD) (r : Ref sig .tc) (h : r ∉ ([main_v76] : List (Ref sig .tc))) : X13 m c r = X12 m c r := by
  rw [← V13_eq, ← V12_eq]; exact Gen.V13_of m (outsFn m) c r h

theorem X13_out (c : Dev nD) : X13 m c main_v76 = arr6 m c := by
  unfold X13; exact Function.update_self ..

theorem step14 (c : Dev nD) (r : Ref sig .tc) (h : r ∉ hostOps7_W) : X14 m c r = X13 m c r :=
  StableHlo.after_of_writes_sub hostOps7 _ hostOps7_writes h

theorem step15 (c : Dev nD) (r : Ref sig .tc) (h : r ∉ ([main_v91] : List (Ref sig .tc))) : X15 m c r = X14 m c r := by
  rw [← V15_eq, ← V14_eq]; exact Gen.V15_of m (outsFn m) c r h

theorem X15_out (c : Dev nD) : X15 m c main_v91 = arr7 m c := by
  unfold X15; exact Function.update_self ..

theorem step16 (c : Dev nD) (r : Ref sig .tc) (h : r ∉ hostOps8_W) : X16 m c r = X15 m c r :=
  StableHlo.after_of_writes_sub hostOps8 _ hostOps8_writes h

theorem step17 (c : Dev nD) (r : Ref sig .tc) (h : r ∉ ([main_v93] : List (Ref sig .tc))) : X17 m c r = X16 m c r := by
  rw [← V17_eq, ← V16_eq]; exact Gen.V17_of m (outsFn m) c r h

theorem X17_out (c : Dev nD) : X17 m c main_v93 = arr8 m c := by
  unfold X17; exact Function.update_self ..

end Cert.KernelIdeal.Hand

end
-- ==== Proof.KI.DotAt.lean ====
import proofs.«417219_j7851200218009_2_alg».proof.Proof.Gen.KernelIdeal
import proofs.«417219_j7851200218009_2_alg».proof.Proof.Gen.ReferenceIdeal
import Idealize.ShloMosaic.Lib.ValueIdx
import Idealize.ShloMosaic.PureOps.Ideal.Laws

set_option maxRecDepth 16384

noncomputable section

namespace Cert.KernelIdeal.Hand

open Idealize.ShloMosaic Idealize.ShloMosaic.ValueIdx Idealize.SL.Sem Idealize.ShloMosaic.StableHlo

theorem kdot64_lhs0 (j : Cert.KernelIdeal.S10000x64.Idx) (k : Cert.KernelIdeal.dot_S10000x64_S64x64_S10000x64_1_0_0_1_n_n.contr.Idx) :
    (Cert.KernelIdeal.dot_S10000x64_S64x64_S10000x64_1_0_0_1_n_n.lhsIdx j k 0).val = (j 0).val := by
  unfold DotDims.lhsIdx
  rw [dif_neg (show ¬(0 : Fin Cert.KernelIdeal.S10000x64.rank) ∈ Cert.KernelIdeal.dot_S10000x64_S64x64_S10000x64_1_0_0_1_n_n.lhsBatch by decide),
    dif_pos (show (0 : Fin Cert.KernelIdeal.S10000x64.rank) ∈ Cert.KernelIdeal.dot_S10000x64_S64x64_S10000x64_1_0_0_1_n_n.lhsNonContracting by decide)]
  rfl

theorem kdot64_lhs1 (j : Cert.KernelIdeal.S10000x64.Idx) (k : Cert.KernelIdeal.dot_S10000x64_S64x64_S10000x64_1_0_0_1_n_n.contr.Idx) :
    (Cert.KernelIdeal.dot_S10000x64_S64x64_S10000x64_1_0_0_1_n_n.lhsIdx j k 1).val = (k ⟨0, by decide⟩).val :=
  Cert.KernelIdeal.dot_S10000x64_S64x64_S10000x64_1_0_0_1_n_n.lhsIdx_val_of_single rfl j k

theorem kdot64_rhs0 (j : Cert.KernelIdeal.S10000x64.Idx) (k : Cert.KernelIdeal.dot_S10000x64_S64x64_S10000x64_1_0_0_1_n_n.contr.Idx) :
    (Cert.KernelIdeal.dot_S10000x64_S64x64_S10000x64_1_0_0_1_n_n.rhsIdx j k 0).val = (k ⟨0, by decide⟩).val :=
  Cert.KernelIdeal.dot_S10000x64_S64x64_S10000x64_1_0_0_1_n_n.rhsIdx_val_of_single rfl j k

theorem kdot64_rhs1 (j : Cert.KernelIdeal.S10000x64.Idx) (k : Cert.KernelIdeal.dot_S10000x64_S64x64_S10000x64_1_0_0_1_n_n.contr.Idx) :
    (Cert.KernelIdeal.dot_S10000x64_S64x64_S10000x64_1_0_0_1_n_n.rhsIdx j k 1).val = (j 1).val := by
  unfold DotDims.rhsIdx
  rw [dif_neg (show ¬(1 : Fin Cert.KernelIdeal.S64x64.rank) ∈ Cert.KernelIdeal.dot_S10000x64_S64x64_S10000x64_1_0_0_1_n_n.rhsBatch by decide),
    dif_pos (show (1 : Fin Cert.KernelIdeal.S64x64.rank) ∈ Cert.KernelIdeal.dot_S10000x64_S64x64_S10000x64_1_0_0_1_n_n.rhsNonContracting by decide)]
  rfl

theorem kdot64_at (a : FVec Ideal Cert.KernelIdeal.S10000x64 .bf16) (b : FVec Ideal Cert.KernelIdeal.S64x64 .bf16) (r : Fin 10000) (q : Fin 64) :
    matmul (F := Ideal) Cert.KernelIdeal.dot_S10000x64_S64x64_S10000x64_1_0_0_1_n_n none a b (constant Cert.KernelIdeal.S10000x64 .f32 0x00000000#32) (ix2 r q)
      = ∑ k : Fin 64, a (ix2 r k) * b (ix2 k q) := by
  simp only [matmul]
  rw [Ideal.matmul_constant_zero_apply, ← Equiv.sum_comp (contrEquiv1 Cert.KernelIdeal.dot_S10000x64_S64x64_S10000x64_1_0_0_1_n_n 64 rfl rfl).symm]
  refine Finset.sum_congr rfl fun k _ => ?_
  have hk := contrEquiv1_symm_val Cert.KernelIdeal.dot_S10000x64_S64x64_S10000x64_1_0_0_1_n_n 64 rfl rfl k
  have el : Cert.KernelIdeal.dot_S10000x64_S64x64_S10000x64_1_0_0_1_n_n.lhsIdx (ix2 r q) ((contrEquiv1 Cert.KernelIdeal.dot_S10000x64_S64x64_S10000x64_1_0_0_1_n_n 64 rfl rfl).symm k) = ix2 r k :=
    funext fun x => Fin.ext (by
      match x with
      | ⟨0, _⟩ => exact kdot64_lhs0 _ _
      | ⟨1, _⟩ => exact (kdot64_lhs1 _ _).trans hk)
  have er : Cert.KernelIdeal.dot_S10000x64_S64x64_S10000x64_1_0_0_1_n_n.rhsIdx (ix2 r q) ((contrEquiv1 Cert.KernelIdeal.dot_S10000x64_S64x64_S10000x64_1_0_0_1_n_n 64 rfl rfl).symm k) = ix2 k q :=
    funext fun x => Fin.ext (by
      match x with
      | ⟨0, _⟩ => exact (kdot64_rhs0 _ _).trans hk
      | ⟨1, _⟩ => exact kdot64_rhs1 _ _)
  rw [el, er]

theorem kdot32_lhs0 (j : Cert.KernelIdeal.S10000x32.Idx) (k : Cert.KernelIdeal.dot_S10000x64_S64x32_S10000x32_1_0_0_1_n_n.contr.Idx) :
    (Cert.KernelIdeal.dot_S10000x64_S64x32_S10000x32_1_0_0_1_n_n.lhsIdx j k 0).val = (j 0).val := by
  unfold DotDims.lhsIdx
  rw [dif_neg (show ¬(0 : Fin Cert.KernelIdeal.S10000x64.rank) ∈ Cert.KernelIdeal.dot_S10000x64_S64x32_S10000x32_1_0_0_1_n_n.lhsBatch by decide),
    dif_pos (show (0 : Fin Cert.KernelIdeal.S10000x64.rank) ∈ Cert.KernelIdeal.dot_S10000x64_S64x32_S10000x32_1_0_0_1_n_n.lhsNonContracting by decide)]
  rfl

theorem kdot32_lhs1 (j : Cert.KernelIdeal.S10000x32.Idx) (k : Cert.KernelIdeal.dot_S10000x64_S64x32_S10000x32_1_0_0_1_n_n.contr.Idx) :
    (Cert.KernelIdeal.dot_S10000x64_S64x32_S10000x32_1_0_0_1_n_n.lhsIdx j k 1).val = (k ⟨0, by decide⟩).val :=
  Cert.KernelIdeal.dot_S10000x64_S64x32_S10000x32_1_0_0_1_n_n.lhsIdx_val_of_single rfl j k

theorem kdot32_rhs0 (j : Cert.KernelIdeal.S10000x32.Idx) (k : Cert.KernelIdeal.dot_S10000x64_S64x32_S10000x32_1_0_0_1_n_n.contr.Idx) :
    (Cert.KernelIdeal.dot_S10000x64_S64x32_S10000x32_1_0_0_1_n_n.rhsIdx j k 0).val = (k ⟨0, by decide⟩).val :=
  Cert.KernelIdeal.dot_S10000x64_S64x32_S10000x32_1_0_0_1_n_n.rhsIdx_val_of_single rfl j k

theorem kdot32_rhs1 (j : Cert.KernelIdeal.S10000x32.Idx) (k : Cert.KernelIdeal.dot_S10000x64_S64x32_S10000x32_1_0_0_1_n_n.contr.Idx) :
    (Cert.KernelIdeal.dot_S10000x64_S64x32_S10000x32_1_0_0_1_n_n.rhsIdx j k 1).val = (j 1).val := by
  unfold DotDims.rhsIdx
  rw [dif_neg (show ¬(1 : Fin Cert.KernelIdeal.S64x32.rank) ∈ Cert.KernelIdeal.dot_S10000x64_S64x32_S10000x32_1_0_0_1_n_n.rhsBatch by decide),
    dif_pos (show (1 : Fin Cert.KernelIdeal.S64x32.rank) ∈ Cert.KernelIdeal.dot_S10000x64_S64x32_S10000x32_1_0_0_1_n_n.rhsNonContracting by decide)]
  rfl

theorem kdot32_at (a : FVec Ideal Cert.KernelIdeal.S10000x64 .bf16) (b : FVec Ideal Cert.KernelIdeal.S64x32 .bf16) (r : Fin 10000) (q : Fin 32) :
    matmul (F := Ideal) Cert.KernelIdeal.dot_S10000x64_S64x32_S10000x32_1_0_0_1_n_n none a b (constant Cert.KernelIdeal.S10000x32 .f32 0x00000000#32) (ix2 r q)
      = ∑ k : Fin 64, a (ix2 r k) * b (ix2 k q) := by
  simp only [matmul]
  rw [Ideal.matmul_constant_zero_apply, ← Equiv.sum_comp (contrEquiv1 Cert.KernelIdeal.dot_S10000x64_S64x32_S10000x32_1_0_0_1_n_n 64 rfl rfl).symm]
  refine Finset.sum_congr rfl fun k _ => ?_
  have hk := contrEquiv1_symm_val Cert.KernelIdeal.dot_S10000x64_S64x32_S10000x32_1_0_0_1_n_n 64 rfl rfl k
  have el : Cert.KernelIdeal.dot_S10000x64_S64x32_S10000x32_1_0_0_1_n_n.lhsIdx (ix2 r q) ((contrEquiv1 Cert.KernelIdeal.dot_S10000x64_S64x32_S10000x32_1_0_0_1_n_n 64 rfl rfl).symm k) = ix2 r k :=
    funext fun x => Fin.ext (by
      match x with
      | ⟨0, _⟩ => exact kdot32_lhs0 _ _
      | ⟨1, _⟩ => exact (kdot32_lhs1 _ _).trans hk)
  have er : Cert.KernelIdeal.dot_S10000x64_S64x32_S10000x32_1_0_0_1_n_n.rhsIdx (ix2 r q) ((contrEquiv1 Cert.KernelIdeal.dot_S10000x64_S64x32_S10000x32_1_0_0_1_n_n 64 rfl rfl).symm k) = ix2 k q :=
    funext fun x => Fin.ext (by
      match x with
      | ⟨0, _⟩ => exact (kdot32_rhs0 _ _).trans hk
      | ⟨1, _⟩ => exact kdot32_rhs1 _ _)
  rw [el, er]

theorem rdot64_lhs0 (j : Cert.ReferenceIdeal.S100000x64.Idx) (k : Cert.ReferenceIdeal.dot_S100000x64_S64x64_S100000x64_1_0_0_1_n_n.contr.Idx) :
    (Cert.ReferenceIdeal.dot_S100000x64_S64x64_S100000x64_1_0_0_1_n_n.lhsIdx j k 0).val = (j 0).val := by
  unfold DotDims.lhsIdx
  rw [dif_neg (show ¬(0 : Fin Cert.ReferenceIdeal.S100000x64.rank) ∈ Cert.ReferenceIdeal.dot_S100000x64_S64x64_S100000x64_1_0_0_1_n_n.lhsBatch by decide),
    dif_pos (show (0 : Fin Cert.ReferenceIdeal.S100000x64.rank) ∈ Cert.ReferenceIdeal.dot_S100000x64_S64x64_S100000x64_1_0_0_1_n_n.lhsNonContracting by decide)]
  rfl

theorem rdot64_lhs1 (j : Cert.ReferenceIdeal.S100000x64.Idx) (k : Cert.ReferenceIdeal.dot_S100000x64_S64x64_S100000x64_1_0_0_1_n_n.contr.Idx) :
    (Cert.ReferenceIdeal.dot_S100000x64_S64x64_S100000x64_1_0_0_1_n_n.lhsIdx j k 1).val = (k ⟨0, by decide⟩).val :=
  Cert.ReferenceIdeal.dot_S100000x64_S64x64_S100000x64_1_0_0_1_n_n.lhsIdx_val_of_single rfl j k

theorem rdot64_rhs0 (j : Cert.ReferenceIdeal.S100000x64.Idx) (k : Cert.ReferenceIdeal.dot_S100000x64_S64x64_S100000x64_1_0_0_1_n_n.contr.Idx) :
    (Cert.ReferenceIdeal.dot_S100000x64_S64x64_S100000x64_1_0_0_1_n_n.rhsIdx j k 0).val = (k ⟨0, by decide⟩).val :=
  Cert.ReferenceIdeal.dot_S100000x64_S64x64_S100000x64_1_0_0_1_n_n.rhsIdx_val_of_single rfl j k

theorem rdot64_rhs1 (j : Cert.ReferenceIdeal.S100000x64.Idx) (k : Cert.ReferenceIdeal.dot_S100000x64_S64x64_S100000x64_1_0_0_1_n_n.contr.Idx) :
    (Cert.ReferenceIdeal.dot_S100000x64_S64x64_S100000x64_1_0_0_1_n_n.rhsIdx j k 1).val = (j 1).val := by
  unfold DotDims.rhsIdx
  rw [dif_neg (show ¬(1 : Fin Cert.ReferenceIdeal.S64x64.rank) ∈ Cert.ReferenceIdeal.dot_S100000x64_S64x64_S100000x64_1_0_0_1_n_n.rhsBatch by decide),
    dif_pos (show (1 : Fin Cert.ReferenceIdeal.S64x64.rank) ∈ Cert.ReferenceIdeal.dot_S100000x64_S64x64_S100000x64_1_0_0_1_n_n.rhsNonContracting by decide)]
  rfl

theorem rdot64_at (a : FVec Ideal Cert.ReferenceIdeal.S100000x64 .f32) (b : FVec Ideal Cert.ReferenceIdeal.S64x64 .f32) (r : Fin 100000) (q : Fin 64) :
    Host.dotGeneral (F := Ideal) Cert.ReferenceIdeal.dot_S100000x64_S64x64_S100000x64_1_0_0_1_n_n none a b (ix2 r q)
      = ∑ k : Fin 64, a (ix2 r k) * b (ix2 k q) := by
  simp only [Host.dotGeneral]
  rw [Ideal.dotGeneral_apply, ← Equiv.sum_comp (contrEquiv1 Cert.ReferenceIdeal.dot_S100000x64_S64x64_S100000x64_1_0_0_1_n_n 64 rfl rfl).symm]
  refine Finset.sum_congr rfl fun k _ => ?_
  have hk := contrEquiv1_symm_val Cert.ReferenceIdeal.dot_S100000x64_S64x64_S100000x64_1_0_0_1_n_n 64 rfl rfl k
  have el : Cert.ReferenceIdeal.dot_S100000x64_S64x64_S100000x64_1_0_0_1_n_n.lhsIdx (ix2 r q) ((contrEquiv1 Cert.ReferenceIdeal.dot_S100000x64_S64x64_S100000x64_1_0_0_1_n_n 64 rfl rfl).symm k) = ix2 r k :=
    funext fun x => Fin.ext (by
      match x with
      | ⟨0, _⟩ => exact rdot64_lhs0 _ _
      | ⟨1, _⟩ => exact (rdot64_lhs1 _ _).trans hk)
  have er : Cert.ReferenceIdeal.dot_S100000x64_S64x64_S100000x64_1_0_0_1_n_n.rhsIdx (ix2 r q) ((contrEquiv1 Cert.ReferenceIdeal.dot_S100000x64_S64x64_S100000x64_1_0_0_1_n_n 64 rfl rfl).symm k) = ix2 k q :=
    funext fun x => Fin.ext (by
      match x with
      | ⟨0, _⟩ => exact (rdot64_rhs0 _ _).trans hk
      | ⟨1, _⟩ => exact rdot64_rhs1 _ _)
  rw [el, er]

theorem rdot32_lhs0 (j : Cert.ReferenceIdeal.S100000x32.Idx) (k : Cert.ReferenceIdeal.dot_S100000x64_S64x32_S100000x32_1_0_0_1_n_n.contr.Idx) :
    (Cert.ReferenceIdeal.dot_S100000x64_S64x32_S100000x32_1_0_0_1_n_n.lhsIdx j k 0).val = (j 0).val := by
  unfold DotDims.lhsIdx
  rw [dif_neg (show ¬(0 : Fin Cert.ReferenceIdeal.S100000x64.rank) ∈ Cert.ReferenceIdeal.dot_S100000x64_S64x32_S100000x32_1_0_0_1_n_n.lhsBatch by decide),
    dif_pos (show (0 : Fin Cert.ReferenceIdeal.S100000x64.rank) ∈ Cert.ReferenceIdeal.dot_S100000x64_S64x32_S100000x32_1_0_0_1_n_n.lhsNonContracting by decide)]
  rfl

theorem rdot32_lhs1 (j : Cert.ReferenceIdeal.S100000x32.Idx) (k : Cert.ReferenceIdeal.dot_S100000x64_S64x32_S100000x32_1_0_0_1_n_n.contr.Idx) :
    (Cert.ReferenceIdeal.dot_S100000x64_S64x32_S100000x32_1_0_0_1_n_n.lhsIdx j k 1).val = (k ⟨0, by decide⟩).val :=
  Cert.ReferenceIdeal.dot_S100000x64_S64x32_S100000x32_1_0_0_1_n_n.lhsIdx_val_of_single rfl j k

theorem rdot32_rhs0 (j : Cert.ReferenceIdeal.S100000x32.Idx) (k : Cert.ReferenceIdeal.dot_S100000x64_S64x32_S100000x32_1_0_0_1_n_n.contr.Idx) :
    (Cert.ReferenceIdeal.dot_S100000x64_S64x32_S100000x32_1_0_0_1_n_n.rhsIdx j k 0).val = (k ⟨0, by decide⟩).val :=
  Cert.ReferenceIdeal.dot_S100000x64_S64x32_S100000x32_1_0_0_1_n_n.rhsIdx_val_of_single rfl j k

theorem rdot32_rhs1 (j : Cert.ReferenceIdeal.S100000x32.Idx) (k : Cert.ReferenceIdeal.dot_S100000x64_S64x32_S100000x32_1_0_0_1_n_n.contr.Idx) :
    (Cert.ReferenceIdeal.dot_S100000x64_S64x32_S100000x32_1_0_0_1_n_n.rhsIdx j k 1).val = (j 1).val := by
  unfold DotDims.rhsIdx
  rw [dif_neg (show ¬(1 : Fin Cert.ReferenceIdeal.S64x32.rank) ∈ Cert.ReferenceIdeal.dot_S100000x64_S64x32_S100000x32_1_0_0_1_n_n.rhsBatch by decide),
    dif_pos (show (1 : Fin Cert.ReferenceIdeal.S64x32.rank) ∈ Cert.ReferenceIdeal.dot_S100000x64_S64x32_S100000x32_1_0_0_1_n_n.rhsNonContracting by decide)]
  rfl

theorem rdot32_at (a : FVec Ideal Cert.ReferenceIdeal.S100000x64 .f32) (b : FVec Ideal Cert.ReferenceIdeal.S64x32 .f32) (r : Fin 100000) (q : Fin 32) :
    Host.dotGeneral (F := Ideal) Cert.ReferenceIdeal.dot_S100000x64_S64x32_S100000x32_1_0_0_1_n_n none a b (ix2 r q)
      = ∑ k : Fin 64, a (ix2 r k) * b (ix2 k q) := by
  simp only [Host.dotGeneral]
  rw [Ideal.dotGeneral_apply, ← Equiv.sum_comp (contrEquiv1 Cert.ReferenceIdeal.dot_S100000x64_S64x32_S100000x32_1_0_0_1_n_n 64 rfl rfl).symm]
  refine Finset.sum_congr rfl fun k _ => ?_
  have hk := contrEquiv1_symm_val Cert.ReferenceIdeal.dot_S100000x64_S64x32_S100000x32_1_0_0_1_n_n 64 rfl rfl k
  have el : Cert.ReferenceIdeal.dot_S100000x64_S64x32_S100000x32_1_0_0_1_n_n.lhsIdx (ix2 r q) ((contrEquiv1 Cert.ReferenceIdeal.dot_S100000x64_S64x32_S100000x32_1_0_0_1_n_n 64 rfl rfl).symm k) = ix2 r k :=
    funext fun x => Fin.ext (by
      match x with
      | ⟨0, _⟩ => exact rdot32_lhs0 _ _
      | ⟨1, _⟩ => exact (rdot32_lhs1 _ _).trans hk)
  have er : Cert.ReferenceIdeal.dot_S100000x64_S64x32_S100000x32_1_0_0_1_n_n.rhsIdx (ix2 r q) ((contrEquiv1 Cert.ReferenceIdeal.dot_S100000x64_S64x32_S100000x32_1_0_0_1_n_n 64 rfl rfl).symm k) = ix2 k q :=
    funext fun x => Fin.ext (by
      match x with
      | ⟨0, _⟩ => exact (rdot32_rhs0 _ _).trans hk
      | ⟨1, _⟩ => exact rdot32_rhs1 _ _)
  rw [el, er]

end Cert.KernelIdeal.Hand

end
-- ==== Proof.KI.Val0.lean ====
import proofs.«417219_j7851200218009_2_alg».proof.Proof.KI.R0
import proofs.«417219_j7851200218009_2_alg».proof.Proof.KI.DotAt
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem Idealize.ShloMosaic.StableHlo
open Idealize.ShloMosaic.Pipeline (Dat)

variable (V : (c : Dev nD) → (b : Ref sig .tc) → Buf (Elt Ideal) ((c : Thread nD τ).loc b))

abbrev prod0 (a : S100000x64.Idx → Elt Ideal .f32) (w : S64x64.Idx → Elt Ideal .f32) : S100000x64.Idx → Elt Ideal .f32 :=
  Host.dotGeneral (F := Ideal) (φ₁ := .f32) (φ₂ := .f32) Cert.ReferenceIdeal.dot_S100000x64_S64x64_S100000x64_1_0_0_1_n_n none a w

theorem zero_offsets0 : (![0, 0] : Fin 2 → Nat) = fun _ => 0 := funext fun a => by fin_cases a <;> rfl

theorem pay0_at (x : Vec Ideal S10000x64 .f32) (w : Vec Ideal S64x64 .f32) (r : Fin 10000) (q : Fin 64) :
    k0_pay1 (F := Ideal) x w (ix2 r q) = ∑ k : Fin 64, x (ix2 r k) * w (ix2 k q) := by
  unfold k0_pay1
  refine (kdot64_at _ _ r q).trans (Finset.sum_congr rfl fun k _ => ?_)
  simp only [truncf_apply, shapeCast_self]

theorem blockrow0 (a : S100000x64.Idx → Elt Ideal .f32) (w : S64x64.Idx → Elt Ideal .f32)
    (xb : Vec Ideal S10000x64 .f32) (wb : Vec Ideal S64x64 .f32) (n : Nat) (hn : n < 10)
    (hx : ∀ (r : Fin 10000) (k : Fin 64), xb (ix2 r k) = a (ix2 ⟨n * 10000 + r.val, by omega⟩ k))
    (hw : ∀ (k : Fin 64) (q : Fin 64), wb (ix2 k q) = w (ix2 k q)) (r : Fin 10000) (q : Fin 64) :
    k0_pay1 (F := Ideal) xb wb (ix2 r q) = prod0 a w (ix2 ⟨n * 10000 + r.val, by omega⟩ q) := by
  rw [pay0_at]
  refine ((rdot64_at a w ⟨n * 10000 + r.val, by omega⟩ q).trans ?_).symm
  exact Finset.sum_congr rfl fun k _ => by rw [hx, hw]

theorem blockrow0_idx (a : S100000x64.Idx → Elt Ideal .f32) (w : S64x64.Idx → Elt Ideal .f32)
    (xb : Vec Ideal S10000x64 .f32) (wb : Vec Ideal S64x64 .f32) (n : Nat) (hn : n < 10)
    (hx : ∀ (r : Fin 10000) (k : Fin 64), xb (ix2 r k) = a (ix2 ⟨n * 10000 + r.val, by omega⟩ k))
    (hw : ∀ (k : Fin 64) (q : Fin 64), wb (ix2 k q) = w (ix2 k q)) (j : S10000x64.Idx) :
    k0_pay1 (F := Ideal) xb wb j = prod0 a w (ix2 ⟨n * 10000 + (j 0).val, by have := idx2_lt0 j; omega⟩ (j 1)) := by
  exact (congrArg (k0_pay1 (F := Ideal) xb wb) (eq_ix2 j)).trans (blockrow0 a w xb wb n hn hx hw (j 0) (j 1))

theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem iblk0_0_at (c : Dev nD) (t : Fin cfg0.N) (ht : t.val < 10) (r : Fin 10000) (k : Fin 64) :
    iblk0 V c 0 t (ix2 r k) = V c main_arg0 (ix2 ⟨t.val * 10000 + r.val, by omega⟩ k) := by
  obtain ⟨e0, e1, -⟩ := idx_facts0 t
  show V c main_arg0 (((cfg0.win 0).blk t).view.emb (ix2 r k)) = _
  refine congrArg (V c main_arg0) (funext fun x => Fin.ext ?_)
  match x with
  | ⟨0, _⟩ => show win0_0.index t (0 : Fin 2) * 10000 + 1 * r.val = t.val * 10000 + r.val; omega
  | ⟨1, _⟩ => show win0_0.index t (1 : Fin 2) * 64 + 1 * k.val = k.val; omega

theorem iblk0_1_at (c : Dev nD) (t : Fin cfg0.N) (k : Fin 64) (q : Fin 64) :
    iblk0 V c 1 t (ix2 k q) = V c main_arg3 (ix2 k q) := by
  obtain ⟨-, -, e2, e3, -⟩ := idx_facts0 t
  show V c main_arg3 (((cfg0.win 1).blk t).view.emb (ix2 k q)) = _
  refine congrArg (V c main_arg3) (funext fun x => Fin.ext ?_)
  match x with
  | ⟨0, _⟩ => show win0_1.index t (0 : Fin 2) * 64 + 1 * k.val = k.val; omega
  | ⟨1, _⟩ => show win0_1.index t (1 : Fin 2) * 64 + 1 * q.val = q.val; omega

theorem flushed0_eq (c : Dev nD) (t : Fin cfg0.N) :
    (dat0 V c).flushed 2 t = ((cfg0.win 2).blk t).view.read (Elt Ideal) (prod0 (V c main_arg0) (V c main_arg3)) := by
  show (cfg0.win 2).cut (grid0.coords t) ((dat0 V c).after 2 t) = _
  rw [after0_2]
  unfold out0_2
  rw [View.canon_unit_zero zero_offsets0]
  simp only [View.ld_unit_zero (S := S10000x64) zero_offsets0, View.ld_unit_zero (S := S64x64) zero_offsets0]
  obtain ⟨e0, e1, e2, e3, e4, e5⟩ := idx_facts0 t
  have ht : t.val < 10 := lt_of_lt_of_eq t.isLt N_0
  funext j
  refine (blockrow0_idx (V c main_arg0) (V c main_arg3) _ _ t.val ht (iblk0_0_at V c t ht) (iblk0_1_at V c t) j).trans ?_
  show prod0 (V c main_arg0) (V c main_arg3) _ = prod0 (V c main_arg0) (V c main_arg3) (((cfg0.win 2).blk t).view.emb j)
  refine congrArg (prod0 (V c main_arg0) (V c main_arg3)) (funext fun x => Fin.ext ?_)
  match x with
  | ⟨0, _⟩ => show t.val * 10000 + (j 0).val = win0_2.index t (0 : Fin 2) * 10000 + 1 * (j 0).val; omega
  | ⟨1, _⟩ => show (j 1).val = win0_2.index t (1 : Fin 2) * 64 + 1 * (j 1).val; omega

theorem mem_blk0 (t : Fin cfg0.N) (i : S100000x64.Idx) :
    i ∈ ((cfg0.win 2).blk t).view.set ↔ ∀ a : Fin 2, win0_2.index t a * S10000x64.size a ≤ (i a).val
      ∧ (i a).val < win0_2.index t a * S10000x64.size a + S10000x64.size a := by
  show i ∈ ((View.whole main_v30).slice (win0_2.rect t)).set ↔ _
  rw [View.set_slice_whole, Rect.mem_set_unit]
  exact Iff.rfl

theorem cover0 (i : S100000x64.Idx) :
    ∃ t : Fin cfg0.N, (cfg0.win 2).flush t = true ∧ i ∈ ((cfg0.win 2).blk t).view.set := by
  have hi0 : (i 0).val < 100000 := idx2_lt0 i
  have hi1 : (i 1).val < 64 := idx2_lt1 i
  have hN : (i 0).val / 10000 < cfg0.N := lt_of_lt_of_eq (show (i 0).val / 10000 < 10 by omega) N_0.symm
  refine ⟨⟨(i 0).val / 10000, hN⟩, flush0_2 _, ?_⟩
  obtain ⟨-, -, -, -, e4, e5⟩ := idx_facts0 ⟨(i 0).val / 10000, hN⟩
  rw [mem_blk0]
  intro a
  match a with
  | ⟨0, _⟩ =>
    show win0_2.index ⟨(i 0).val / 10000, hN⟩ (0 : Fin 2) * 10000 ≤ (i 0).val
      ∧ (i 0).val < win0_2.index ⟨(i 0).val / 10000, hN⟩ (0 : Fin 2) * 10000 + 10000
    rw [e4]; show (i 0).val / 10000 * 10000 ≤ (i 0).val ∧ (i 0).val < (i 0).val / 10000 * 10000 + 10000; omega
  | ⟨1, _⟩ =>
    show win0_2.index ⟨(i 0).val / 10000, hN⟩ (1 : Fin 2) * 64 ≤ (i 1).val
      ∧ (i 1).val < win0_2.index ⟨(i 0).val / 10000, hN⟩ (1 : Fin 2) * 64 + 64
    rw [e5]; omega

/-- The row blocks' products tile the output: the array the region leaves is the whole product of its two input arrays. -/
theorem final0 (c : Dev nD) :
    (dat0 (F := Ideal) V c).arrAt 2 cfg0.N
      = Host.dotGeneral (F := Ideal) (φ₁ := .f32) (φ₂ := .f32) Cert.ReferenceIdeal.dot_S100000x64_S64x64_S100000x64_1_0_0_1_n_n none
          (V c main_arg0) (V c main_arg3) :=
  (dat0 V c).arrAt_eq_of_cover 2 (prod0 (V c main_arg0) (V c main_arg3)) (fun t _ => flushed0_eq V c t) cover0

end Cert.KernelIdeal.Hand

end
-- ==== Proof.KI.Val2.lean ====
import proofs.«417219_j7851200218009_2_alg».proof.Proof.KI.R2
import proofs.«417219_j7851200218009_2_alg».proof.Proof.KI.DotAt
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem Idealize.ShloMosaic.StableHlo
open Idealize.ShloMosaic.Pipeline (Dat)

variable (V : (c : Dev nD) → (b : Ref sig .tc) → Buf (Elt Ideal) ((c : Thread nD τ).loc b))

abbrev prod2 (a : S100000x64.Idx → Elt Ideal .f32) (w : S64x64.Idx → Elt Ideal .f32) : S100000x64.Idx → Elt Ideal .f32 :=
  Host.dotGeneral (F := Ideal) (φ₁ := .f32) (φ₂ := .f32) Cert.ReferenceIdeal.dot_S100000x64_S64x64_S100000x64_1_0_0_1_n_n none a w

theorem zero_offsets2 : (![0, 0] : Fin 2 → Nat) = fun _ => 0 := funext fun a => by fin_cases a <;> rfl

theorem pay2_at (x : Vec Ideal S10000x64 .f32) (w : Vec Ideal S64x64 .f32) (r : Fin 10000) (q : Fin 64) :
    k2_pay1 (F := Ideal) x w (ix2 r q) = ∑ k : Fin 64, x (ix2 r k) * w (ix2 k q) := by
  unfold k2_pay1
  refine (kdot64_at _ _ r q).trans (Finset.sum_congr rfl fun k _ => ?_)
  simp only [truncf_apply, shapeCast_self]

theorem blockrow2 (a : S100000x64.Idx → Elt Ideal .f32) (w : S64x64.Idx → Elt Ideal .f32)
    (xb : Vec Ideal S10000x64 .f32) (wb : Vec Ideal S64x64 .f32) (n : Nat) (hn : n < 10)
    (hx : ∀ (r : Fin 10000) (k : Fin 64), xb (ix2 r k) = a (ix2 ⟨n * 10000 + r.val, by omega⟩ k))
    (hw : ∀ (k : Fin 64) (q : Fin 64), wb (ix2 k q) = w (ix2 k q)) (r : Fin 10000) (q : Fin 64) :
    k2_pay1 (F := Ideal) xb wb (ix2 r q) = prod2 a w (ix2 ⟨n * 10000 + r.val, by omega⟩ q) := by
  rw [pay2_at]
  refine ((rdot64_at a w ⟨n * 10000 + r.val, by omega⟩ q).trans ?_).symm
  exact Finset.sum_congr rfl fun k _ => by rw [hx, hw]

theorem blockrow2_idx (a : S100000x64.Idx → Elt Ideal .f32) (w : S64x64.Idx → Elt Ideal .f32)
    (xb : Vec Ideal S10000x64 .f32) (wb : Vec Ideal S64x64 .f32) (n : Nat) (hn : n < 10)
    (hx : ∀ (r : Fin 10000) (k : Fin 64), xb (ix2 r k) = a (ix2 ⟨n * 10000 + r.val, by omega⟩ k))
    (hw : ∀ (k : Fin 64) (q : Fin 64), wb (ix2 k q) = w (ix2 k q)) (j : S10000x64.Idx) :
    k2_pay1 (F := Ideal) xb wb j = prod2 a w (ix2 ⟨n * 10000 + (j 0).val, by have := idx2_lt0 j; omega⟩ (j 1)) := by
  exact (congrArg (k2_pay1 (F := Ideal) xb wb) (eq_ix2 j)).trans (blockrow2 a w xb wb n hn hx hw (j 0) (j 1))

theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

theorem iblk2_0_at (c : Dev nD) (t : Fin cfg2.N) (ht : t.val < 10) (r : Fin 10000) (k : Fin 64) :
    iblk2 V c 0 t (ix2 r k) = V c main_v44 (ix2 ⟨t.val * 10000 + r.val, by omega⟩ k) := by
  obtain ⟨e0, e1, -⟩ := idx_facts2 t
  show V c main_v44 (((cfg2.win 0).blk t).view.emb (ix2 r k)) = _
  refine congrArg (V c main_v44) (funext fun x => Fin.ext ?_)
  match x with
  | ⟨0, _⟩ => show win2_0.index t (0 : Fin 2) * 10000 + 1 * r.val = t.val * 10000 + r.val; omega
  | ⟨1, _⟩ => show win2_0.index t (1 : Fin 2) * 64 + 1 * k.val = k.val; omega

theorem iblk2_1_at (c : Dev nD) (t : Fin cfg2.N) (k : Fin 64) (q : Fin 64) :
    iblk2 V c 1 t (ix2 k q) = V c main_arg4 (ix2 k q) := by
  obtain ⟨-, -, e2, e3, -⟩ := idx_facts2 t
  show V c main_arg4 (((cfg2.win 1).blk t).view.emb (ix2 k q)) = _
  refine congrArg (V c main_arg4) (funext fun x => Fin.ext ?_)
  match x with
  | ⟨0, _⟩ => show win2_1.index t (0 : Fin 2) * 64 + 1 * k.val = k.val; omega
  | ⟨1, _⟩ => show win2_1.index t (1 : Fin 2) * 64 + 1 * q.val = q.val; omega

theorem flushed2_eq (c : Dev nD) (t : Fin cfg2.N) :
    (dat2 V c).flushed 2 t = ((cfg2.win 2).blk t).view.read (Elt Ideal) (prod2 (V c main_v44) (V c main_arg4)) := by
  show (cfg2.win 2).cut (grid2.coords t) ((dat2 V c).after 2 t) = _
  rw [after2_2]
  unfold out2_2
  rw [View.canon_unit_zero zero_offsets2]
  simp only [View.ld_unit_zero (S := S10000x64) zero_offsets2, View.ld_unit_zero (S := S64x64) zero_offsets2]
  obtain ⟨e0, e1, e2, e3, e4, e5⟩ := idx_facts2 t
  have ht : t.val < 10 := lt_of_lt_of_eq t.isLt N_2
  funext j
  refine (blockrow2_idx (V c main_v44) (V c main_arg4) _ _ t.val ht (iblk2_0_at V c t ht) (iblk2_1_at V c t) j).trans ?_
  show prod2 (V c main_v44) (V c main_arg4) _ = prod2 (V c main_v44) (V c main_arg4) (((cfg2.win 2).blk t).view.emb j)
  refine congrArg (prod2 (V c main_v44) (V c main_arg4)) (funext fun x => Fin.ext ?_)
  match x with
  | ⟨0, _⟩ => show t.val * 10000 + (j 0).val = win2_2.index t (0 : Fin 2) * 10000 + 1 * (j 0).val; omega
  | ⟨1, _⟩ => show (j 1).val = win2_2.index t (1 : Fin 2) * 64 + 1 * (j 1).val; omega

theorem mem_blk2 (t : Fin cfg2.N) (i : S100000x64.Idx) :
    i ∈ ((cfg2.win 2).blk t).view.set ↔ ∀ a : Fin 2, win2_2.index t a * S10000x64.size a ≤ (i a).val
      ∧ (i a).val < win2_2.index t a * S10000x64.size a + S10000x64.size a := by
  show i ∈ ((View.whole main_v45).slice (win2_2.rect t)).set ↔ _
  rw [View.set_slice_whole, Rect.mem_set_unit]
  exact Iff.rfl

theorem cover2 (i : S100000x64.Idx) :
    ∃ t : Fin cfg2.N, (cfg2.win 2).flush t = true ∧ i ∈ ((cfg2.win 2).blk t).view.set := by
  have hi0 : (i 0).val < 100000 := idx2_lt0 i
  have hi1 : (i 1).val < 64 := idx2_lt1 i
  have hN : (i 0).val / 10000 < cfg2.N := lt_of_lt_of_eq (show (i 0).val / 10000 < 10 by omega) N_2.symm
  refine ⟨⟨(i 0).val / 10000, hN⟩, flush2_2 _, ?_⟩
  obtain ⟨-, -, -, -, e4, e5⟩ := idx_facts2 ⟨(i 0).val / 10000, hN⟩
  rw [mem_blk2]
  intro a
  match a with
  | ⟨0, _⟩ =>
    show win2_2.index ⟨(i 0).val / 10000, hN⟩ (0 : Fin 2) * 10000 ≤ (i 0).val
      ∧ (i 0).val < win2_2.index ⟨(i 0).val / 10000, hN⟩ (0 : Fin 2) * 10000 + 10000
    rw [e4]; show (i 0).val / 10000 * 10000 ≤ (i 0).val ∧ (i 0).val < (i 0).val / 10000 * 10000 + 10000; omega
  | ⟨1, _⟩ =>
    show win2_2.index ⟨(i 0).val / 10000, hN⟩ (1 : Fin 2) * 64 ≤ (i 1).val
      ∧ (i 1).val < win2_2.index ⟨(i 0).val / 10000, hN⟩ (1 : Fin 2) * 64 + 64
    rw [e5]; omega

/-- The row blocks' products tile the output: the array the region leaves is the whole product of its two input arrays. -/
theorem final2 (c : Dev nD) :
    (dat2 (F := Ideal) V c).arrAt 2 cfg2.N
      = Host.dotGeneral (F := Ideal) (φ₁ := .f32) (φ₂ := .f32) Cert.ReferenceIdeal.dot_S100000x64_S64x64_S100000x64_1_0_0_1_n_n none
          (V c main_v44) (V c main_arg4) :=
  (dat2 V c).arrAt_eq_of_cover 2 (prod2 (V c main_v44) (V c main_arg4)) (fun t _ => flushed2_eq V c t) cover2

end Cert.KernelIdeal.Hand

end
-- ==== Proof.KI.Val4.lean ====
import proofs.«417219_j7851200218009_2_alg».proof.Proof.KI.R4
import proofs.«417219_j7851200218009_2_alg».proof.Proof.KI.DotAt
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem Idealize.ShloMosaic.StableHlo
open Idealize.ShloMosaic.Pipeline (Dat)

variable (V : (c : Dev nD) → (b : Ref sig .tc) → Buf (Elt Ideal) ((c : Thread nD τ).loc b))

abbrev prod4 (a : S100000x64.Idx → Elt Ideal .f32) (w : S64x32.Idx → Elt Ideal .f32) : S100000x32.Idx → Elt Ideal .f32 :=
  Host.dotGeneral (F := Ideal) (φ₁ := .f32) (φ₂ := .f32) Cert.ReferenceIdeal.dot_S100000x64_S64x32_S100000x32_1_0_0_1_n_n none a w

theorem zero_offsets4 : (![0, 0] : Fin 2 → Nat) = fun _ => 0 := funext fun a => by fin_cases a <;> rfl

theorem pay4_at (x : Vec Ideal S10000x64 .f32) (w : Vec Ideal S64x32 .f32) (r : Fin 10000) (q : Fin 32) :
    k4_pay1 (F := Ideal) x w (ix2 r q) = ∑ k : Fin 64, x (ix2 r k) * w (ix2 k q) := by
  unfold k4_pay1
  refine (kdot32_at _ _ r q).trans (Finset.sum_congr rfl fun k _ => ?_)
  simp only [truncf_apply, shapeCast_self]

theorem blockrow4 (a : S100000x64.Idx → Elt Ideal .f32) (w : S64x32.Idx → Elt Ideal .f32)
    (xb : Vec Ideal S10000x64 .f32) (wb : Vec Ideal S64x32 .f32) (n : Nat) (hn : n < 10)
    (hx : ∀ (r : Fin 10000) (k : Fin 64), xb (ix2 r k) = a (ix2 ⟨n * 10000 + r.val, by omega⟩ k))
    (hw : ∀ (k : Fin 64) (q : Fin 32), wb (ix2 k q) = w (ix2 k q)) (r : Fin 10000) (q : Fin 32) :
    k4_pay1 (F := Ideal) xb wb (ix2 r q) = prod4 a w (ix2 ⟨n * 10000 + r.val, by omega⟩ q) := by
  rw [pay4_at]
  refine ((rdot32_at a w ⟨n * 10000 + r.val, by omega⟩ q).trans ?_).symm
  exact Finset.sum_congr rfl fun k _ => by rw [hx, hw]

theorem blockrow4_idx (a : S100000x64.Idx → Elt Ideal .f32) (w : S64x32.Idx → Elt Ideal .f32)
    (xb : Vec Ideal S10000x64 .f32) (wb : Vec Ideal S64x32 .f32) (n : Nat) (hn : n < 10)
    (hx : ∀ (r : Fin 10000) (k : Fin 64), xb (ix2 r k) = a (ix2 ⟨n * 10000 + r.val, by omega⟩ k))
    (hw : ∀ (k : Fin 64) (q : Fin 32), wb (ix2 k q) = w (ix2 k q)) (j : S10000x32.Idx) :
    k4_pay1 (F := Ideal) xb wb j = prod4 a w (ix2 ⟨n * 10000 + (j 0).val, by have := idx2_lt0 j; omega⟩ (j 1)) := by
  exact (congrArg (k4_pay1 (F := Ideal) xb wb) (eq_ix2 j)).trans (blockrow4 a w xb wb n hn hx hw (j 0) (j 1))

theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

theorem iblk4_0_at (c : Dev nD) (t : Fin cfg4.N) (ht : t.val < 10) (r : Fin 10000) (k : Fin 64) :
    iblk4 V c 0 t (ix2 r k) = V c main_v59 (ix2 ⟨t.val * 10000 + r.val, by omega⟩ k) := by
  obtain ⟨e0, e1, -⟩ := idx_facts4 t
  show V c main_v59 (((cfg4.win 0).blk t).view.emb (ix2 r k)) = _
  refine congrArg (V c main_v59) (funext fun x => Fin.ext ?_)
  match x with
  | ⟨0, _⟩ => show win4_0.index t (0 : Fin 2) * 10000 + 1 * r.val = t.val * 10000 + r.val; omega
  | ⟨1, _⟩ => show win4_0.index t (1 : Fin 2) * 64 + 1 * k.val = k.val; omega

theorem iblk4_1_at (c : Dev nD) (t : Fin cfg4.N) (k : Fin 64) (q : Fin 32) :
    iblk4 V c 1 t (ix2 k q) = V c main_arg5 (ix2 k q) := by
  obtain ⟨-, -, e2, e3, -⟩ := idx_facts4 t
  show V c main_arg5 (((cfg4.win 1).blk t).view.emb (ix2 k q)) = _
  refine congrArg (V c main_arg5) (funext fun x => Fin.ext ?_)
  match x with
  | ⟨0, _⟩ => show win4_1.index t (0 : Fin 2) * 64 + 1 * k.val = k.val; omega
  | ⟨1, _⟩ => show win4_1.index t (1 : Fin 2) * 32 + 1 * q.val = q.val; omega

theorem flushed4_eq (c : Dev nD) (t : Fin cfg4.N) :
    (dat4 V c).flushed 2 t = ((cfg4.win 2).blk t).view.read (Elt Ideal) (prod4 (V c main_v59) (V c main_arg5)) := by
  show (cfg4.win 2).cut (grid4.coords t) ((dat4 V c).after 2 t) = _
  rw [after4_2]
  unfold out4_2
  rw [View.canon_unit_zero zero_offsets4]
  simp only [View.ld_unit_zero (S := S10000x64) zero_offsets4, View.ld_unit_zero (S := S64x32) zero_offsets4]
  obtain ⟨e0, e1, e2, e3, e4, e5⟩ := idx_facts4 t
  have ht : t.val < 10 := lt_of_lt_of_eq t.isLt N_4
  funext j
  refine (blockrow4_idx (V c main_v59) (V c main_arg5) _ _ t.val ht (iblk4_0_at V c t ht) (iblk4_1_at V c t) j).trans ?_
  show prod4 (V c main_v59) (V c main_arg5) _ = prod4 (V c main_v59) (V c main_arg5) (((cfg4.win 2).blk t).view.emb j)
  refine congrArg (prod4 (V c main_v59) (V c main_arg5)) (funext fun x => Fin.ext ?_)
  match x with
  | ⟨0, _⟩ => show t.val * 10000 + (j 0).val = win4_2.index t (0 : Fin 2) * 10000 + 1 * (j 0).val; omega
  | ⟨1, _⟩ => show (j 1).val = win4_2.index t (1 : Fin 2) * 32 + 1 * (j 1).val; omega

theorem mem_blk4 (t : Fin cfg4.N) (i : S100000x32.Idx) :
    i ∈ ((cfg4.win 2).blk t).view.set ↔ ∀ a : Fin 2, win4_2.index t a * S10000x32.size a ≤ (i a).val
      ∧ (i a).val < win4_2.index t a * S10000x32.size a + S10000x32.size a := by
  show i ∈ ((View.whole main_v60).slice (win4_2.rect t)).set ↔ _
  rw [View.set_slice_whole, Rect.mem_set_unit]
  exact Iff.rfl

theorem cover4 (i : S100000x32.Idx) :
    ∃ t : Fin cfg4.N, (cfg4.win 2).flush t = true ∧ i ∈ ((cfg4.win 2).blk t).view.set := by
  have hi0 : (i 0).val < 100000 := idx2_lt0 i
  have hi1 : (i 1).val < 32 := idx2_lt1 i
  have hN : (i 0).val / 10000 < cfg4.N := lt_of_lt_of_eq (show (i 0).val / 10000 < 10 by omega) N_4.symm
  refine ⟨⟨(i 0).val / 10000, hN⟩, flush4_2 _, ?_⟩
  obtain ⟨-, -, -, -, e4, e5⟩ := idx_facts4 ⟨(i 0).val / 10000, hN⟩
  rw [mem_blk4]
  intro a
  match a with
  | ⟨0, _⟩ =>
    show win4_2.index ⟨(i 0).val / 10000, hN⟩ (0 : Fin 2) * 10000 ≤ (i 0).val
      ∧ (i 0).val < win4_2.index ⟨(i 0).val / 10000, hN⟩ (0 : Fin 2) * 10000 + 10000
    rw [e4]; show (i 0).val / 10000 * 10000 ≤ (i 0).val ∧ (i 0).val < (i 0).val / 10000 * 10000 + 10000; omega
  | ⟨1, _⟩ =>
    show win4_2.index ⟨(i 0).val / 10000, hN⟩ (1 : Fin 2) * 32 ≤ (i 1).val
      ∧ (i 1).val < win4_2.index ⟨(i 0).val / 10000, hN⟩ (1 : Fin 2) * 32 + 32
    rw [e5]; omega

/-- The row blocks' products tile the output: the array the region leaves is the whole product of its two input arrays. -/
theorem final4 (c : Dev nD) :
    (dat4 (F := Ideal) V c).arrAt 2 cfg4.N
      = Host.dotGeneral (F := Ideal) (φ₁ := .f32) (φ₂ := .f32) Cert.ReferenceIdeal.dot_S100000x64_S64x32_S100000x32_1_0_0_1_n_n none
          (V c main_v59) (V c main_arg5) :=
  (dat4 V c).arrAt_eq_of_cover 2 (prod4 (V c main_v59) (V c main_arg5)) (fun t _ => flushed4_eq V c t) cover4

end Cert.KernelIdeal.Hand

end
-- ==== Proof.KI.Val6.lean ====
import proofs.«417219_j7851200218009_2_alg».proof.Proof.KI.R6
import proofs.«417219_j7851200218009_2_alg».proof.Proof.KI.DotAt
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem Idealize.ShloMosaic.StableHlo
open Idealize.ShloMosaic.Pipeline (Dat)

variable (V : (c : Dev nD) → (b : Ref sig .tc) → Buf (Elt Ideal) ((c : Thread nD τ).loc b))

abbrev prod6 (a : S100000x64.Idx → Elt Ideal .f32) (w : S64x32.Idx → Elt Ideal .f32) : S100000x32.Idx → Elt Ideal .f32 :=
  Host.dotGeneral (F := Ideal) (φ₁ := .f32) (φ₂ := .f32) Cert.ReferenceIdeal.dot_S100000x64_S64x32_S100000x32_1_0_0_1_n_n none a w

theorem zero_offsets6 : (![0, 0] : Fin 2 → Nat) = fun _ => 0 := funext fun a => by fin_cases a <;> rfl

theorem pay6_at (x : Vec Ideal S10000x64 .f32) (w : Vec Ideal S64x32 .f32) (r : Fin 10000) (q : Fin 32) :
    k6_pay1 (F := Ideal) x w (ix2 r q) = ∑ k : Fin 64, x (ix2 r k) * w (ix2 k q) := by
  unfold k6_pay1
  refine (kdot32_at _ _ r q).trans (Finset.sum_congr rfl fun k _ => ?_)
  simp only [truncf_apply, shapeCast_self]

theorem blockrow6 (a : S100000x64.Idx → Elt Ideal .f32) (w : S64x32.Idx → Elt Ideal .f32)
    (xb : Vec Ideal S10000x64 .f32) (wb : Vec Ideal S64x32 .f32) (n : Nat) (hn : n < 10)
    (hx : ∀ (r : Fin 10000) (k : Fin 64), xb (ix2 r k) = a (ix2 ⟨n * 10000 + r.val, by omega⟩ k))
    (hw : ∀ (k : Fin 64) (q : Fin 32), wb (ix2 k q) = w (ix2 k q)) (r : Fin 10000) (q : Fin 32) :
    k6_pay1 (F := Ideal) xb wb (ix2 r q) = prod6 a w (ix2 ⟨n * 10000 + r.val, by omega⟩ q) := by
  rw [pay6_at]
  refine ((rdot32_at a w ⟨n * 10000 + r.val, by omega⟩ q).trans ?_).symm
  exact Finset.sum_congr rfl fun k _ => by rw [hx, hw]

theorem blockrow6_idx (a : S100000x64.Idx → Elt Ideal .f32) (w : S64x32.Idx → Elt Ideal .f32)
    (xb : Vec Ideal S10000x64 .f32) (wb : Vec Ideal S64x32 .f32) (n : Nat) (hn : n < 10)
    (hx : ∀ (r : Fin 10000) (k : Fin 64), xb (ix2 r k) = a (ix2 ⟨n * 10000 + r.val, by omega⟩ k))
    (hw : ∀ (k : Fin 64) (q : Fin 32), wb (ix2 k q) = w (ix2 k q)) (j : S10000x32.Idx) :
    k6_pay1 (F := Ideal) xb wb j = prod6 a w (ix2 ⟨n * 10000 + (j 0).val, by have := idx2_lt0 j; omega⟩ (j 1)) := by
  exact (congrArg (k6_pay1 (F := Ideal) xb wb) (eq_ix2 j)).trans (blockrow6 a w xb wb n hn hx hw (j 0) (j 1))

theorem idx_facts6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

theorem iblk6_0_at (c : Dev nD) (t : Fin cfg6.N) (ht : t.val < 10) (r : Fin 10000) (k : Fin 64) :
    iblk6 V c 0 t (ix2 r k) = V c main_v59 (ix2 ⟨t.val * 10000 + r.val, by omega⟩ k) := by
  obtain ⟨e0, e1, -⟩ := idx_facts6 t
  show V c main_v59 (((cfg6.win 0).blk t).view.emb (ix2 r k)) = _
  refine congrArg (V c main_v59) (funext fun x => Fin.ext ?_)
  match x with
  | ⟨0, _⟩ => show win6_0.index t (0 : Fin 2) * 10000 + 1 * r.val = t.val * 10000 + r.val; omega
  | ⟨1, _⟩ => show win6_0.index t (1 : Fin 2) * 64 + 1 * k.val = k.val; omega

theorem iblk6_1_at (c : Dev nD) (t : Fin cfg6.N) (k : Fin 64) (q : Fin 32) :
    iblk6 V c 1 t (ix2 k q) = V c main_arg7 (ix2 k q) := by
  obtain ⟨-, -, e2, e3, -⟩ := idx_facts6 t
  show V c main_arg7 (((cfg6.win 1).blk t).view.emb (ix2 k q)) = _
  refine congrArg (V c main_arg7) (funext fun x => Fin.ext ?_)
  match x with
  | ⟨0, _⟩ => show win6_1.index t (0 : Fin 2) * 64 + 1 * k.val = k.val; omega
  | ⟨1, _⟩ => show win6_1.index t (1 : Fin 2) * 32 + 1 * q.val = q.val; omega

theorem flushed6_eq (c : Dev nD) (t : Fin cfg6.N) :
    (dat6 V c).flushed 2 t = ((cfg6.win 2).blk t).view.read (Elt Ideal) (prod6 (V c main_v59) (V c main_arg7)) := by
  show (cfg6.win 2).cut (grid6.coords t) ((dat6 V c).after 2 t) = _
  rw [after6_2]
  unfold out6_2
  rw [View.canon_unit_zero zero_offsets6]
  simp only [View.ld_unit_zero (S := S10000x64) zero_offsets6, View.ld_unit_zero (S := S64x32) zero_offsets6]
  obtain ⟨e0, e1, e2, e3, e4, e5⟩ := idx_facts6 t
  have ht : t.val < 10 := lt_of_lt_of_eq t.isLt N_6
  funext j
  refine (blockrow6_idx (V c main_v59) (V c main_arg7) _ _ t.val ht (iblk6_0_at V c t ht) (iblk6_1_at V c t) j).trans ?_
  show prod6 (V c main_v59) (V c main_arg7) _ = prod6 (V c main_v59) (V c main_arg7) (((cfg6.win 2).blk t).view.emb j)
  refine congrArg (prod6 (V c main_v59) (V c main_arg7)) (funext fun x => Fin.ext ?_)
  match x with
  | ⟨0, _⟩ => show t.val * 10000 + (j 0).val = win6_2.index t (0 : Fin 2) * 10000 + 1 * (j 0).val; omega
  | ⟨1, _⟩ => show (j 1).val = win6_2.index t (1 : Fin 2) * 32 + 1 * (j 1).val; omega

theorem mem_blk6 (t : Fin cfg6.N) (i : S100000x32.Idx) :
    i ∈ ((cfg6.win 2).blk t).view.set ↔ ∀ a : Fin 2, win6_2.index t a * S10000x32.size a ≤ (i a).val
      ∧ (i a).val < win6_2.index t a * S10000x32.size a + S10000x32.size a := by
  show i ∈ ((View.whole main_v76).slice (win6_2.rect t)).set ↔ _
  rw [View.set_slice_whole, Rect.mem_set_unit]
  exact Iff.rfl

theorem cover6 (i : S100000x32.Idx) :
    ∃ t : Fin cfg6.N, (cfg6.win 2).flush t = true ∧ i ∈ ((cfg6.win 2).blk t).view.set := by
  have hi0 : (i 0).val < 100000 := idx2_lt0 i
  have hi1 : (i 1).val < 32 := idx2_lt1 i
  have hN : (i 0).val / 10000 < cfg6.N := lt_of_lt_of_eq (show (i 0).val / 10000 < 10 by omega) N_6.symm
  refine ⟨⟨(i 0).val / 10000, hN⟩, flush6_2 _, ?_⟩
  obtain ⟨-, -, -, -, e4, e5⟩ := idx_facts6 ⟨(i 0).val / 10000, hN⟩
  rw [mem_blk6]
  intro a
  match a with
  | ⟨0, _⟩ =>
    show win6_2.index ⟨(i 0).val / 10000, hN⟩ (0 : Fin 2) * 10000 ≤ (i 0).val
      ∧ (i 0).val < win6_2.index ⟨(i 0).val / 10000, hN⟩ (0 : Fin 2) * 10000 + 10000
    rw [e4]; show (i 0).val / 10000 * 10000 ≤ (i 0).val ∧ (i 0).val < (i 0).val / 10000 * 10000 + 10000; omega
  | ⟨1, _⟩ =>
    show win6_2.index ⟨(i 0).val / 10000, hN⟩ (1 : Fin 2) * 32 ≤ (i 1).val
      ∧ (i 1).val < win6_2.index ⟨(i 0).val / 10000, hN⟩ (1 : Fin 2) * 32 + 32
    rw [e5]; omega

/-- The row blocks' products tile the output: the array the region leaves is the whole product of its two input arrays. -/
theorem final6 (c : Dev nD) :
    (dat6 (F := Ideal) V c).arrAt 2 cfg6.N
      = Host.dotGeneral (F := Ideal) (φ₁ := .f32) (φ₂ := .f32) Cert.ReferenceIdeal.dot_S100000x64_S64x32_S100000x32_1_0_0_1_n_n none
          (V c main_v59) (V c main_arg7) :=
  (dat6 V c).arrAt_eq_of_cover 2 (prod6 (V c main_v59) (V c main_arg7)) (fun t _ => flushed6_eq V c t) cover6

end Cert.KernelIdeal.Hand

end
-- ==== Proof.KI.Val1.lean ====
import proofs.«417219_j7851200218009_2_alg».proof.Proof.KI.R1
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz1 : (![0, 0] : Fin 2 → Nat) = fun _ => 0 := funext fun a => by fin_cases a <;> rfl

def leaky {s : Shape} (a : FVec Ideal s .f32) : FVec Ideal s .f32 :=
  select (cmpf .ogt a (broadcast s (Scalar.ofBits (F := Ideal) .f32 0x00000000#32))) a
    (mulf (broadcast s (Scalar.ofBits (F := Ideal) .f32 0x3E99999A#32)) a)

theorem leaky_apply {s : Shape} (a : FVec Ideal s .f32) (i : s.Idx) :
    leaky a i = Scalar.select (Ideal.cmp .ogt (a i) 0) (a i) (Ideal.ofBits .f32 0x3E99999A#32 * a i) := by
  show Scalar.select (Ideal.cmp .ogt (a i) (Ideal.ofBits .f32 0x00000000#32)) (a i) (Ideal.ofBits .f32 0x3E99999A#32 * a i) = _
  rw [Ideal.ofBits_zero_f32]

theorem pay1_eq (x : Vec Ideal S10000x64 .f32) : k1_pay1 x = leaky x := by
  unfold k1_pay1 leaky
  rw [shapeCast_self]

theorem idx_facts1 : ∀ t : Fin cfg1.N, win1_0.index t (0 : Fin 2) = win1_1.index t (0 : Fin 2)
    ∧ win1_0.index t (1 : Fin 2) = win1_1.index t (1 : Fin 2)
    ∧ win1_1.index t (0 : Fin 2) ≤ 9 ∧ win1_1.index t (1 : Fin 2) = 0 :=
  (by decide +kernel : ∀ t : Fin grid1.N, _)

theorem idx_onto1 : ∀ q0 : Fin 10, ∃ t : Fin cfg1.N, win1_1.index t = ![q0.val, 0] :=
  (by decide +kernel : ∀ q0 : Fin 10, ∃ t : Fin grid1.N, win1_1.index t = ![q0.val, 0])

theorem flushed1_eq (c : Dev nD) (t : Fin cfg1.N) :
    (dat1 V c).flushed 1 t = ((cfg1.win 1).blk t).view.read (Elt Ideal) (leaky (V c main_v43)) := by
  show (cfg1.win 1).cut (grid1.coords t) ((dat1 V c).after 1 t) = _
  rw [after1_1]
  unfold out1_1
  rw [View.canon_unit_zero hz1]
  simp only [View.ld_unit_zero (S := S10000x64) hz1]
  rw [pay1_eq]
  obtain ⟨e0, e1, e2, e3⟩ := idx_facts1 t
  funext j
  show leaky (iblk1 V c 0 t) j = leaky (V c main_v43) (((cfg1.win 1).blk t).view.emb j)
  rw [leaky_apply, leaky_apply]
  have h0 : iblk1 V c 0 t j = V c main_v43 (((cfg1.win 1).blk t).view.emb j) := by
    show V c main_v43 (((cfg1.win 0).blk t).view.emb j) = V c main_v43 (((cfg1.win 1).blk t).view.emb j)
    refine congrArg (V c main_v43) ?_
    funext a; apply Fin.ext
    match a with
    | ⟨0, _⟩ => show win1_0.index t (0 : Fin 2) * 10000 + 1 * (j 0).val = win1_1.index t (0 : Fin 2) * 10000 + 1 * (j 0).val; omega
    | ⟨1, _⟩ => show win1_0.index t (1 : Fin 2) * 64 + 1 * (j 1).val = win1_1.index t (1 : Fin 2) * 64 + 1 * (j 1).val; omega
  rw [h0]

theorem mem_blk1 (t : Fin cfg1.N) (i : S100000x64.Idx) :
    i ∈ ((cfg1.win 1).blk t).view.set ↔ ∀ a : Fin 2, win1_1.index t a * S10000x64.size a ≤ (i a).val ∧ (i a).val < win1_1.index t a * S10000x64.size a + S10000x64.size a := by
  show i ∈ ((View.whole main_v44).slice (win1_1.rect t)).set ↔ _
  rw [View.set_slice_whole, Rect.mem_set_unit]
  exact Iff.rfl

theorem cover1 (i : S100000x64.Idx) : ∃ t : Fin cfg1.N, (cfg1.win 1).flush t = true ∧ i ∈ ((cfg1.win 1).blk t).view.set := by
  have hi0 : (i 0).val < 100000 := (i 0).isLt
  have hi1 : (i 1).val < 64 := (i 1).isLt
  obtain ⟨t, ht⟩ := idx_onto1 ⟨(i 0).val / 10000, by omega⟩
  have q0 : win1_1.index t (0 : Fin 2) = (i 0).val / 10000 := congrFun ht 0
  have q1 : win1_1.index t (1 : Fin 2) = 0 := congrFun ht 1
  refine ⟨t, flush1_1 t, ?_⟩
  rw [mem_blk1]
  intro a
  match a with
  | ⟨0, _⟩ => show win1_1.index t (0 : Fin 2) * 10000 ≤ (i 0).val ∧ (i 0).val < win1_1.index t (0 : Fin 2) * 10000 + 10000; omega
  | ⟨1, _⟩ => show win1_1.index t (1 : Fin 2) * 64 ≤ (i 1).val ∧ (i 1).val < win1_1.index t (1 : Fin 2) * 64 + 64; omega

/-- Block by block the leaky rectifier is applied pointwise, and the blocks tile the output. -/
theorem final1_eq (c : Dev nD) : (dat1 V c).arrAt 1 cfg1.N = leaky (V c main_v43) :=
  (dat1 V c).arrAt_eq_of_cover 1 _ (fun t _ => flushed1_eq V c t) cover1

theorem final1 (c : Dev nD) (i : S100000x64.Idx) :
    (dat1 V c).arrAt 1 cfg1.N i
      = select (cmpf .ogt (V c main_v43) (broadcast S100000x64 (Scalar.ofBits (F := Ideal) .f32 0x00000000#32))) (V c main_v43)
          (mulf (broadcast S100000x64 (Scalar.ofBits (F := Ideal) .f32 0x3E99999A#32)) (V c main_v43)) i :=
  congrFun (final1_eq V c) i

theorem final1_scalar (c : Dev nD) (i : S100000x64.Idx) :
    (dat1 V c).arrAt 1 cfg1.N i
      = Scalar.select (Ideal.cmp .ogt (V c main_v43 i) 0) (V c main_v43 i) (Ideal.ofBits .f32 0x3E99999A#32 * V c main_v43 i) :=
  (congrFun (final1_eq V c) i).trans (leaky_apply _ i)

end Cert.KernelIdeal.Hand

end
-- ==== Proof.KI.Val3.lean ====
import proofs.«417219_j7851200218009_2_alg».proof.Proof.KI.R3
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz3 : (![0, 0] : Fin 2 → Nat) = fun _ => 0 := funext fun a => by fin_cases a <;> rfl

def relu {s : Shape} (a : FVec Ideal s .f32) : FVec Ideal s .f32 :=
  maximumf a (broadcast s (Scalar.ofBits (F := Ideal) .f32 0x00000000#32))

theorem relu_apply {s : Shape} (a : FVec Ideal s .f32) (i : s.Idx) : relu a i = max (a i) 0 := by
  show max (a i) (Ideal.ofBits .f32 0x00000000#32) = _
  rw [Ideal.ofBits_zero_f32]

theorem pay3_eq (x : Vec Ideal S10000x64 .f32) : k3_pay1 x = relu x := by
  unfold k3_pay1 relu
  rw [shapeCast_self]

theorem idx_facts3 : ∀ t : Fin cfg3.N, win3_0.index t (0 : Fin 2) = win3_1.index t (0 : Fin 2)
    ∧ win3_0.index t (1 : Fin 2) = win3_1.index t (1 : Fin 2)
    ∧ win3_1.index t (0 : Fin 2) ≤ 9 ∧ win3_1.index t (1 : Fin 2) = 0 :=
  (by decide +kernel : ∀ t : Fin grid3.N, _)

theorem idx_onto3 : ∀ q0 : Fin 10, ∃ t : Fin cfg3.N, win3_1.index t = ![q0.val, 0] :=
  (by decide +kernel : ∀ q0 : Fin 10, ∃ t : Fin grid3.N, win3_1.index t = ![q0.val, 0])

theorem flushed3_eq (c : Dev nD) (t : Fin cfg3.N) :
    (dat3 V c).flushed 1 t = ((cfg3.win 1).blk t).view.read (Elt Ideal) (relu (V c main_v58)) := by
  show (cfg3.win 1).cut (grid3.coords t) ((dat3 V c).after 1 t) = _
  rw [after3_1]
  unfold out3_1
  rw [View.canon_unit_zero hz3]
  simp only [View.ld_unit_zero (S := S10000x64) hz3]
  rw [pay3_eq]
  obtain ⟨e0, e1, e2, e3⟩ := idx_facts3 t
  funext j
  show relu (iblk3 V c 0 t) j = relu (V c main_v58) (((cfg3.win 1).blk t).view.emb j)
  rw [relu_apply, relu_apply]
  have h0 : iblk3 V c 0 t j = V c main_v58 (((cfg3.win 1).blk t).view.emb j) := by
    show V c main_v58 (((cfg3.win 0).blk t).view.emb j) = V c main_v58 (((cfg3.win 1).blk t).view.emb j)
    refine congrArg (V c main_v58) ?_
    funext a; apply Fin.ext
    match a with
    | ⟨0, _⟩ => show win3_0.index t (0 : Fin 2) * 10000 + 1 * (j 0).val = win3_1.index t (0 : Fin 2) * 10000 + 1 * (j 0).val; omega
    | ⟨1, _⟩ => show win3_0.index t (1 : Fin 2) * 64 + 1 * (j 1).val = win3_1.index t (1 : Fin 2) * 64 + 1 * (j 1).val; omega
  rw [h0]

theorem mem_blk3 (t : Fin cfg3.N) (i : S100000x64.Idx) :
    i ∈ ((cfg3.win 1).blk t).view.set ↔ ∀ a : Fin 2, win3_1.index t a * S10000x64.size a ≤ (i a).val ∧ (i a).val < win3_1.index t a * S10000x64.size a + S10000x64.size a := by
  show i ∈ ((View.whole main_v59).slice (win3_1.rect t)).set ↔ _
  rw [View.set_slice_whole, Rect.mem_set_unit]
  exact Iff.rfl

theorem cover3 (i : S100000x64.Idx) : ∃ t : Fin cfg3.N, (cfg3.win 1).flush t = true ∧ i ∈ ((cfg3.win 1).blk t).view.set := by
  have hi0 : (i 0).val < 100000 := (i 0).isLt
  have hi1 : (i 1).val < 64 := (i 1).isLt
  obtain ⟨t, ht⟩ := idx_onto3 ⟨(i 0).val / 10000, by omega⟩
  have q0 : win3_1.index t (0 : Fin 2) = (i 0).val / 10000 := congrFun ht 0
  have q1 : win3_1.index t (1 : Fin 2) = 0 := congrFun ht 1
  refine ⟨t, flush3_1 t, ?_⟩
  rw [mem_blk3]
  intro a
  match a with
  | ⟨0, _⟩ => show win3_1.index t (0 : Fin 2) * 10000 ≤ (i 0).val ∧ (i 0).val < win3_1.index t (0 : Fin 2) * 10000 + 10000; omega
  | ⟨1, _⟩ => show win3_1.index t (1 : Fin 2) * 64 ≤ (i 1).val ∧ (i 1).val < win3_1.index t (1 : Fin 2) * 64 + 64; omega

/-- Block by block the rectifier is applied pointwise, and the blocks tile the output. -/
theorem final3_eq (c : Dev nD) : (dat3 V c).arrAt 1 cfg3.N = relu (V c main_v58) :=
  (dat3 V c).arrAt_eq_of_cover 1 _ (fun t _ => flushed3_eq V c t) cover3

theorem final3 (c : Dev nD) (i : S100000x64.Idx) :
    (dat3 V c).arrAt 1 cfg3.N i
      = maximumf (V c main_v58) (broadcast S100000x64 (Scalar.ofBits (F := Ideal) .f32 0x00000000#32)) i :=
  congrFun (final3_eq V c) i

theorem final3_scalar (c : Dev nD) (i : S100000x64.Idx) :
    (dat3 V c).arrAt 1 cfg3.N i = @max EReal _ (V c main_v58 i) 0 :=
  (congrFun (final3_eq V c) i).trans (relu_apply _ i)

end Cert.KernelIdeal.Hand

end
-- ==== Proof.KI.Val5.lean ====
import proofs.«417219_j7851200218009_2_alg».proof.Proof.KI.R5
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz5 : (![0, 0] : Fin 2 → Nat) = fun _ => 0 := funext fun a => by fin_cases a <;> rfl

def rowAdd5 (a : S100000x32.Idx → EReal) (b : S1x32.Idx → EReal) : S100000x32.Idx → EReal :=
  fun i => a i + b (ix2 (0 : Fin 1) (i 1 : Fin 32))

theorem rowAdd5_apply (a : S100000x32.Idx → EReal) (b : S1x32.Idx → EReal) (i : S100000x32.Idx) :
    rowAdd5 a b i = a i + b (ix2 (0 : Fin 1) (i 1 : Fin 32)) := rfl

theorem pay5_apply (x0 : Vec Ideal S10000x32 .f32) (x1 : Vec Ideal S1x32 .f32) (j : S10000x32.Idx) :
    k5_pay1 x0 x1 j = x0 j + x1 (ix2 (0 : Fin 1) (j 1 : Fin 32)) := by
  unfold k5_pay1
  rw [shapeCast_self, shapeCast_self, addf_apply]
  refine congrArg (fun z => x0 j + z) ?_
  exact broadcastTo_apply x1 broadcasts_S1x32_S10000x32 j (ix2 (0 : Fin 1) (j 1 : Fin 32))
    (fun a => by match a with | ⟨0, _⟩ => rfl | ⟨1, _⟩ => rfl)

theorem idx_facts5 : ∀ t : Fin cfg5.N, win5_0.index t (0 : Fin 2) = win5_2.index t (0 : Fin 2)
    ∧ win5_0.index t (1 : Fin 2) = win5_2.index t (1 : Fin 2)
    ∧ win5_1.index t (0 : Fin 2) = 0 ∧ win5_1.index t (1 : Fin 2) = 0
    ∧ win5_2.index t (0 : Fin 2) ≤ 9 ∧ win5_2.index t (1 : Fin 2) = 0 :=
  (by decide +kernel : ∀ t : Fin grid5.N, _)

theorem idx_onto5 : ∀ q0 : Fin 10, ∃ t : Fin cfg5.N, win5_2.index t = ![q0.val, 0] :=
  (by decide +kernel : ∀ q0 : Fin 10, ∃ t : Fin grid5.N, win5_2.index t = ![q0.val, 0])

theorem flushed5_eq (c : Dev nD) (t : Fin cfg5.N) :
    (dat5 V c).flushed 2 t = ((cfg5.win 2).blk t).view.read (Elt Ideal) (rowAdd5 (V c main_v73) (V c main_v74)) := by
  show (cfg5.win 2).cut (grid5.coords t) ((dat5 V c).after 2 t) = _
  rw [after5_2]
  unfold out5_2
  rw [View.canon_unit_zero hz5]
  simp only [View.ld_unit_zero (S := S10000x32) hz5, View.ld_unit_zero (S := S1x32) hz5]
  obtain ⟨e0, e1, e2, e3, e4, e5⟩ := idx_facts5 t
  funext j
  refine (pay5_apply (iblk5 V c 0 t) (iblk5 V c 1 t) j).trans ?_
  have h0 : iblk5 V c 0 t j = V c main_v73 (((cfg5.win 2).blk t).view.emb j) := by
    show V c main_v73 (((cfg5.win 0).blk t).view.emb j) = V c main_v73 (((cfg5.win 2).blk t).view.emb j)
    refine congrArg (V c main_v73) ?_
    funext a; apply Fin.ext
    match a with
    | ⟨0, _⟩ => show win5_0.index t (0 : Fin 2) * 10000 + 1 * (j 0).val = win5_2.index t (0 : Fin 2) * 10000 + 1 * (j 0).val; omega
    | ⟨1, _⟩ => show win5_0.index t (1 : Fin 2) * 32 + 1 * (j 1).val = win5_2.index t (1 : Fin 2) * 32 + 1 * (j 1).val; omega
  have h1 : iblk5 V c 1 t (ix2 (0 : Fin 1) (j 1 : Fin 32))
      = V c main_v74 (ix2 (0 : Fin 1) ((((cfg5.win 2).blk t).view.emb j) 1 : Fin 32)) := by
    show V c main_v74 (((cfg5.win 1).blk t).view.emb (ix2 (0 : Fin 1) (j 1 : Fin 32))) = _
    refine congrArg (V c main_v74) ?_
    funext a; apply Fin.ext
    match a with
    | ⟨0, _⟩ => show win5_1.index t (0 : Fin 2) * 1 + 1 * 0 = 0; omega
    | ⟨1, _⟩ => show win5_1.index t (1 : Fin 2) * 32 + 1 * (j 1).val = win5_2.index t (1 : Fin 2) * 32 + 1 * (j 1).val; omega
  rw [h0, h1]
  rfl

theorem mem_blk5 (t : Fin cfg5.N) (i : S100000x32.Idx) :
    i ∈ ((cfg5.win 2).blk t).view.set ↔ ∀ a : Fin 2, win5_2.index t a * S10000x32.size a ≤ (i a).val ∧ (i a).val < win5_2.index t a * S10000x32.size a + S10000x32.size a := by
  show i ∈ ((View.whole main_v75).slice (win5_2.rect t)).set ↔ _
  rw [View.set_slice_whole, Rect.mem_set_unit]
  exact Iff.rfl

theorem cover5 (i : S100000x32.Idx) : ∃ t : Fin cfg5.N, (cfg5.win 2).flush t = true ∧ i ∈ ((cfg5.win 2).blk t).view.set := by
  have hi0 : (i 0).val < 100000 := (i 0).isLt
  have hi1 : (i 1).val < 32 := (i 1).isLt
  obtain ⟨t, ht⟩ := idx_onto5 ⟨(i 0).val / 10000, by omega⟩
  have q0 : win5_2.index t (0 : Fin 2) = (i 0).val / 10000 := congrFun ht 0
  have q1 : win5_2.index t (1 : Fin 2) = 0 := congrFun ht 1
  refine ⟨t, flush5_2 t, ?_⟩
  rw [mem_blk5]
  intro a
  match a with
  | ⟨0, _⟩ => show win5_2.index t (0 : Fin 2) * 10000 ≤ (i 0).val ∧ (i 0).val < win5_2.index t (0 : Fin 2) * 10000 + 10000; omega
  | ⟨1, _⟩ => show win5_2.index t (1 : Fin 2) * 32 ≤ (i 1).val ∧ (i 1).val < win5_2.index t (1 : Fin 2) * 32 + 32; omega

/-- Block by block every row has the bias row added, and the blocks tile the output. -/
theorem final5_eq (c : Dev nD) : (dat5 V c).arrAt 2 cfg5.N = rowAdd5 (V c main_v73) (V c main_v74) :=
  (dat5 V c).arrAt_eq_of_cover 2 _ (fun t _ => flushed5_eq V c t) cover5

theorem final5 (c : Dev nD) (i : S100000x32.Idx) :
    (dat5 V c).arrAt 2 cfg5.N i = rowAdd5 (V c main_v73) (V c main_v74) i :=
  congrFun (final5_eq V c) i

end Cert.KernelIdeal.Hand

end
-- ==== Proof.KI.Val7.lean ====
import proofs.«417219_j7851200218009_2_alg».proof.Proof.KI.R7
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz7 : (![0, 0] : Fin 2 → Nat) = fun _ => 0 := funext fun a => by fin_cases a <;> rfl

def rowAdd7 (a : S100000x32.Idx → EReal) (b : S1x32.Idx → EReal) : S100000x32.Idx → EReal :=
  fun i => a i + b (ix2 (0 : Fin 1) (i 1 : Fin 32))

theorem rowAdd7_apply (a : S100000x32.Idx → EReal) (b : S1x32.Idx → EReal) (i : S100000x32.Idx) :
    rowAdd7 a b i = a i + b (ix2 (0 : Fin 1) (i 1 : Fin 32)) := rfl

theorem pay7_apply (x0 : Vec Ideal S10000x32 .f32) (x1 : Vec Ideal S1x32 .f32) (j : S10000x32.Idx) :
    k7_pay1 x0 x1 j = x0 j + x1 (ix2 (0 : Fin 1) (j 1 : Fin 32)) := by
  unfold k7_pay1
  rw [shapeCast_self, shapeCast_self, addf_apply]
  refine congrArg (fun z => x0 j + z) ?_
  exact broadcastTo_apply x1 broadcasts_S1x32_S10000x32 j (ix2 (0 : Fin 1) (j 1 : Fin 32))
    (fun a => by match a with | ⟨0, _⟩ => rfl | ⟨1, _⟩ => rfl)

theorem idx_facts7 : ∀ t : Fin cfg7.N, win7_0.index t (0 : Fin 2) = win7_2.index t (0 : Fin 2)
    ∧ win7_0.index t (1 : Fin 2) = win7_2.index t (1 : Fin 2)
    ∧ win7_1.index t (0 : Fin 2) = 0 ∧ win7_1.index t (1 : Fin 2) = 0
    ∧ win7_2.index t (0 : Fin 2) ≤ 9 ∧ win7_2.index t (1 : Fin 2) = 0 :=
  (by decide +kernel : ∀ t : Fin grid7.N, _)

theorem idx_onto7 : ∀ q0 : Fin 10, ∃ t : Fin cfg7.N, win7_2.index t = ![q0.val, 0] :=
  (by decide +kernel : ∀ q0 : Fin 10, ∃ t : Fin grid7.N, win7_2.index t = ![q0.val, 0])

theorem flushed7_eq (c : Dev nD) (t : Fin cfg7.N) :
    (dat7 V c).flushed 2 t = ((cfg7.win 2).blk t).view.read (Elt Ideal) (rowAdd7 (V c main_v89) (V c main_v90)) := by
  show (cfg7.win 2).cut (grid7.coords t) ((dat7 V c).after 2 t) = _
  rw [after7_2]
  unfold out7_2
  rw [View.canon_unit_zero hz7]
  simp only [View.ld_unit_zero (S := S10000x32) hz7, View.ld_unit_zero (S := S1x32) hz7]
  obtain ⟨e0, e1, e2, e3, e4, e5⟩ := idx_facts7 t
  funext j
  refine (pay7_apply (iblk7 V c 0 t) (iblk7 V c 1 t) j).trans ?_
  have h0 : iblk7 V c 0 t j = V c main_v89 (((cfg7.win 2).blk t).view.emb j) := by
    show V c main_v89 (((cfg7.win 0).blk t).view.emb j) = V c main_v89 (((cfg7.win 2).blk t).view.emb j)
    refine congrArg (V c main_v89) ?_
    funext a; apply Fin.ext
    match a with
    | ⟨0, _⟩ => show win7_0.index t (0 : Fin 2) * 10000 + 1 * (j 0).val = win7_2.index t (0 : Fin 2) * 10000 + 1 * (j 0).val; omega
    | ⟨1, _⟩ => show win7_0.index t (1 : Fin 2) * 32 + 1 * (j 1).val = win7_2.index t (1 : Fin 2) * 32 + 1 * (j 1).val; omega
  have h1 : iblk7 V c 1 t (ix2 (0 : Fin 1) (j 1 : Fin 32))
      = V c main_v90 (ix2 (0 : Fin 1) ((((cfg7.win 2).blk t).view.emb j) 1 : Fin 32)) := by
    show V c main_v90 (((cfg7.win 1).blk t).view.emb (ix2 (0 : Fin 1) (j 1 : Fin 32))) = _
    refine congrArg (V c main_v90) ?_
    funext a; apply Fin.ext
    match a with
    | ⟨0, _⟩ => show win7_1.index t (0 : Fin 2) * 1 + 1 * 0 = 0; omega
    | ⟨1, _⟩ => show win7_1.index t (1 : Fin 2) * 32 + 1 * (j 1).val = win7_2.index t (1 : Fin 2) * 32 + 1 * (j 1).val; omega
  rw [h0, h1]
  rfl

theorem mem_blk7 (t : Fin cfg7.N) (i : S100000x32.Idx) :
    i ∈ ((cfg7.win 2).blk t).view.set ↔ ∀ a : Fin 2, win7_2.index t a * S10000x32.size a ≤ (i a).val ∧ (i a).val < win7_2.index t a * S10000x32.size a + S10000x32.size a := by
  show i ∈ ((View.whole main_v91).slice (win7_2.rect t)).set ↔ _
  rw [View.set_slice_whole, Rect.mem_set_unit]
  exact Iff.rfl

theorem cover7 (i : S100000x32.Idx) : ∃ t : Fin cfg7.N, (cfg7.win 2).flush t = true ∧ i ∈ ((cfg7.win 2).blk t).view.set := by
  have hi0 : (i 0).val < 100000 := (i 0).isLt
  have hi1 : (i 1).val < 32 := (i 1).isLt
  obtain ⟨t, ht⟩ := idx_onto7 ⟨(i 0).val / 10000, by omega⟩
  have q0 : win7_2.index t (0 : Fin 2) = (i 0).val / 10000 := congrFun ht 0
  have q1 : win7_2.index t (1 : Fin 2) = 0 := congrFun ht 1
  refine ⟨t, flush7_2 t, ?_⟩
  rw [mem_blk7]
  intro a
  match a with
  | ⟨0, _⟩ => show win7_2.index t (0 : Fin 2) * 10000 ≤ (i 0).val ∧ (i 0).val < win7_2.index t (0 : Fin 2) * 10000 + 10000; omega
  | ⟨1, _⟩ => show win7_2.index t (1 : Fin 2) * 32 ≤ (i 1).val ∧ (i 1).val < win7_2.index t (1 : Fin 2) * 32 + 32; omega

/-- Block by block every row has the bias row added, and the blocks tile the output. -/
theorem final7_eq (c : Dev nD) : (dat7 V c).arrAt 2 cfg7.N = rowAdd7 (V c main_v89) (V c main_v90) :=
  (dat7 V c).arrAt_eq_of_cover 2 _ (fun t _ => flushed7_eq V c t) cover7

theorem final7 (c : Dev nD) (i : S100000x32.Idx) :
    (dat7 V c).arrAt 2 cfg7.N i = rowAdd7 (V c main_v89) (V c main_v90) i :=
  congrFun (final7_eq V c) i

end Cert.KernelIdeal.Hand

end
-- ==== Proof.KI.LeakyLaw.lean ====
import Idealize.ShloMosaic.PureOps.Ideal
import Idealize.ShloMosaic.PureOps.Ideal.Laws
import Idealize.ShloMosaic.Lib.ValueIdx

noncomputable section

namespace Cert.KernelIdeal.Hand

open Idealize.ShloMosaic Idealize.ShloMosaic.ValueIdx

theorem slope_real : ∃ q : ℝ, 0 < q ∧ Ideal.ofBits .f32 0x3E99999A#32 = (q : EReal) := by
  refine ⟨_, ?_, by simp [Ideal.ofBits, Ideal.ieee, -EReal.coe_mul]; rfl⟩
  positivity

theorem slope_pos : (0 : EReal) < Ideal.ofBits .f32 0x3E99999A#32 := by
  obtain ⟨q, hq, e⟩ := slope_real
  rw [e]; exact_mod_cast hq

theorem leaky_max_scalar (y : EReal) :
    max (Scalar.select (Ideal.cmp .ogt y 0) y (Ideal.ofBits .f32 0x3E99999A#32 * y)) 0 = max y 0 := by
  obtain ⟨q, hq, e⟩ := slope_real
  rw [e]
  by_cases hy : (0 : EReal) < y
  · have : Ideal.cmp .ogt y 0 = 1#1 := by simp [Ideal.cmp, hy]
    rw [this, select_one]
  · have : Ideal.cmp .ogt y 0 = 0#1 := by simp [Ideal.cmp, hy]
    rw [this, select_zero]
    have hy0 : y ≤ 0 := not_lt.1 hy
    rw [max_eq_right hy0]
    apply max_eq_right
    induction y using EReal.rec with
    | bot => rw [EReal.coe_mul_bot_of_pos hq]; exact bot_le
    | top => exact absurd (EReal.zero_lt_top) hy
    | coe r =>
      have hr : r ≤ 0 := by exact_mod_cast hy0
      rw [← EReal.coe_mul]
      exact_mod_cast mul_nonpos_of_nonneg_of_nonpos hq.le hr

theorem leaky_max {s : Shape} (a : FVec Ideal s .f32) :
    maximumf (select (cmpf .ogt a (broadcast s (Scalar.ofBits (F := Ideal) .f32 0x00000000#32))) a
        (mulf (broadcast s (Scalar.ofBits (F := Ideal) .f32 0x3E99999A#32)) a))
      (broadcast s (Scalar.ofBits (F := Ideal) .f32 0x00000000#32))
    = maximumf a (broadcast s (Scalar.ofBits (F := Ideal) .f32 0x00000000#32)) := by
  funext i
  rw [maximumf_apply, maximumf_apply, select_apply, cmpf_apply, mulf_apply, broadcast_apply, broadcast_apply]
  show max (Scalar.select (Ideal.cmp .ogt (a i) (Ideal.ofBits .f32 0x00000000#32)) (a i) (Ideal.ofBits .f32 0x3E99999A#32 * a i))
      (Ideal.ofBits .f32 0x00000000#32) = max (a i) (Ideal.ofBits .f32 0x00000000#32)
  rw [Ideal.ofBits_zero_f32]
  exact leaky_max_scalar (a i)

end Cert.KernelIdeal.Hand

end
-- ==== Proof.KI.HostVal.lean ====
import proofs.«417219_j7851200218009_2_alg».proof.Proof.Gen.KernelIdeal.Regions
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.StableHlo

variable {F : FTy → Type} [FloatOps F]

def selfLoops : IVec S100000 32 := iotaInDim S100000 32 0

def srcIdx (ei : IVec S2x1600000 32) : IVec S1700000 32 :=
  concatenate S1700000 0
    [⟨S1600000, shapeCast S1600000 (extractStridedSlice S1x1600000 ![0, 0] ei slices_S2x1600000_S1x1600000_0_0) shapeCasts_S1x1600000_S1600000⟩,
     ⟨S100000, selfLoops⟩] concatenates_S1600000_S100000_S1700000_d0

def dstIdx (ei : IVec S2x1600000 32) : IVec S1700000 32 :=
  concatenate S1700000 0
    [⟨S1600000, shapeCast S1600000 (extractStridedSlice S1x1600000 ![1, 0] ei slices_S2x1600000_S1x1600000_1_0) shapeCasts_S1x1600000_S1600000⟩,
     ⟨S100000, selfLoops⟩] concatenates_S1600000_S100000_S1700000_d0

def wrapNode (i : IVec S1700000 32) : IVec S1700000 32 :=
  select (cmpi .slt i (broadcastInDim S1700000 ![] bcast_S_S1700000 (constantI S_ 32 0#32)))
    (addi i (broadcastInDim S1700000 ![] bcast_S_S1700000 (constantI S_ 32 100000#32))) i

def asColumn (i : IVec S1700000 32) : IVec S1700000x1 32 :=
  broadcastInDim S1700000x1 ![0] bcast_S1700000_S1700000x1_0 i

def degree (dst : IVec S1700000 32) : FVec F S100000 .f32 :=
  Host.scatterAdd scatter_S100000_S1700000x1_S1700000_n_0_0_1
    (broadcastInDim S100000 ![] bcast_S_S100000 (constant (F := F) S_ .f32 0x00000000#32))
    (asColumn dst)
    (broadcastInDim S1700000 ![] bcast_S_S1700000 (constant (F := F) S_ .f32 0x3F800000#32))

def invSqrtDegree (dst : IVec S1700000 32) : FVec F S100000 .f32 :=
  select (cmpf .ogt (degree (F := F) dst) (broadcastInDim S100000 ![] bcast_S_S100000 (constant (F := F) S_ .f32 0x00000000#32)))
    (Host.rsqrt (degree (F := F) dst))
    (broadcastInDim S100000 ![] bcast_S_S100000 (constant (F := F) S_ .f32 0x00000000#32))

def edgeNormOf (src dst : IVec S1700000 32) : FVec F S1700000 .f32 :=
  mulf (Host.gather gather_S100000_S1700000x1_S1700000_n_0_n_n_0_1_1 (invSqrtDegree (F := F) dst) (asColumn (wrapNode src)))
    (Host.gather gather_S100000_S1700000x1_S1700000_n_0_n_n_0_1_1 (invSqrtDegree (F := F) dst) (asColumn (wrapNode dst)))

def edgeNorm (ei : IVec S2x1600000 32) : FVec F S1700000 .f32 :=
  edgeNormOf (srcIdx ei) (dstIdx ei)

def agg64 (norm : FVec F S1700000 .f32) (src dst : IVec S1700000 32) (hw : FVec F S100000x64 .f32) : FVec F S100000x64 .f32 :=
  Host.scatterAdd scatter_S100000x64_S1700000x1_S1700000x64_1_0_0_1
    (broadcastInDim S100000x64 ![] bcast_S_S100000x64 (constant (F := F) S_ .f32 0x00000000#32))
    (asColumn dst)
    (mulf (broadcastInDim S1700000x64 ![0, 1] bcast_S1700000x1_S1700000x64_0_1 (broadcastInDim S1700000x1 ![0] bcast_S1700000_S1700000x1_0 norm))
      (Host.gather gather_S100000x64_S1700000x1_S1700000x64_1_0_n_n_0_1_164 hw (asColumn (wrapNode src))))

def agg32 (norm : FVec F S1700000 .f32) (src dst : IVec S1700000 32) (hw : FVec F S100000x32 .f32) : FVec F S100000x32 .f32 :=
  Host.scatterAdd scatter_S100000x32_S1700000x1_S1700000x32_1_0_0_1
    (broadcastInDim S100000x32 ![] bcast_S_S100000x32 (constant (F := F) S_ .f32 0x00000000#32))
    (asColumn dst)
    (mulf (broadcastInDim S1700000x32 ![0, 1] bcast_S1700000x1_S1700000x32_0_1 (broadcastInDim S1700000x1 ![0] bcast_S1700000_S1700000x1_0 norm))
      (Host.gather gather_S100000x32_S1700000x1_S1700000x32_1_0_n_n_0_1_132 hw (asColumn (wrapNode src))))

def biasRow (b : FVec F S32 .f32) : FVec F S1x32 .f32 := shapeCast S1x32 b shapeCasts_S32_S1x32

def graphColumn (g : IVec S100000 32) : IVec S100000x1 32 := shapeCast S100000x1 g shapeCasts_S100000_S100000x1

variable (W : Valuation τ sig (Elt F))

theorem host1_v43 : StableHlo.after hostOps1 W main_v43 = agg64 (W main_v29) (W main_v3) (W main_v6) (W main_v30) := by
  show StableHlo.after hostOps1 W (Proc.devRef .tc main_v43) = _
  after_results_simp
  rfl

theorem host3_v58 : StableHlo.after hostOps3 W main_v58 = agg64 (W main_v29) (W main_v3) (W main_v6) (W main_v45) := by
  show StableHlo.after hostOps3 W (Proc.devRef .tc main_v58) = _
  after_results_simp
  rfl

theorem host5_v73 : StableHlo.after hostOps5 W main_v73 = agg32 (W main_v29) (W main_v3) (W main_v6) (W main_v60) := by
  show StableHlo.after hostOps5 W (Proc.devRef .tc main_v73) = _
  after_results_simp
  rfl

theorem host5_v74 : StableHlo.after hostOps5 W main_v74 = biasRow (W main_arg6) := by
  show StableHlo.after hostOps5 W (Proc.devRef .tc main_v74) = _
  after_results_simp
  rfl

theorem host7_v89 : StableHlo.after hostOps7 W main_v89 = agg32 (W main_v29) (W main_v3) (W main_v6) (W main_v76) := by
  show StableHlo.after hostOps7 W (Proc.devRef .tc main_v89) = _
  after_results_simp
  rfl

theorem host7_v90 : StableHlo.after hostOps7 W main_v90 = biasRow (W main_arg8) := by
  show StableHlo.after hostOps7 W (Proc.devRef .tc main_v90) = _
  after_results_simp
  rfl

theorem host8_v92 : StableHlo.after hostOps8 W main_v92 = graphColumn (W main_arg2) := by
  show StableHlo.after hostOps8 W (Proc.devRef .tc main_v92) = _
  after_results_simp
  rfl

theorem host0_v3 : StableHlo.after hostOps0_2 (StableHlo.after hostOps0_1 (StableHlo.after hostOps0 W)) main_v3 = srcIdx (W main_arg1) := by
  show StableHlo.after hostOps0_2 (StableHlo.after hostOps0_1 (StableHlo.after hostOps0 W)) (Proc.devRef .tc main_v3) = _
  after_results_simp
  rfl

theorem host0_v6 : StableHlo.after hostOps0_2 (StableHlo.after hostOps0_1 (StableHlo.after hostOps0 W)) main_v6 = dstIdx (W main_arg1) := by
  show StableHlo.after hostOps0_2 (StableHlo.after hostOps0_1 (StableHlo.after hostOps0 W)) (Proc.devRef .tc main_v6) = _
  after_results_simp
  rfl

theorem host0_v29 : StableHlo.after hostOps0_2 (StableHlo.after hostOps0_1 (StableHlo.after hostOps0 W)) main_v29 = edgeNorm (W main_arg1) := by
  show StableHlo.after hostOps0_2 (StableHlo.after hostOps0_1 (StableHlo.after hostOps0 W)) (Proc.devRef .tc main_v29) = _
  after_results_simp
  rfl

end Cert.KernelIdeal.Hand
-- ==== Proof.KI.ValR.lean ====
import proofs.«417219_j7851200218009_2_alg».proof.Proof.KI.Val1
import proofs.«417219_j7851200218009_2_alg».proof.Proof.KI.Val3
import proofs.«417219_j7851200218009_2_alg».proof.Proof.KI.Val5
import proofs.«417219_j7851200218009_2_alg».proof.Proof.KI.Val7
import proofs.«417219_j7851200218009_2_alg».proof.Proof.KI.LeakyLaw
import proofs.«417219_j7851200218009_2_alg».proof.Proof.KI.HostVal
import proofs.«417219_j7851200218009_2_alg».proof.Proof.RefSpec

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem select_gt_zero (y a b : EReal) : Scalar.select (Ideal.cmp .ogt y 0) a b = if 0 < y then a else b := by
  by_cases h : (0 : EReal) < y
  · have e : Ideal.cmp .ogt y 0 = 1#1 := by simp [Ideal.cmp, h]
    rw [e, select_one, if_pos h]
  · have e : Ideal.cmp .ogt y 0 = 0#1 := by simp [Ideal.cmp, h]
    rw [e, select_zero, if_neg h]

theorem leaky_eq_leakyR (a : FVec Ideal S100000x64 .f32) : leaky a = Cert.ReferenceIdeal.Hand.leakyR (F := Ideal) a := by
  funext i
  rw [leaky_apply, Cert.ReferenceIdeal.Hand.leakyR_apply, select_gt_zero]

theorem relu_eq_reluR (a : FVec Ideal S100000x64 .f32) : relu a = Cert.ReferenceIdeal.Hand.reluR (F := Ideal) a := by
  funext i
  rw [relu_apply, Cert.ReferenceIdeal.Hand.reluR_apply]

theorem biasRow_apply (b : FVec Ideal S32 .f32) (k : Fin 32) : biasRow b (ix2 (0 : Fin 1) k) = b (ix1 k) := by
  unfold biasRow
  refine shapeCast_apply b shapeCasts_S32_S1x32 (ix2 (0 : Fin 1) k) (ix1 k) ?_
  rw [Shape.rowMajor_val_one, Shape.rowMajor_val_two]
  show k.val = 0 * 32 + k.val
  omega

theorem final1R (c : Dev nD) : (dat1 V c).arrAt 1 cfg1.N = Cert.ReferenceIdeal.Hand.leakyR (F := Ideal) (V c main_v43) :=
  (final1_eq V c).trans (leaky_eq_leakyR _)

theorem final3R (c : Dev nD) : (dat3 V c).arrAt 1 cfg3.N = Cert.ReferenceIdeal.Hand.reluR (F := Ideal) (V c main_v58) :=
  (final3_eq V c).trans (relu_eq_reluR _)

theorem final5R (c : Dev nD) (b : FVec Ideal S32 .f32) (hb : V c main_v74 = biasRow b) :
    (dat5 V c).arrAt 2 cfg5.N = Cert.ReferenceIdeal.Hand.biasR (F := Ideal) (V c main_v73) b := by
  refine (final5_eq V c).trans ?_
  rw [hb]
  funext i
  rw [rowAdd5_apply, Cert.ReferenceIdeal.Hand.biasR_apply_ix]
  exact congrArg (fun z : EReal => @HAdd.hAdd EReal EReal EReal _ (V c main_v73 i) z) (biasRow_apply b (i 1))

theorem final7R (c : Dev nD) (b : FVec Ideal S32 .f32) (hb : V c main_v90 = biasRow b) :
    (dat7 V c).arrAt 2 cfg7.N = Cert.ReferenceIdeal.Hand.biasR (F := Ideal) (V c main_v89) b := by
  refine (final7_eq V c).trans ?_
  rw [hb]
  funext i
  rw [rowAdd7_apply, Cert.ReferenceIdeal.Hand.biasR_apply_ix]
  exact congrArg (fun z : EReal => @HAdd.hAdd EReal EReal EReal _ (V c main_v89 i) z) (biasRow_apply b (i 1))

theorem relu_leakyR (a : FVec Ideal S100000x64 .f32) :
    Cert.ReferenceIdeal.Hand.reluR (F := Ideal) (Cert.ReferenceIdeal.Hand.leakyR (F := Ideal) a) = Cert.ReferenceIdeal.Hand.reluR (F := Ideal) a := by
  funext i
  rw [Cert.ReferenceIdeal.Hand.reluR_apply, Cert.ReferenceIdeal.Hand.reluR_apply, Cert.ReferenceIdeal.Hand.leakyR_apply,
    ← select_gt_zero]
  exact leaky_max_scalar (a i)

end Cert.KernelIdeal.Hand

end
-- ==== Proof.KI.Val8.lean ====
import proofs.«417219_j7851200218009_2_alg».proof.Proof.KI.R8
import Idealize.ShloMosaic.Lib.ValueIdx
import Idealize.ShloMosaic.Lib.IdealHost
import Idealize.ShloMosaic.Lib.FinSumWindow
import Idealize.ShloMosaic.PureOps.Ideal.Laws
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open scoped BigOperators

theorem pool_word_eq_ofNat_iff (x : BitVec 32) (j : ℕ) (hj : j < 64) : x = BitVec.ofNat 32 j ↔ BitVec.toInt x = (j : ℤ) := by
  rw [← BitVec.toNat_inj, BitVec.toNat_ofNat, BitVec.toInt_eq_toNat_cond]
  have h1 := x.isLt
  have h32 : (2 : ℕ) ^ 32 = 4294967296 := by norm_num
  rw [h32] at h1 ⊢
  split <;> omega

theorem pool_hotWord (x : BitVec 32) (j : ℕ) (hj : j < 64) :
    BitVec.toInt ((IntOp.cmpi .eq x (BitVec.ofNat 32 j)).setWidth 32) = if BitVec.toInt x = (j : ℤ) then 1 else 0 := by
  unfold IntOp.cmpi
  by_cases h : x = BitVec.ofNat 32 j
  · rw [if_pos ((pool_word_eq_ofNat_iff x j hj).mp h)]
    subst h
    simp
  · rw [if_neg (mt (pool_word_eq_ofNat_iff x j hj).mpr h)]
    have hb : (x == BitVec.ofNat 32 j) = false := by simpa using h
    show BitVec.toInt ((BitVec.ofBool (x == BitVec.ofNat 32 j)).setWidth 32) = 0
    rw [hb]
    decide

theorem pool_pay1_apply (i : S64x32.Idx) : k8_pay1 (F := Ideal) i = 0 := by
  unfold k8_pay1
  refine (congrFun (shapeCast_self _ _) i).trans ?_
  show Ideal.ofBits .f32 0x00000000#32 = 0
  exact Ideal.ofBits_zero_f32

theorem pool_pay2_apply (i : S64x1.Idx) : k8_pay2 (F := Ideal) i = 0 := by
  unfold k8_pay2
  refine (congrFun (shapeCast_self _ _) i).trans ?_
  show Ideal.ofBits .f32 0x00000000#32 = 0
  exact Ideal.ofBits_zero_f32

theorem pool_pay3_apply (g0 : Vec Ideal S10000x1 .i32) (r : Fin 10000) (j : Fin 64) :
    k8_pay3 (F := Ideal) g0 (ix2 r j) = if BitVec.toInt (g0 (ix2 r 0)) = (j.val : ℤ) then 1 else 0 := by
  have hb : broadcastTo S10000x64 (shapeCast S10000x1 g0 shapeCasts_S10000x1_S10000x1) broadcasts_S10000x1_S10000x64 (ix2 r j) = g0 (ix2 r 0) := by
    rw [shapeCast_self]
    exact broadcastTo_apply g0 _ (ix2 r j) (ix2 r 0) (fun a => by match a with | ⟨0, _⟩ => rfl | ⟨1, _⟩ => rfl)
  have hi : iota .tc S10000x64 32 [1] iota_S10000x64_d1_w32 (ix2 r j) = BitVec.ofNat 32 j.val :=
    iota_single_apply .tc S10000x64 32 1 _ (ix2 r j)
  have h : k8_pay3 (F := Ideal) g0 (ix2 r j)
      = (((BitVec.toInt ((IntOp.cmpi .eq (broadcastTo S10000x64 (shapeCast S10000x1 g0 shapeCasts_S10000x1_S10000x1) broadcasts_S10000x1_S10000x64 (ix2 r j))
          (iota .tc S10000x64 32 [1] iota_S10000x64_d1_w32 (ix2 r j))).setWidth 32) : ℤ) : ℝ) : EReal) := rfl
  rw [h, hb, hi, pool_hotWord _ _ j.isLt]
  split <;> simp

theorem poolSumDot_lhs0 (j : S64x32.Idx) (q : dot_S10000x64_S10000x32_S64x32_0_0_1_1_n_n.contr.Idx) :
    (dot_S10000x64_S10000x32_S64x32_0_0_1_1_n_n.lhsIdx j q 0).val = (q ⟨0, by decide⟩).val :=
  dot_S10000x64_S10000x32_S64x32_0_0_1_1_n_n.lhsIdx_val_of_single rfl j q

theorem poolSumDot_lhs1 (j : S64x32.Idx) (q : dot_S10000x64_S10000x32_S64x32_0_0_1_1_n_n.contr.Idx) :
    (dot_S10000x64_S10000x32_S64x32_0_0_1_1_n_n.lhsIdx j q 1).val = (j 0).val := by
  unfold DotDims.lhsIdx
  rw [dif_neg (show ¬(1 : Fin S10000x64.rank) ∈ dot_S10000x64_S10000x32_S64x32_0_0_1_1_n_n.lhsBatch by decide),
    dif_pos (show (1 : Fin S10000x64.rank) ∈ dot_S10000x64_S10000x32_S64x32_0_0_1_1_n_n.lhsNonContracting by decide)]
  rfl

theorem poolSumDot_rhs0 (j : S64x32.Idx) (q : dot_S10000x64_S10000x32_S64x32_0_0_1_1_n_n.contr.Idx) :
    (dot_S10000x64_S10000x32_S64x32_0_0_1_1_n_n.rhsIdx j q 0).val = (q ⟨0, by decide⟩).val :=
  dot_S10000x64_S10000x32_S64x32_0_0_1_1_n_n.rhsIdx_val_of_single rfl j q

theorem poolSumDot_rhs1 (j : S64x32.Idx) (q : dot_S10000x64_S10000x32_S64x32_0_0_1_1_n_n.contr.Idx) :
    (dot_S10000x64_S10000x32_S64x32_0_0_1_1_n_n.rhsIdx j q 1).val = (j 1).val := by
  unfold DotDims.rhsIdx
  rw [dif_neg (show ¬(1 : Fin S10000x32.rank) ∈ dot_S10000x64_S10000x32_S64x32_0_0_1_1_n_n.rhsBatch by decide),
    dif_pos (show (1 : Fin S10000x32.rank) ∈ dot_S10000x64_S10000x32_S64x32_0_0_1_1_n_n.rhsNonContracting by decide)]
  rfl

theorem poolSumDot_lhs (a : Fin 64) (d : Fin 32) (r : Fin 10000) :
    dot_S10000x64_S10000x32_S64x32_0_0_1_1_n_n.lhsIdx (ix2 a d) ((contrEquiv1 dot_S10000x64_S10000x32_S64x32_0_0_1_1_n_n 10000 rfl rfl).symm r) = ix2 r a := by
  have hk := contrEquiv1_symm_val dot_S10000x64_S10000x32_S64x32_0_0_1_1_n_n 10000 rfl rfl r
  exact funext fun a => Fin.ext (by
    match a with
    | ⟨0, _⟩ => exact (poolSumDot_lhs0 _ _).trans hk
    | ⟨1, _⟩ => exact poolSumDot_lhs1 _ _)

theorem poolSumDot_rhs (a : Fin 64) (d : Fin 32) (r : Fin 10000) :
    dot_S10000x64_S10000x32_S64x32_0_0_1_1_n_n.rhsIdx (ix2 a d) ((contrEquiv1 dot_S10000x64_S10000x32_S64x32_0_0_1_1_n_n 10000 rfl rfl).symm r) = ix2 r d := by
  have hk := contrEquiv1_symm_val dot_S10000x64_S10000x32_S64x32_0_0_1_1_n_n 10000 rfl rfl r
  exact funext fun a => Fin.ext (by
    match a with
    | ⟨0, _⟩ => exact (poolSumDot_rhs0 _ _).trans hk
    | ⟨1, _⟩ => exact poolSumDot_rhs1 _ _)

theorem poolCntDot_lhs0 (j : S64x1.Idx) (q : dot_S10000x64_S10000x1_S64x1_0_0_1_1_n_n.contr.Idx) :
    (dot_S10000x64_S10000x1_S64x1_0_0_1_1_n_n.lhsIdx j q 0).val = (q ⟨0, by decide⟩).val :=
  dot_S10000x64_S10000x1_S64x1_0_0_1_1_n_n.lhsIdx_val_of_single rfl j q
theorem poolCntDot_lhs1 (j : S64x1.Idx) (q : dot_S10000x64_S10000x1_S64x1_0_0_1_1_n_n.contr.Idx) :
    (dot_S10000x64_S10000x1_S64x1_0_0_1_1_n_n.lhsIdx j q 1).val = (j 0).val := by
  unfold DotDims.lhsIdx
  rw [dif_neg (show ¬(1 : Fin S10000x64.rank) ∈ dot_S10000x64_S10000x1_S64x1_0_0_1_1_n_n.lhsBatch by decide),
    dif_pos (show (1 : Fin S10000x64.rank) ∈ dot_S10000x64_S10000x1_S64x1_0_0_1_1_n_n.lhsNonContracting by decide)]
  rfl
theorem poolCntDot_lhs (a : Fin 64) (r : Fin 10000) :
    dot_S10000x64_S10000x1_S64x1_0_0_1_1_n_n.lhsIdx (ix2 a 0) ((contrEquiv1 dot_S10000x64_S10000x1_S64x1_0_0_1_1_n_n 10000 rfl rfl).symm r) = ix2 r a := by
  have hk := contrEquiv1_symm_val dot_S10000x64_S10000x1_S64x1_0_0_1_1_n_n 10000 rfl rfl r
  exact funext fun a => Fin.ext (by
    match a with
    | ⟨0, _⟩ => exact (poolCntDot_lhs0 _ _).trans hk
    | ⟨1, _⟩ => exact poolCntDot_lhs1 _ _)

theorem pool_pay4_apply (x0 : Vec Ideal S10000x32 .f32) (g0 : Vec Ideal S10000x1 .i32) (s : Vec Ideal S64x32 .f32) (a : Fin 64) (d : Fin 32) :
    k8_pay4 (F := Ideal) x0 g0 s (ix2 a d)
      = s (ix2 a d) + ∑ r : Fin 10000, (if BitVec.toInt (g0 (ix2 r 0)) = (a.val : ℤ) then x0 (ix2 r d) else 0) := by
  have h : k8_pay4 (F := Ideal) x0 g0 s (ix2 a d)
      = shapeCast S64x32 (addf s (FloatOps.matmul dot_S10000x64_S10000x32_S64x32_0_0_1_1_n_n none (k8_pay3 (F := Ideal) g0)
          (truncf .bf16 (shapeCast S10000x32 x0 shapeCasts_S10000x32_S10000x32) bitsLt_bf16_f32) (constant S64x32 .f32 0x00000000#32))) shapeCasts_S64x32_S64x32 (ix2 a d) := rfl
  refine h.trans ((congrFun (shapeCast_self _ _) _).trans ?_)
  refine (addf_apply _ _ _).trans (congrArg (s (ix2 a d) + ·) ?_)
  refine (Ideal.matmul_constant_zero_apply dot_S10000x64_S10000x32_S64x32_0_0_1_1_n_n none (k8_pay3 (F := Ideal) g0)
    (truncf .bf16 (shapeCast S10000x32 x0 shapeCasts_S10000x32_S10000x32) bitsLt_bf16_f32) (ix2 a d)).trans ?_
  rw [← Equiv.sum_comp (contrEquiv1 dot_S10000x64_S10000x32_S64x32_0_0_1_1_n_n 10000 rfl rfl).symm]
  refine Finset.sum_congr rfl fun r _ => ?_
  rw [poolSumDot_lhs, poolSumDot_rhs, pool_pay3_apply]
  have hx : (truncf .bf16 (shapeCast S10000x32 x0 shapeCasts_S10000x32_S10000x32) bitsLt_bf16_f32 : FVec Ideal S10000x32 .bf16) (ix2 r d) = x0 (ix2 r d) :=
    congrFun (shapeCast_self x0 _) _
  refine (congrArg (_ * ·) hx).trans ?_
  split
  · exact one_mul _
  · exact zero_mul _

theorem pool_pay5_apply (g0 : Vec Ideal S10000x1 .i32) (n : Vec Ideal S64x1 .f32) (a : Fin 64) :
    k8_pay5 (F := Ideal) g0 n (ix2 a 0)
      = n (ix2 a 0) + ∑ r : Fin 10000, (if BitVec.toInt (g0 (ix2 r 0)) = (a.val : ℤ) then (1 : EReal) else 0) := by
  have h : k8_pay5 (F := Ideal) g0 n (ix2 a 0)
      = shapeCast S64x1 (addf n (FloatOps.matmul dot_S10000x64_S10000x1_S64x1_0_0_1_1_n_n none (k8_pay3 (F := Ideal) g0)
          (broadcast S10000x1 (Scalar.ofBits (F := Ideal) .bf16 0x3F80#16)) (constant S64x1 .f32 0x00000000#32))) shapeCasts_S64x1_S64x1 (ix2 a 0) := rfl
  refine h.trans ((congrFun (shapeCast_self _ _) _).trans ?_)
  refine (addf_apply _ _ _).trans (congrArg (n (ix2 a 0) + ·) ?_)
  refine (Ideal.matmul_constant_zero_apply dot_S10000x64_S10000x1_S64x1_0_0_1_1_n_n none (k8_pay3 (F := Ideal) g0)
    (broadcast S10000x1 (Scalar.ofBits (F := Ideal) .bf16 0x3F80#16)) (ix2 a 0)).trans ?_
  rw [← Equiv.sum_comp (contrEquiv1 dot_S10000x64_S10000x1_S64x1_0_0_1_1_n_n 10000 rfl rfl).symm]
  refine Finset.sum_congr rfl fun r _ => ?_
  rw [poolCntDot_lhs, pool_pay3_apply]
  have hone : (broadcast S10000x1 (Scalar.ofBits (F := Ideal) .bf16 0x3F80#16) : FVec Ideal S10000x1 .bf16) (dot_S10000x64_S10000x1_S64x1_0_0_1_1_n_n.rhsIdx (ix2 a 0) ((contrEquiv1 dot_S10000x64_S10000x1_S64x1_0_0_1_1_n_n 10000 rfl rfl).symm r)) = 1 :=
    Ideal.ofBits_one_bf16
  refine (congrArg (_ * ·) hone).trans ?_
  exact mul_one _

theorem pool_pay6_apply (s : Vec Ideal S64x32 .f32) (n : Vec Ideal S64x1 .f32) (a : Fin 64) (d : Fin 32) :
    k8_pay6 (F := Ideal) s n (ix2 a d) = Ideal.div (s (ix2 a d)) (max (n (ix2 a 0)) 1) := by
  have h : k8_pay6 (F := Ideal) s n (ix2 a d)
      = Ideal.div (s (ix2 a d)) (broadcastTo S64x32 (maximumf n (broadcast S64x1 (Scalar.ofBits (F := Ideal) .f32 0x3F800000#32))) broadcasts_S64x1_S64x32 (ix2 a d)) := rfl
  rw [h, broadcastTo_apply _ _ (ix2 a d) (ix2 a 0) (fun b => by match b with | ⟨0, _⟩ => rfl | ⟨1, _⟩ => rfl)]
  show Ideal.div (s (ix2 a d)) (max (n (ix2 a 0)) (Ideal.ofBits .f32 0x3F800000#32)) = _
  rw [Ideal.ofBits_one_f32]

theorem pool_sum_below_add {N : ℕ} (W lo : ℕ) (h : lo + W ≤ N) (f : Fin N → EReal) :
    (∑ r : Fin N, if r.val < lo + W then f r else 0)
      = (∑ r : Fin N, if r.val < lo then f r else 0) + ∑ p : Fin W, f ⟨lo + p.val, by have := p.isLt; omega⟩ := by
  have hw := FinSumWindow.sum_window (W := W) lo h (fun r : Fin N => if lo ≤ r.val ∧ r.val < lo + W then f r else 0)
    (fun P hP => if_neg hP)
  have hw' : (∑ p : Fin W, (fun r : Fin N => if lo ≤ r.val ∧ r.val < lo + W then f r else 0) ⟨lo + p.val, by have := p.isLt; omega⟩)
      = ∑ p : Fin W, f ⟨lo + p.val, by have := p.isLt; omega⟩ :=
    Finset.sum_congr rfl fun p _ => if_pos ⟨Nat.le_add_right _ _, Nat.add_lt_add_left p.isLt _⟩
  rw [← hw', ← hw, ← Finset.sum_add_distrib]
  refine Finset.sum_congr rfl fun r _ => ?_
  by_cases h1 : r.val < lo
  · have h2 : r.val < lo + W := by omega
    have h3 : ¬(lo ≤ r.val ∧ r.val < lo + W) := fun h' => by omega
    rw [if_pos h2, if_pos h1, if_neg h3, add_zero]
  · by_cases h2 : r.val < lo + W
    · have h3 : lo ≤ r.val ∧ r.val < lo + W := ⟨by omega, h2⟩
      rw [if_pos h2, if_neg h1, if_pos h3, zero_add]
    · have h3 : ¬(lo ≤ r.val ∧ r.val < lo + W) := fun h' => h2 h'.2
      rw [if_neg h2, if_neg h1, if_neg h3, add_zero]

theorem pool_sum_below_first {N : ℕ} (W : ℕ) (h : W ≤ N) (f : Fin N → EReal) :
    (∑ r : Fin N, if r.val < W then f r else 0) = ∑ p : Fin W, f ⟨0 + p.val, by have := p.isLt; omega⟩ := by
  have e := pool_sum_below_add W 0 (by omega) f
  have z : (∑ r : Fin N, if r.val < 0 then f r else 0) = 0 :=
    Finset.sum_eq_zero fun r _ => if_neg (Nat.not_lt_zero _)
  rw [z] at e
  refine Eq.trans (Finset.sum_congr rfl fun r _ => ?_) (e.trans (zero_add _))
  rw [Nat.zero_add]

theorem pool_sum_below_all {N : ℕ} (f : Fin N → EReal) : (∑ r : Fin N, if r.val < N then f r else 0) = ∑ r : Fin N, f r :=
  Finset.sum_congr rfl fun r _ => if_pos r.isLt

def poolRowsUpTo {N : ℕ} (W : ℕ) (f : Fin N → EReal) (n : ℕ) : EReal := ∑ r : Fin N, if r.val < (n + 1) * W then f r else 0

theorem poolRowsUpTo_zero {N : ℕ} (W : ℕ) (h : W ≤ N) (f : Fin N → EReal) (F : Fin W → EReal)
    (hF : ∀ p : Fin W, F p = f ⟨0 * W + p.val, by have := p.isLt; omega⟩) :
    poolRowsUpTo W f 0 = ∑ p : Fin W, F p := by
  unfold poolRowsUpTo
  rw [show (0 + 1) * W = W by omega, pool_sum_below_first W h f]
  refine Finset.sum_congr rfl fun p _ => ?_
  rw [hF p]
  exact congrArg f (Fin.ext (by show 0 + p.val = 0 * W + p.val; omega))

theorem poolRowsUpTo_succ {N : ℕ} (W : ℕ) (f : Fin N → EReal) (n : ℕ) (h : (n + 1) * W + W ≤ N) (F : Fin W → EReal)
    (hF : ∀ p : Fin W, F p = f ⟨(n + 1) * W + p.val, by have := p.isLt; omega⟩) :
    poolRowsUpTo W f (n + 1) = poolRowsUpTo W f n + ∑ p : Fin W, F p := by
  unfold poolRowsUpTo
  rw [show (n + 1 + 1) * W = (n + 1) * W + W from Nat.succ_mul _ _, pool_sum_below_add W ((n + 1) * W) h f]
  exact congrArg _ (Finset.sum_congr rfl fun p _ => (hF p).symm)

theorem poolRowsUpTo_last {N : ℕ} (W : ℕ) (f : Fin N → EReal) (n : ℕ) (h : (n + 1) * W = N) :
    poolRowsUpTo W f n = ∑ r : Fin N, f r := by
  unfold poolRowsUpTo
  rw [h]
  exact pool_sum_below_all f

variable (V : (c : Dev nD) → (b : Ref sig .tc) → Buf (Elt Ideal) ((c : Thread nD τ).loc b))

theorem pool_row_lt (t : Fin cfg8.N) (r : Fin 10000) : t.val * 10000 + r.val < 100000 := by
  have h : t.val < 10 := lt_of_lt_of_eq t.isLt (show cfg8.N = 10 from N_8)
  have := r.isLt
  omega

def poolRowOf (t : Fin cfg8.N) (r : Fin 10000) : Fin 100000 := ⟨t.val * 10000 + r.val, pool_row_lt t r⟩

theorem idx8_0 : ∀ t : Fin cfg8.N, (cfg8.win 0).index t 0 = t.val ∧ (cfg8.win 0).index t 1 = 0 :=
  (by decide +kernel : ∀ t : Fin grid8.N, win8_0.index t 0 = t.val ∧ win8_0.index t 1 = 0)

theorem idx8_1 : ∀ t : Fin cfg8.N, (cfg8.win 1).index t 0 = t.val ∧ (cfg8.win 1).index t 1 = 0 :=
  (by decide +kernel : ∀ t : Fin grid8.N, win8_1.index t 0 = t.val ∧ win8_1.index t 1 = 0)

theorem idx8_2 : ∀ t : Fin cfg8.N, (cfg8.win 2).index t 0 = 0 ∧ (cfg8.win 2).index t 1 = 0 :=
  (by decide +kernel : ∀ t : Fin grid8.N, win8_2.index t 0 = 0 ∧ win8_2.index t 1 = 0)

theorem blk8_0_apply (c : Dev nD) (t : Fin cfg8.N) (r : Fin 10000) (d : Fin 32) :
    iblk8 V c 0 t (ix2 r d) = V c main_v75 (ix2 (poolRowOf t r) d) := by
  show V c main_v75 (((cfg8.win 0).rect t).emb (ix2 r d)) = V c main_v75 (ix2 (poolRowOf t r) d)
  refine congrArg (V c main_v75) (funext fun a => Fin.ext ?_)
  rw [Window.rect_emb_val]
  match a with
  | ⟨0, _⟩ =>
    show (cfg8.win 0).index t 0 * 10000 + r.val = t.val * 10000 + r.val
    rw [(idx8_0 t).1]
  | ⟨1, _⟩ =>
    show (cfg8.win 0).index t 1 * 32 + d.val = d.val
    rw [(idx8_0 t).2]; omega

theorem blk8_1_apply (c : Dev nD) (t : Fin cfg8.N) (r : Fin 10000) :
    iblk8 V c 1 t (ix2 r 0) = V c main_v92 (ix2 (poolRowOf t r) 0) := by
  show V c main_v92 (((cfg8.win 1).rect t).emb (ix2 r 0)) = V c main_v92 (ix2 (poolRowOf t r) 0)
  refine congrArg (V c main_v92) (funext fun a => Fin.ext ?_)
  rw [Window.rect_emb_val]
  match a with
  | ⟨0, _⟩ =>
    show (cfg8.win 1).index t 0 * 10000 + r.val = t.val * 10000 + r.val
    rw [(idx8_1 t).1]
  | ⟨1, _⟩ =>
    show (cfg8.win 1).index t 1 * 1 + 0 = 0
    rw [(idx8_1 t).2]

def poolFeatOf (c : Dev nD) (g : Fin 64) (d : Fin 32) (n : Fin 100000) : EReal :=
  if BitVec.toInt (V c main_v92 (ix2 n 0)) = (g.val : ℤ) then V c main_v75 (ix2 n d) else 0

def poolOneOf (c : Dev nD) (g : Fin 64) (n : Fin 100000) : EReal :=
  if BitVec.toInt (V c main_v92 (ix2 n 0)) = (g.val : ℤ) then 1 else 0

theorem poolBlockFeat (c : Dev nD) (t : Fin cfg8.N) (g : Fin 64) (d : Fin 32) (r : Fin 10000) :
    ((if BitVec.toInt (iblk8 V c 1 t (ix2 r 0)) = (g.val : ℤ) then iblk8 V c 0 t (ix2 r d) else 0 : EReal))
      = poolFeatOf V c g d (poolRowOf t r) := by
  unfold poolFeatOf; rw [blk8_1_apply, blk8_0_apply]

theorem poolBlockOne (c : Dev nD) (t : Fin cfg8.N) (g : Fin 64) (r : Fin 10000) :
    (if BitVec.toInt (iblk8 V c 1 t (ix2 r 0)) = (g.val : ℤ) then (1 : EReal) else 0) = poolOneOf V c g (poolRowOf t r) := by
  unfold poolOneOf; rw [blk8_1_apply]

theorem acc8_fst_apply (c : Dev nD) (g : Fin 64) (d : Fin 32) :
    ∀ (n : ℕ) (hn : n < cfg8.N), (acc8 V c n hn).1 (ix2 g d) = poolRowsUpTo 10000 (poolFeatOf V c g d) n
  | 0, hn => by
    rw [acc8_zero]
    show k8_pay4 (F := Ideal) (iblk8 V c 0 ⟨0, hn⟩) (iblk8 V c 1 ⟨0, hn⟩) (k8_pay1 (F := Ideal)) (ix2 g d) = _
    rw [pool_pay4_apply, pool_pay1_apply, zero_add]
    refine Eq.trans (Finset.sum_congr rfl fun r _ => ?_)
      (poolRowsUpTo_zero 10000 (by decide) (poolFeatOf V c g d) (fun p => poolFeatOf V c g d (poolRowOf ⟨0, hn⟩ p)) (fun p => rfl)).symm
    exact poolBlockFeat V c ⟨0, hn⟩ g d r
  | n + 1, hn => by
    have hN : n + 1 < 10 := lt_of_lt_of_eq hn (show cfg8.N = 10 from N_8)
    rw [acc8_succ]
    show k8_pay4 (F := Ideal) (iblk8 V c 0 ⟨n + 1, hn⟩) (iblk8 V c 1 ⟨n + 1, hn⟩) (acc8 V c n (Nat.lt_of_succ_lt hn)).1 (ix2 g d) = _
    rw [pool_pay4_apply, acc8_fst_apply c g d n (Nat.lt_of_succ_lt hn)]
    refine Eq.trans (congrArg _ (Finset.sum_congr rfl fun r _ => ?_))
      (poolRowsUpTo_succ 10000 (poolFeatOf V c g d) n (by omega) (fun p => poolFeatOf V c g d (poolRowOf ⟨n + 1, hn⟩ p)) (fun p => rfl)).symm
    exact poolBlockFeat V c ⟨n + 1, hn⟩ g d r

theorem acc8_snd_apply (c : Dev nD) (g : Fin 64) :
    ∀ (n : ℕ) (hn : n < cfg8.N), (acc8 V c n hn).2 (ix2 g 0) = poolRowsUpTo 10000 (poolOneOf V c g) n
  | 0, hn => by
    rw [acc8_zero]
    show k8_pay5 (F := Ideal) (iblk8 V c 1 ⟨0, hn⟩) (k8_pay2 (F := Ideal)) (ix2 g 0) = _
    rw [pool_pay5_apply, pool_pay2_apply, zero_add]
    refine Eq.trans (Finset.sum_congr rfl fun r _ => ?_)
      (poolRowsUpTo_zero 10000 (by decide) (poolOneOf V c g) (fun p => poolOneOf V c g (poolRowOf ⟨0, hn⟩ p)) (fun p => rfl)).symm
    exact poolBlockOne V c ⟨0, hn⟩ g r
  | n + 1, hn => by
    have hN : n + 1 < 10 := lt_of_lt_of_eq hn (show cfg8.N = 10 from N_8)
    rw [acc8_succ]
    show k8_pay5 (F := Ideal) (iblk8 V c 1 ⟨n + 1, hn⟩) (acc8 V c n (Nat.lt_of_succ_lt hn)).2 (ix2 g 0) = _
    rw [pool_pay5_apply, acc8_snd_apply c g n (Nat.lt_of_succ_lt hn)]
    refine Eq.trans (congrArg _ (Finset.sum_congr rfl fun r _ => ?_))
      (poolRowsUpTo_succ 10000 (poolOneOf V c g) n (by omega) (fun p => poolOneOf V c g (poolRowOf ⟨n + 1, hn⟩ p)) (fun p => rfl)).symm
    exact poolBlockOne V c ⟨n + 1, hn⟩ g r

theorem arr8_final_of {c : Dev nD} (dat : Dat τ (Elt Ideal) Unit ℕ (UR sig nD τ) ℕ cfg8 c) (g : Fin 64) (d : Fin 32) :
    dat.arrAt 2 cfg8.N (ix2 g d) = dat.after 2 t8_9 (ix2 g d) := by
  have hN : cfg8.N = 10 := N_8
  have hdisj : ∀ t t' : Fin cfg8.N, (cfg8.win 2).flush t = true → (cfg8.win 2).flush t' = true → t ≠ t' →
      Disjoint ((cfg8.win 2).blk t).view.set ((cfg8.win 2).blk t').view.set := by
    intro t t' hf hf' hne
    exfalso
    have h1 := (flush8_2 t).mp hf
    have h2 := (flush8_2 t').mp hf'
    have := t.isLt
    have := t'.isLt
    exact hne (Fin.ext (by omega))
  have hf : (cfg8.win 2).flush t8_9 = true := (flush8_2 t8_9).mpr rfl
  have h := dat.arrAt_emb_eq_flushed 2 hdisj t8_9 hf (ix2 g d)
  have he : ((cfg8.win 2).blk t8_9).view.emb (ix2 g d) = ix2 g d :=
    funext fun a => Fin.ext (by
      match a with
      | ⟨0, _⟩ => exact Window.rect_emb_val_of_index_zero (cfg8.win 2) t8_9 0 (idx8_2 t8_9).1 (ix2 g d)
      | ⟨1, _⟩ => exact Window.rect_emb_val_of_index_zero (cfg8.win 2) t8_9 1 (idx8_2 t8_9).2 (ix2 g d))
  exact (congrArg (dat.arrAt 2 cfg8.N) he).symm.trans h

theorem arr8_final (c : Dev nD) (g : Fin 64) (d : Fin 32) :
    (dat8 (F := Ideal) V c).arrAt 2 cfg8.N (ix2 g d) = (dat8 (F := Ideal) V c).after 2 t8_9 (ix2 g d) :=
  arr8_final_of (dat8 (F := Ideal) V c) g d

theorem final8 (c : Dev nD) (g : Fin 64) (d : Fin 32) :
    (dat8 (F := Ideal) V c).arrAt 2 cfg8.N (ix2 g d)
      = Ideal.div (∑ n : Fin 100000, if BitVec.toInt (V c main_v92 (ix2 n 0)) = (g.val : ℤ) then V c main_v75 (ix2 n d) else 0)
          (max (∑ n : Fin 100000, if BitVec.toInt (V c main_v92 (ix2 n 0)) = (g.val : ℤ) then (1 : EReal) else 0) 1) := by
  rw [arr8_final, after8_2_last]
  refine (pool_pay6_apply _ _ g d).trans ?_
  rw [acc8_fst_apply V c g d 9 t8_9.isLt, acc8_snd_apply V c g 9 t8_9.isLt,
    poolRowsUpTo_last 10000 _ 9 (by decide), poolRowsUpTo_last 10000 _ 9 (by decide)]
  unfold poolFeatOf poolOneOf
  rfl

end Cert.KernelIdeal.Hand

end
-- ==== Proof.KI.Val8R.lean ====
import proofs.«417219_j7851200218009_2_alg».proof.Proof.KI.Val8
import proofs.«417219_j7851200218009_2_alg».proof.Proof.KI.HostVal
import proofs.«417219_j7851200218009_2_alg».proof.Proof.RefSpec
import proofs.«417219_j7851200218009_2_alg».proof.Proof.LibSegmentScatter

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open scoped BigOperators

variable (V : (c : Dev nD) → (b : Ref sig .tc) → Buf (Elt Ideal) ((c : Thread nD τ).loc b))

theorem pool_graphColumn_apply (g : IVec S100000 32) (n : Fin 100000) : graphColumn g (ix2 n 0) = g (ix1 n) := by
  unfold graphColumn
  refine shapeCast_apply g _ (ix2 n 0) (ix1 n) ?_
  rw [Shape.rowMajor_val_one, Shape.rowMajor_val_two]
  show n.val = n.val * 1 + 0
  omega

theorem final8R (c : Dev nD) (g : IVec S100000 32) (hg : V c main_v92 = graphColumn g) :
    (dat8 (F := Ideal) V c).arrAt 2 cfg8.N = Cert.ReferenceIdeal.Hand.poolR (F := Ideal) (V c main_v75) g := by
  funext i
  obtain ⟨a, d, rfl⟩ : ∃ (a : Fin 64) (d : Fin 32), i = ix2 a d := ⟨i 0, i 1, eq_ix2 i⟩
  rw [final8, Cert.ReferenceIdeal.Hand.poolR_apply]
  have hcol : ∀ n : Fin 100000, V c main_v92 (ix2 n 0) = g (ix1 n) := fun n => by rw [hg]; exact pool_graphColumn_apply g n
  simp only [hcol]

end Cert.KernelIdeal.Hand

end
-- ==== Proof.KI.HostCross.lean ====
import proofs.«417219_j7851200218009_2_alg».proof.Proof.KI.HostVal
import proofs.«417219_j7851200218009_2_alg».proof.Proof.RefSpec

set_option maxRecDepth 16384

noncomputable section

namespace Cert.KernelIdeal.Hand

open Idealize.ShloMosaic

variable {F : FTy → Type} [FloatOps F]

theorem srcIdx_eq : srcIdx = Cert.ReferenceIdeal.Hand.srcIdxR (F := F) := by
  funext ei
  unfold srcIdx selfLoops Cert.ReferenceIdeal.Hand.srcIdxR Cert.ReferenceIdeal.Read.val_main_v3 Cert.ReferenceIdeal.Read.val_main_v2 Cert.ReferenceIdeal.Read.val_main_v1 Cert.ReferenceIdeal.Read.val_main_v0
  rfl

theorem dstIdx_eq : dstIdx = Cert.ReferenceIdeal.Hand.dstIdxR (F := F) := by
  funext ei
  unfold dstIdx selfLoops Cert.ReferenceIdeal.Hand.dstIdxR Cert.ReferenceIdeal.Read.val_main_v6 Cert.ReferenceIdeal.Read.val_main_v5 Cert.ReferenceIdeal.Read.val_main_v4 Cert.ReferenceIdeal.Read.val_main_v0
  rfl

theorem degree_eq (ei : IVec Cert.KernelIdeal.S2x1600000 32) :
    degree (F := F) (dstIdx ei) = Cert.ReferenceIdeal.Read.val_main_v10 (F := F) ei := by
  unfold degree asColumn Cert.ReferenceIdeal.Read.val_main_v10 Cert.ReferenceIdeal.Read.val_main_v9 Cert.ReferenceIdeal.Read.val_main_v8 Cert.ReferenceIdeal.Read.val_main_v7
    Cert.ReferenceIdeal.Read.val_main_cst Cert.ReferenceIdeal.Read.val_main_cst_0
  rw [dstIdx_eq (F := F)]
  rfl

theorem invSqrtDegree_eq (ei : IVec Cert.KernelIdeal.S2x1600000 32) :
    invSqrtDegree (F := F) (dstIdx ei) = Cert.ReferenceIdeal.Read.val_main_v14 (F := F) ei := by
  unfold invSqrtDegree Cert.ReferenceIdeal.Read.val_main_v14 Cert.ReferenceIdeal.Read.val_main_v13 Cert.ReferenceIdeal.Read.val_main_v12 Cert.ReferenceIdeal.Read.val_main_v11
    Cert.ReferenceIdeal.Read.val_main_call0_v1 Cert.ReferenceIdeal.Read.val_main_call0_v0 Cert.ReferenceIdeal.Read.val_main_cst_1 Cert.ReferenceIdeal.Read.val_main_cst_2
  rw [degree_eq (F := F)]
  rfl

theorem edgeNorm_eq : edgeNorm (F := F) = Cert.ReferenceIdeal.Hand.edgeNormR (F := F) := by
  funext ei
  unfold edgeNorm edgeNormOf Cert.ReferenceIdeal.Hand.edgeNormR Cert.ReferenceIdeal.Read.val_main_v29 Cert.ReferenceIdeal.Read.val_main_v28 Cert.ReferenceIdeal.Read.val_main_v27
    Cert.ReferenceIdeal.Read.val_main_v26 Cert.ReferenceIdeal.Read.val_main_v25 Cert.ReferenceIdeal.Read.val_main_v24 Cert.ReferenceIdeal.Read.val_main_c_5 Cert.ReferenceIdeal.Read.val_main_v23
    Cert.ReferenceIdeal.Read.val_main_v22 Cert.ReferenceIdeal.Read.val_main_c_4 Cert.ReferenceIdeal.Read.val_main_v21 Cert.ReferenceIdeal.Read.val_main_v20 Cert.ReferenceIdeal.Read.val_main_v19
    Cert.ReferenceIdeal.Read.val_main_v18 Cert.ReferenceIdeal.Read.val_main_v17 Cert.ReferenceIdeal.Read.val_main_c_3 Cert.ReferenceIdeal.Read.val_main_v16 Cert.ReferenceIdeal.Read.val_main_v15
    Cert.ReferenceIdeal.Read.val_main_c
  rw [invSqrtDegree_eq (F := F)]
  unfold asColumn wrapNode srcIdx dstIdx selfLoops Cert.ReferenceIdeal.Read.val_main_v3 Cert.ReferenceIdeal.Read.val_main_v2 Cert.ReferenceIdeal.Read.val_main_v1
    Cert.ReferenceIdeal.Read.val_main_v6 Cert.ReferenceIdeal.Read.val_main_v5 Cert.ReferenceIdeal.Read.val_main_v4 Cert.ReferenceIdeal.Read.val_main_v0
  rfl

theorem agg64_eq (nrm : FVec F Cert.KernelIdeal.S1700000 .f32) (src dst : IVec Cert.KernelIdeal.S1700000 32)
    (hw : FVec F Cert.KernelIdeal.S100000x64 .f32) :
    agg64 (F := F) nrm src dst hw = Cert.ReferenceIdeal.Hand.aggR64 nrm src dst hw := by
  unfold agg64 Cert.ReferenceIdeal.Hand.aggR64 asColumn wrapNode
  rfl

theorem agg32_eq (nrm : FVec F Cert.KernelIdeal.S1700000 .f32) (src dst : IVec Cert.KernelIdeal.S1700000 32)
    (hw : FVec F Cert.KernelIdeal.S100000x32 .f32) :
    agg32 (F := F) nrm src dst hw = Cert.ReferenceIdeal.Hand.aggR32 nrm src dst hw := by
  unfold agg32 Cert.ReferenceIdeal.Hand.aggR32 asColumn wrapNode
  rfl

end Cert.KernelIdeal.Hand
-- ==== Proof.Bridge.lean ====
import proofs.«417219_j7851200218009_2_alg».proof.Proof.KI.FoldVal
import proofs.«417219_j7851200218009_2_alg».proof.Proof.KI.Val0
import proofs.«417219_j7851200218009_2_alg».proof.Proof.KI.Val2
import proofs.«417219_j7851200218009_2_alg».proof.Proof.KI.Val4
import proofs.«417219_j7851200218009_2_alg».proof.Proof.KI.Val6
import proofs.«417219_j7851200218009_2_alg».proof.Proof.KI.ValR
import proofs.«417219_j7851200218009_2_alg».proof.Proof.KI.Val8R
import proofs.«417219_j7851200218009_2_alg».proof.Proof.KI.HostVal
import proofs.«417219_j7851200218009_2_alg».proof.Proof.KI.HostCross
import proofs.«417219_j7851200218009_2_alg».proof.Proof.RefSpec

set_option maxRecDepth 16384

noncomputable section

namespace Cert.KernelIdeal.Hand

open Cert.KernelIdeal Cert.KernelIdeal.Gen
open Idealize.ShloMosaic Idealize.ShloMosaic.TcCoe
open Idealize.SL Idealize.SL.Sem
open Cert.ReferenceIdeal.Hand Cert.ReferenceIdeal.Read

variable (m : (ℓ : Loc nD τ sig) → Buf (Elt Ideal) ℓ) (c : Dev nD)

theorem step4' (r : Ref sig .tc) (h : r ∉ ([main_v30] : List (Ref sig .tc))) :
    X4 m c (no_index (Proc.devRef .tc r)) = X3 m c (Proc.devRef .tc r) := step4 m c r h
theorem step5' (r : Ref sig .tc) (h : r ∉ (hostOps1_W : List (Ref sig .tc))) :
    X5 m c (no_index (Proc.devRef .tc r)) = X4 m c (Proc.devRef .tc r) := step5 m c r h
theorem step6' (r : Ref sig .tc) (h : r ∉ ([main_v44] : List (Ref sig .tc))) :
    X6 m c (no_index (Proc.devRef .tc r)) = X5 m c (Proc.devRef .tc r) := step6 m c r h
theorem step7' (r : Ref sig .tc) (h : r ∉ ([main_v45] : List (Ref sig .tc))) :
    X7 m c (no_index (Proc.devRef .tc r)) = X6 m c (Proc.devRef .tc r) := step7 m c r h
theorem step8' (r : Ref sig .tc) (h : r ∉ (hostOps3_W : List (Ref sig .tc))) :
    X8 m c (no_index (Proc.devRef .tc r)) = X7 m c (Proc.devRef .tc r) := step8 m c r h
theorem step9' (r : Ref sig .tc) (h : r ∉ ([main_v59] : List (Ref sig .tc))) :
    X9 m c (no_index (Proc.devRef .tc r)) = X8 m c (Proc.devRef .tc r) := step9 m c r h
theorem step10' (r : Ref sig .tc) (h : r ∉ ([main_v60] : List (Ref sig .tc))) :
    X10 m c (no_index (Proc.devRef .tc r)) = X9 m c (Proc.devRef .tc r) := step10 m c r h
theorem step11' (r : Ref sig .tc) (h : r ∉ (hostOps5_W : List (Ref sig .tc))) :
    X11 m c (no_index (Proc.devRef .tc r)) = X10 m c (Proc.devRef .tc r) := step11 m c r h
theorem step12' (r : Ref sig .tc) (h : r ∉ ([main_v75] : List (Ref sig .tc))) :
    X12 m c (no_index (Proc.devRef .tc r)) = X11 m c (Proc.devRef .tc r) := step12 m c r h
theorem step13' (r : Ref sig .tc) (h : r ∉ ([main_v76] : List (Ref sig .tc))) :
    X13 m c (no_index (Proc.devRef .tc r)) = X12 m c (Proc.devRef .tc r) := step13 m c r h
theorem step14' (r : Ref sig .tc) (h : r ∉ (hostOps7_W : List (Ref sig .tc))) :
    X14 m c (no_index (Proc.devRef .tc r)) = X13 m c (Proc.devRef .tc r) := step14 m c r h
theorem step15' (r : Ref sig .tc) (h : r ∉ ([main_v91] : List (Ref sig .tc))) :
    X15 m c (no_index (Proc.devRef .tc r)) = X14 m c (Proc.devRef .tc r) := step15 m c r h
theorem step16' (r : Ref sig .tc) (h : r ∉ (hostOps8_W : List (Ref sig .tc))) :
    X16 m c (no_index (Proc.devRef .tc r)) = X15 m c (Proc.devRef .tc r) := step16 m c r h
theorem step17' (r : Ref sig .tc) (h : r ∉ ([main_v93] : List (Ref sig .tc))) :
    X17 m c (no_index (Proc.devRef .tc r)) = X16 m c (Proc.devRef .tc r) := step17 m c r h
theorem X3_keep' (r : Ref sig .tc) (h1 : r ∉ hostOps0_W) (h2 : r ∉ hostOps0_1_W) (h3 : r ∉ hostOps0_2_W) :
    X3 m c (no_index (Proc.devRef .tc r)) = m ((c : Thread nD τ).loc r) := X3_keep m c r h1 h2 h3

local macro "keeps" : tactic =>
  `(tactic| simp (disch := decide) only [step4', step5', step6', step7', step8', step9', step10', step11', step12', step13', step14', step15', step16', step17', X3_keep'])

theorem src_eq : X3 m c main_v3 = val_main_v3 (F := Ideal) (m ((c : Thread nD τ).loc main_arg1)) :=
  (host0_v3 (Gen.V0 m c)).trans (congrFun (srcIdx_eq (F := Ideal)) _)
theorem dst_eq : X3 m c main_v6 = val_main_v6 (F := Ideal) (m ((c : Thread nD τ).loc main_arg1)) :=
  (host0_v6 (Gen.V0 m c)).trans (congrFun (dstIdx_eq (F := Ideal)) _)
theorem norm_eq : X3 m c main_v29 = val_main_v29 (F := Ideal) (m ((c : Thread nD τ).loc main_arg1)) :=
  (host0_v29 (Gen.V0 m c)).trans (congrFun (edgeNorm_eq (F := Ideal)) _)

theorem v30_eq : X4 m c main_v30 = val_main_v30 (F := Ideal) (m ((c : Thread nD τ).loc main_arg0)) (m ((c : Thread nD τ).loc main_arg3)) := by
  rw [X4_out]; unfold arr0; rw [final0]
  show dotR64 (F := Ideal) (X3 m c main_arg0) (X3 m c main_arg3) = _
  keeps; rfl

theorem v43_eq : X5 m c main_v43 = val_main_v43 (F := Ideal) (m ((c : Thread nD τ).loc main_arg0)) (m ((c : Thread nD τ).loc main_arg1)) (m ((c : Thread nD τ).loc main_arg3)) := by
  rw [show X5 m c main_v43 = _ from host1_v43 (X4 m c), v30_eq]
  keeps
  rw [src_eq, dst_eq, norm_eq, agg64_eq, stage_v43]; rfl

theorem v44_eq : X6 m c main_v44 = val_main_v48 (F := Ideal) (m ((c : Thread nD τ).loc main_arg0)) (m ((c : Thread nD τ).loc main_arg1)) (m ((c : Thread nD τ).loc main_arg3)) := by
  rw [X6_out]; unfold arr1; rw [final1R]
  show leakyR (F := Ideal) (X5 m c main_v43) = _
  rw [v43_eq, stage_v48]

theorem v45_eq : X7 m c main_v45 = val_main_v49 (F := Ideal) (m ((c : Thread nD τ).loc main_arg0)) (m ((c : Thread nD τ).loc main_arg1)) (m ((c : Thread nD τ).loc main_arg3)) (m ((c : Thread nD τ).loc main_arg4)) := by
  rw [X7_out]; unfold arr2; rw [final2]
  show dotR64 (F := Ideal) (X6 m c main_v44) (X6 m c main_arg4) = _
  rw [v44_eq]; keeps; rw [stage_v49]

theorem v58_eq : X8 m c main_v58 = val_main_v62 (F := Ideal) (m ((c : Thread nD τ).loc main_arg0)) (m ((c : Thread nD τ).loc main_arg1)) (m ((c : Thread nD τ).loc main_arg3)) (m ((c : Thread nD τ).loc main_arg4)) := by
  rw [show X8 m c main_v58 = _ from host3_v58 (X7 m c), v45_eq]
  keeps
  rw [src_eq, dst_eq, norm_eq, agg64_eq, stage_v62]; rfl

theorem v59_eq : X9 m c main_v59 = val_main_v68 (F := Ideal) (m ((c : Thread nD τ).loc main_arg0)) (m ((c : Thread nD τ).loc main_arg1)) (m ((c : Thread nD τ).loc main_arg3)) (m ((c : Thread nD τ).loc main_arg4)) := by
  rw [X9_out]; unfold arr3; rw [final3R]
  show reluR (F := Ideal) (X8 m c main_v58) = _
  rw [v58_eq, stage_v68, stage_v67, relu_leakyR]

theorem v60_eq : X10 m c main_v60 = val_main_v69 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  rw [X10_out]; unfold arr4; rw [final4]
  show dotR32 (F := Ideal) (X9 m c main_v59) (X9 m c main_arg5) = _
  rw [v59_eq]; keeps; rw [stage_v69]

theorem v73_eq : X11 m c main_v73 = val_main_v82 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  rw [show X11 m c main_v73 = _ from host5_v73 (X10 m c), v60_eq]
  keeps
  rw [src_eq, dst_eq, norm_eq, agg32_eq, stage_v82]; rfl

theorem v74_eq : X11 m c main_v74 = biasRow (F := Ideal) (m ((c : Thread nD τ).loc main_arg6)) := by
  rw [show X11 m c main_v74 = _ from host5_v74 (X10 m c)]; keeps

theorem v75_eq : X12 m c main_v75 = val_main_v85 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  rw [X12_out]; unfold arr5; rw [final5R (atTc (X11 m)) c _ (v74_eq m c)]
  show biasR (F := Ideal) (X11 m c main_v73) _ = _
  rw [v73_eq, stage_v85]

theorem v76_eq : X13 m c main_v76 = val_main_v86 (F := Ideal) (m ((c : Thread nD τ).loc main_arg0)) (m ((c : Thread nD τ).loc main_arg1)) (m ((c : Thread nD τ).loc main_arg3)) (m ((c : Thread nD τ).loc main_arg4)) (m ((c : Thread nD τ).loc main_arg7)) := by
  rw [X13_out]; unfold arr6; rw [final6]
  show dotR32 (F := Ideal) (X12 m c main_v59) (X12 m c main_arg7) = _
  keeps; rw [v59_eq, stage_v86]

theorem v89_eq : X14 m c main_v89 = val_main_v99 (F := Ideal) (m ((c : Thread nD τ).loc main_arg0)) (m ((c : Thread nD τ).loc main_arg1)) (m ((c : Thread nD τ).loc main_arg3)) (m ((c : Thread nD τ).loc main_arg4)) (m ((c : Thread nD τ).loc main_arg7)) := by
  rw [show X14 m c main_v89 = _ from host7_v89 (X13 m c), v76_eq]
  keeps
  rw [src_eq, dst_eq, norm_eq, agg32_eq, stage_v99]; rfl

theorem v90_eq : X14 m c main_v90 = biasRow (F := Ideal) (m ((c : Thread nD τ).loc main_arg8)) := by
  rw [show X14 m c main_v90 = _ from host7_v90 (X13 m c)]; keeps

theorem v91_eq : X15 m c main_v91 = val_main_v102 (F := Ideal) (m ((c : Thread nD τ).loc main_arg0)) (m ((c : Thread nD τ).loc main_arg1)) (m ((c : Thread nD τ).loc main_arg3)) (m ((c : Thread nD τ).loc main_arg4)) (m ((c : Thread nD τ).loc main_arg7)) (m ((c : Thread nD τ).loc main_arg8)) := by
  rw [X15_out]; unfold arr7; rw [final7R (atTc (X14 m)) c _ (v90_eq m c)]
  show biasR (F := Ideal) (X14 m c main_v89) _ = _
  rw [v89_eq, stage_v102]

theorem v92_eq : X16 m c main_v92 = graphColumn (m ((c : Thread nD τ).loc main_arg2)) := by
  rw [show X16 m c main_v92 = _ from host8_v92 (X15 m c)]; keeps

theorem v93_eq : X17 m c main_v93 = val_main_v114 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  rw [X17_out]; unfold arr8; rw [final8R (atTc (X16 m)) c _ (v92_eq m c)]
  show poolR (F := Ideal) (X16 m c main_v75) _ = _
  keeps; rw [v75_eq, stage_v114]

theorem out0_eq : X17 m c main_v75 = val_main_v85 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  keeps; exact v75_eq m c
theorem out1_eq : X17 m c main_v91 = val_main_v102 (F := Ideal) (m ((c : Thread nD τ).loc main_arg0)) (m ((c : Thread nD τ).loc main_arg1)) (m ((c : Thread nD τ).loc main_arg3)) (m ((c : Thread nD τ).loc main_arg4)) (m ((c : Thread nD τ).loc main_arg7)) (m ((c : Thread nD τ).loc main_arg8)) := by
  keeps; exact v91_eq m c

end Cert.KernelIdeal.Hand

end
-- ==== Proof.lean ====
import proofs.«417219_j7851200218009_2_alg».proof.Defs
import proofs.«417219_j7851200218009_2_alg».proof.Proof.Gen.Kernel
import proofs.«417219_j7851200218009_2_alg».proof.Proof.Gen.KernelIdeal
import proofs.«417219_j7851200218009_2_alg».proof.Proof.Gen.ReferenceIdeal
import proofs.«417219_j7851200218009_2_alg».proof.Proof.Gen.Pre_finite_inputs
import proofs.«417219_j7851200218009_2_alg».proof.Proof.K.Run
import proofs.«417219_j7851200218009_2_alg».proof.Proof.KI.Run
import proofs.«417219_j7851200218009_2_alg».proof.Proof.RefRun
import proofs.«417219_j7851200218009_2_alg».proof.Proof.RefSpec
import proofs.«417219_j7851200218009_2_alg».proof.Proof.Bridge

noncomputable section

namespace Cert.Proof

open Idealize.ShloMosaic Idealize.ShloMosaic.TcCoe Idealize.SL.Sem

theorem frame_kernel : Cert.frame_Kernel := fun m ρ _ => Cert.Kernel.Hand.frame m ρ

theorem frame_kernelIdeal : Cert.frame_KernelIdeal := fun m ρ _ => Cert.KernelIdeal.Hand.frame m ρ

theorem frame_referenceIdeal : Cert.frame_ReferenceIdeal := fun m ρ _ =>
  (θ_run Cert.ReferenceIdeal.defs _ _).mono (fun _ h c => (h c).2.2.2) (Cert.ReferenceIdeal.Value.run (F := Ideal) m ρ)

/-- Stage by stage the idealized kernel program holds what the reference's stage functions give at the same arguments. -/
theorem algebraic : Cert.algebraic_KernelIdeal_ReferenceIdeal := by
  intro m ρ m' ρ' _ hagree
  refine ⟨fun c => Cert.KernelIdeal.Hand.X17 m c Cert.KernelIdeal.main_v75, fun c => Cert.KernelIdeal.Hand.X17 m c Cert.KernelIdeal.main_v91,
    fun c => Cert.KernelIdeal.Hand.X17 m c Cert.KernelIdeal.main_v93, Cert.KernelIdeal.Hand.run_main m ρ, ?_⟩
  refine (θ_run Cert.ReferenceIdeal.defs _ _).mono (fun _ h c => ?_) (Cert.ReferenceIdeal.Value.run (F := Ideal) m' ρ')
  obtain ⟨h0, h1, h2, hargs⟩ := h c
  obtain ⟨e0, e1, e2, e3, e4, e5, e6, e7, e8⟩ := hagree c
  refine ⟨h0.trans ?_, h1.trans ?_, h2.trans ?_, hargs⟩
  · rw [show Cert.ReferenceIdeal.Value.res_main_v85 m' c = _ from Cert.ReferenceIdeal.Hand.ref_out0 m' c, e0, e1, e3, e4, e5, e6]
    exact (Cert.KernelIdeal.Hand.out0_eq m c).symm
  · rw [show Cert.ReferenceIdeal.Value.res_main_v102 m' c = _ from Cert.ReferenceIdeal.Hand.ref_out1 m' c, e0, e1, e3, e4, e7, e8]
    exact (Cert.KernelIdeal.Hand.out1_eq m c).symm
  · rw [show Cert.ReferenceIdeal.Value.res_main_v114 m' c = _ from Cert.ReferenceIdeal.Hand.ref_out2 m' c, e0, e1, e2, e3, e4, e5, e6]
    exact (Cert.KernelIdeal.Hand.v93_eq m c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
